-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v772) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x512x512 : Shape := ⟨3, ![4, 512, 512]⟩
abbrev S512x128 : Shape := ⟨2, ![512, 128]⟩
abbrev S128 : Shape := ⟨1, ![128]⟩
abbrev S128x256 : Shape := ⟨2, ![128, 256]⟩
abbrev S256 : Shape := ⟨1, ![256]⟩
abbrev S256x128 : Shape := ⟨2, ![256, 128]⟩
abbrev S_ : Shape := ⟨0, ![]⟩

class Facts : Prop where
  bcast_S_S4x512x512 : S_.BroadcastsInDim S4x512x512 (![] : Fin 0 → Fin S4x512x512.rank)
  reducesTo_S4x512x512_S_d0_1_2 : S4x512x512.ReducesTo [0, 1, 2] S_
  h_S_ : 0 < S_.numel
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_

variable [Facts]

def fn_part1 {F : FTy → Type} [FloatOps F] (main_arg4 : FVec F S256 .f32) (main_arg5 : FVec F S256x128 .f32) (main_arg6 : FVec F S128 .f32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x128 .f32 := Host.absf main_arg5
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S4x512x512 .f32) (main_arg1 : FVec F S512x128 .f32) (main_arg2 : FVec F S128 .f32) (main_arg3 : FVec F S128x256 .f32) (main_arg4 : FVec F S256 .f32) (main_arg5 : FVec F S256x128 .f32) (main_arg6 : FVec F S128 .f32) : IVec S_ 1 :=
  let main_v0 : FVec F S4x512x512 .f32 := Host.absf main_arg0
  let main_cst : FVec F S_ .f32 := constant S_ .f32 0x7F800000#32
  let main_v1 : FVec F S4x512x512 .f32 := broadcastInDim S4x512x512 ![] bcast_S_S4x512x512 main_cst
  let main_v2 : IVec S4x512x512 1 := cmpf .olt main_v0 main_v1
  let main_c : IVec S_ 1 := constantI S_ 1 1#1
  let main_v3 : IVec S_ 1 := (fun x v => Host.reduce IntOp.andi x v reducesTo_S4x512x512_S_d0_1_2 h_S_) main_v2 main_c
  let main_v4 : FVec F S512x128 .f32 := Host.absf main_arg1
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x256 .f32 := Host.absf main_arg3
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg4 main_arg5 main_arg6 main_v13 main_v16
-- ==== Kernel.lean ====
abbrev S4x512x512 : Shape := ⟨3, ![4, 512, 512]⟩
abbrev S512x128 : Shape := ⟨2, ![512, 128]⟩
abbrev S128 : Shape := ⟨1, ![128]⟩
abbrev S128x256 : Shape := ⟨2, ![128, 256]⟩
abbrev S256 : Shape := ⟨1, ![256]⟩
abbrev S256x128 : Shape := ⟨2, ![256, 128]⟩
abbrev S4x512x128 : Shape := ⟨3, ![4, 512, 128]⟩
abbrev S1x512x512 : Shape := ⟨3, ![1, 512, 512]⟩
abbrev S1x512x128 : Shape := ⟨3, ![1, 512, 128]⟩
abbrev S512x512 : Shape := ⟨2, ![512, 512]⟩
abbrev S512 : Shape := ⟨1, ![512]⟩
abbrev S512x1 : Shape := ⟨2, ![512, 1]⟩
abbrev S128x128 : Shape := ⟨2, ![128, 128]⟩
abbrev S1x256 : Shape := ⟨2, ![1, 256]⟩
abbrev S1x128 : Shape := ⟨2, ![1, 128]⟩

abbrev nBuf : Space → Nat
  | .hbm => 8
  | .vmem => 10
  | .smem => 0
  | _ => 0

abbrev bufTy : (tb : Table) → Fin (tcTables nBuf tb) → BufTy
  | .hbm, ⟨0, _⟩ => ⟨S4x512x512, .f32⟩
  | .hbm, ⟨1, _⟩ => ⟨S512x128, .f32⟩
  | .hbm, ⟨2, _⟩ => ⟨S128, .f32⟩
  | .hbm, ⟨3, _⟩ => ⟨S128x256, .f32⟩
  | .hbm, ⟨4, _⟩ => ⟨S256, .f32⟩
  | .hbm, ⟨5, _⟩ => ⟨S256x128, .f32⟩
  | .hbm, ⟨6, _⟩ => ⟨S128, .f32⟩
  | .hbm, ⟨7, _⟩ => ⟨S4x512x128, .f32⟩
  | .local _ .vmem, ⟨0, _⟩ => ⟨S1x512x512, .f32⟩
  | .local _ .vmem, ⟨1, _⟩ => ⟨S1x512x512, .f32⟩
  | .local _ .vmem, ⟨2, _⟩ => ⟨S512x128, .f32⟩
  | .local _ .vmem, ⟨3, _⟩ => ⟨S128, .f32⟩
  | .local _ .vmem, ⟨4, _⟩ => ⟨S128x256, .f32⟩
  | .local _ .vmem, ⟨5, _⟩ => ⟨S256, .f32⟩
  | .local _ .vmem, ⟨6, _⟩ => ⟨S256x128, .f32⟩
  | .local _ .vmem, ⟨7, _⟩ => ⟨S128, .f32⟩
  | .local _ .vmem, ⟨8, _⟩ => ⟨S1x512x128, .f32⟩
  | .local _ .vmem, ⟨9, _⟩ => ⟨S1x512x128, .f32⟩
  | _, _ => ⟨S4x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  reduces_S512x512_S512 : S512x512.Reduces [0] S512
  shapeCasts_S512_S512x1 : S512.ShapeCasts S512x1
  inb_S128x256_S128x256_0_0 : ∀ a, (![0, 0] : Fin 2 → Nat) a + S128x256.size a ≤ S128x256.size a
  h_S128x256 : 0 < S128x256.numel
  inb_S256x128_S256x128_0_0 : ∀ a, (![0, 0] : Fin 2 → Nat) a + S256x128.size a ≤ S256x128.size a
  h_S256x128 : 0 < S256x128.numel
  inb_S256_S256_0 : ∀ a, (![0] : Fin 1 → Nat) a + S256.size a ≤ S256.size a
  h_S256 : 0 < S256.numel
  shapeCasts_S256_S1x256 : S256.ShapeCasts S1x256
  inb_S512x128_S512x128_0_0 : ∀ a, (![0, 0] : Fin 2 → Nat) a + S512x128.size a ≤ S512x128.size a
  h_S512x128 : 0 < S512x128.numel
  broadcasts_S512x1_S512x128 : S512x1.Broadcasts S512x128
  inb_S128_S128_0 : ∀ a, (![0] : Fin 1 → Nat) a + S128.size a ≤ S128.size a
  h_S128 : 0 < S128.numel
  shapeCasts_S128_S1x128 : S128.ShapeCasts S1x128
  broadcasts_S1x128_S512x128 : S1x128.Broadcasts S512x128
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  shapeCasts_S512x128_S1x512x128 : S512x128.ShapeCasts S1x512x128
  dot_S128x256_S256x128_S128x128_1_0_0_1_n_n_wf : DotDims.WF S128x256 S256x128 S128x128 [1] [0] [0] [1] [] []
  dot_S1x256_S256x128_S1x128_1_0_0_1_n_n_wf : DotDims.WF S1x256 S256x128 S1x128 [1] [0] [0] [1] [] []
  dot_S512x512_S512x128_S512x128_1_0_0_1_n_n_wf : DotDims.WF S512x512 S512x128 S512x128 [1] [0] [0] [1] [] []
  dot_S512x512_S512x128_S512x128_0_0_1_1_n_n_wf : DotDims.WF S512x512 S512x128 S512x128 [0] [0] [1] [1] [] []
  dot_S512x128_S128x128_S512x128_1_0_0_1_n_n_wf : DotDims.WF S512x128 S128x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x512.size a ≤ S4x512x512.size a
  hwx0_0 : ∀ i : grid0.Coords, EltTy.bits .f32 = 32 ∨ (Rect.block (s := S4x512x512) S1x512x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x128.size a ≤ S256x128.size a
  hwx0_5 : ∀ i : grid0.Coords, EltTy.bits .f32 = 32 ∨ (Rect.block (s := S256x128) S256x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x512x128.size a ≤ S4x512x128.size a
  hwx0_7 : ∀ i : grid0.Coords, EltTy.bits .f32 = 32 ∨ (Rect.block (s := S4x512x128) S1x512x128.size (cc0_transform_7 i) (hinb0_7 i)).WholeWords (EltTy.packing .f32)

variable [Facts₀]

def dot_S128x256_S256x128_S128x128_1_0_0_1_n_n : DotDims S128x256 S256x128 S128x128 where
  lhsContracting := [1]
  rhsContracting := [0]
  lhsNonContracting := [0]
  rhsNonContracting := [1]
  lhsBatch := []
  rhsBatch := []
  wf := dot_S128x256_S256x128_S128x128_1_0_0_1_n_n_wf
def dot_S1x256_S256x128_S1x128_1_0_0_1_n_n : DotDims S1x256 S256x128 S1x128 where
  lhsContracting := [1]
  rhsContracting := [0]
  lhsNonContracting := [0]
  rhsNonContracting := [1]
  lhsBatch := []
  rhsBatch := []
  wf := dot_S1x256_S256x128_S1x128_1_0_0_1_n_n_wf
def dot_S512x512_S512x128_S512x128_1_0_0_1_n_n : DotDims S512x512 S512x128 S512x128 where
  lhsContracting := [1]
  rhsContracting := [0]
  lhsNonContracting := [0]
  rhsNonContracting := [1]
  lhsBatch := []
  rhsBatch := []
  wf := dot_S512x512_S512x128_S512x128_1_0_0_1_n_n_wf
def dot_S512x512_S512x128_S512x128_0_0_1_1_n_n : DotDims S512x512 S512x128 S512x128 where
  lhsContracting := [0]
  rhsContracting := [0]
  lhsNonContracting := [1]
  rhsNonContracting := [1]
  lhsBatch := []
  rhsBatch := []
  wf := dot_S512x512_S512x128_S512x128_0_0_1_1_n_n_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf

abbrev win0_0 : Pipeline.Window sig grid0 :=
  Pipeline.Window.ofSpec (Memref.whole main_arg0) S1x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0) S1x512x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S4x512x512 : Shape := ⟨3, ![4, 512, 512]⟩
abbrev S512x128 : Shape := ⟨2, ![512, 128]⟩
abbrev S128 : Shape := ⟨1, ![128]⟩
abbrev S128x256 : Shape := ⟨2, ![128, 256]⟩
abbrev S256 : Shape := ⟨1, ![256]⟩
abbrev S256x128 : Shape := ⟨2, ![256, 128]⟩
abbrev S1x512x512 : Shape := ⟨3, ![1, 512, 512]⟩
abbrev S512x512 : Shape := ⟨2, ![512, 512]⟩
abbrev S512 : Shape := ⟨1, ![512]⟩
abbrev S262144 : Shape := ⟨1, ![262144]⟩
abbrev S1x512 : Shape := ⟨2, ![1, 512]⟩
abbrev S1x262144 : Shape := ⟨2, ![1, 262144]⟩
abbrev S2x262144 : Shape := ⟨2, ![2, 262144]⟩
abbrev S262656 : Shape := ⟨1, ![262656]⟩
abbrev S_ : Shape := ⟨0, ![]⟩
abbrev S262656x1 : Shape := ⟨2, ![262656, 1]⟩
abbrev S262656x128 : Shape := ⟨2, ![262656, 128]⟩
abbrev S1x128 : Shape := ⟨2, ![1, 128]⟩
abbrev S512x256 : Shape := ⟨2, ![512, 256]⟩
abbrev S262656x256 : Shape := ⟨2, ![262656, 256]⟩
abbrev S1x256 : Shape := ⟨2, ![1, 256]⟩
abbrev S1x512x128 : Shape := ⟨3, ![1, 512, 128]⟩
abbrev S4x512x128 : Shape := ⟨3, ![4, 512, 128]⟩

abbrev nBuf : Space → Nat
  | .hbm => 996
  | .vmem => 0
  | .smem => 0
  | _ => 0

abbrev hbmTy0_0 (i : Nat) : BufTy := match i % 128 with
  | 0 => ⟨S4x512x512, .f32⟩
  | 1 => ⟨S512x128, .f32⟩
  | 2 => ⟨S128, .f32⟩
  | 3 => ⟨S128x256, .f32⟩
  | 4 => ⟨S256, .f32⟩
  | 5 => ⟨S256x128, .f32⟩
  | 6 => ⟨S128, .f32⟩
  | 7 => ⟨S1x512x512, .f32⟩
  | 8 => ⟨S512x512, .f32⟩
  | 9 => ⟨S512, .i32⟩
  | 10 => ⟨S512x512, .i32⟩
  | 11 => ⟨S262144, .i32⟩
  | 12 => ⟨S1x512, .i32⟩
  | 13 => ⟨S512x512, .i32⟩
  | 14 => ⟨S262144, .i32⟩
  | 15 => ⟨S1x262144, .i32⟩
  | 16 => ⟨S1x262144, .i32⟩
  | 17 => ⟨S2x262144, .i32⟩
  | 18 => ⟨S262144, .f32⟩
  | 19 => ⟨S512, .i32⟩
  | 20 => ⟨S1x262144, .i32⟩
  | 21 => ⟨S262144, .i32⟩
  | 22 => ⟨S262656, .i32⟩
  | 23 => ⟨S1x262144, .i32⟩
  | 24 => ⟨S262144, .i32⟩
  | 25 => ⟨S262656, .i32⟩
  | 26 => ⟨S_, .f32⟩
  | 27 => ⟨S512, .f32⟩
  | 28 => ⟨S262656, .f32⟩
  | 29 => ⟨S_, .f32⟩
  | 30 => ⟨S512, .f32⟩
  | 31 => ⟨S_, .i32⟩
  | 32 => ⟨S262656, .i32⟩
  | 33 => ⟨S262656, .i1⟩
  | 34 => ⟨S_, .i32⟩
  | 35 => ⟨S262656, .i32⟩
  | 36 => ⟨S262656, .i32⟩
  | 37 => ⟨S262656, .i32⟩
  | 38 => ⟨S262656x1, .i32⟩
  | 39 => ⟨S512, .f32⟩
  | 40 => ⟨S_, .f32⟩
  | 41 => ⟨S512, .f32⟩
  | 42 => ⟨S512, .i1⟩
  | 43 => ⟨S_, .f32⟩
  | 44 => ⟨S512, .f32⟩
  | 45 => ⟨S512, .f32⟩
  | 46 => ⟨S_, .f32⟩
  | 47 => ⟨S_, .f32⟩
  | 48 => ⟨S512, .f32⟩
  | 49 => ⟨S512, .f32⟩
  | 50 => ⟨S_, .i32⟩
  | 51 => ⟨S262656, .i32⟩
  | 52 => ⟨S262656, .i1⟩
  | 53 => ⟨S_, .i32⟩
  | 54 => ⟨S262656, .i32⟩
  | 55 => ⟨S262656, .i32⟩
  | 56 => ⟨S262656, .i32⟩
  | 57 => ⟨S262656x1, .i32⟩
  | 58 => ⟨S262656, .f32⟩
  | 59 => ⟨S262656, .f32⟩
  | 60 => ⟨S_, .i32⟩
  | 61 => ⟨S262656, .i32⟩
  | 62 => ⟨S262656, .i1⟩
  | 63 => ⟨S_, .i32⟩
  | 64 => ⟨S262656, .i32⟩
  | 65 => ⟨S262656, .i32⟩
  | 66 => ⟨S262656, .i32⟩
  | 67 => ⟨S262656x1, .i32⟩
  | 68 => ⟨S262656, .f32⟩
  | 69 => ⟨S262656, .f32⟩
  | 70 => ⟨S512x128, .f32⟩
  | 71 => ⟨S_, .f32⟩
  | 72 => ⟨S512x128, .f32⟩
  | 73 => ⟨S_, .i32⟩
  | 74 => ⟨S262656, .i32⟩
  | 75 => ⟨S262656, .i1⟩
  | 76 => ⟨S_, .i32⟩
  | 77 => ⟨S262656, .i32⟩
  | 78 => ⟨S262656, .i32⟩
  | 79 => ⟨S262656, .i32⟩
  | 80 => ⟨S262656x1, .i32⟩
  | 81 => ⟨S262656x128, .f32⟩
  | 82 => ⟨S262656x1, .f32⟩
  | 83 => ⟨S262656x128, .f32⟩
  | 84 => ⟨S262656x128, .f32⟩
  | 85 => ⟨S_, .i32⟩
  | 86 => ⟨S262656, .i32⟩
  | 87 => ⟨S262656, .i1⟩
  | 88 => ⟨S_, .i32⟩
  | 89 => ⟨S262656, .i32⟩
  | 90 => ⟨S262656, .i32⟩
  | 91 => ⟨S262656, .i32⟩
  | 92 => ⟨S262656x1, .i32⟩
  | 93 => ⟨S512x128, .f32⟩
  | 94 => ⟨S1x128, .f32⟩
  | 95 => ⟨S512x128, .f32⟩
  | 96 => ⟨S512x128, .f32⟩
  | 97 => ⟨S512, .i32⟩
  | 98 => ⟨S1x262144, .i32⟩
  | 99 => ⟨S262144, .i32⟩
  | 100 => ⟨S262656, .i32⟩
  | 101 => ⟨S1x262144, .i32⟩
  | 102 => ⟨S262144, .i32⟩
  | 103 => ⟨S262656, .i32⟩
  | 104 => ⟨S_, .f32⟩
  | 105 => ⟨S512, .f32⟩
  | 106 => ⟨S262656, .f32⟩
  | 107 => ⟨S_, .f32⟩
  | 108 => ⟨S512, .f32⟩
  | 109 => ⟨S_, .i32⟩
  | 110 => ⟨S262656, .i32⟩
  | 111 => ⟨S262656, .i1⟩
  | 112 => ⟨S_, .i32⟩
  | 113 => ⟨S262656, .i32⟩
  | 114 => ⟨S262656, .i32⟩
  | 115 => ⟨S262656, .i32⟩
  | 116 => ⟨S262656x1, .i32⟩
  | 117 => ⟨S512, .f32⟩
  | 118 => ⟨S_, .f32⟩
  | 119 => ⟨S512, .f32⟩
  | 120 => ⟨S512, .i1⟩
  | 121 => ⟨S_, .f32⟩
  | 122 => ⟨S512, .f32⟩
  | 123 => ⟨S512, .f32⟩
  | 124 => ⟨S_, .f32⟩
  | 125 => ⟨S_, .f32⟩
  | 126 => ⟨S512, .f32⟩
  | 127 => ⟨S512, .f32⟩
  | _ => ⟨S4x512x512, .f32⟩

abbrev hbmTy0_1 (i : Nat) : BufTy := match i % 128 with
  | 0 => ⟨S_, .i32⟩
  | 1 => ⟨S262656, .i32⟩
  | 2 => ⟨S262656, .i1⟩
  | 3 => ⟨S_, .i32⟩
  | 4 => ⟨S262656, .i32⟩
  | 5 => ⟨S262656, .i32⟩
  | 6 => ⟨S262656, .i32⟩
  | 7 => ⟨S262656x1, .i32⟩
  | 8 => ⟨S262656, .f32⟩
  | 9 => ⟨S262656, .f32⟩
  | 10 => ⟨S_, .i32⟩
  | 11 => ⟨S262656, .i32⟩
  | 12 => ⟨S262656, .i1⟩
  | 13 => ⟨S_, .i32⟩
  | 14 => ⟨S262656, .i32⟩
  | 15 => ⟨S262656, .i32⟩
  | 16 => ⟨S262656, .i32⟩
  | 17 => ⟨S262656x1, .i32⟩
  | 18 => ⟨S262656, .f32⟩
  | 19 => ⟨S262656, .f32⟩
  | 20 => ⟨S512x256, .f32⟩
  | 21 => ⟨S_, .f32⟩
  | 22 => ⟨S512x256, .f32⟩
  | 23 => ⟨S_, .i32⟩
  | 24 => ⟨S262656, .i32⟩
  | 25 => ⟨S262656, .i1⟩
  | 26 => ⟨S_, .i32⟩
  | 27 => ⟨S262656, .i32⟩
  | 28 => ⟨S262656, .i32⟩
  | 29 => ⟨S262656, .i32⟩
  | 30 => ⟨S262656x1, .i32⟩
  | 31 => ⟨S262656x256, .f32⟩
  | 32 => ⟨S262656x1, .f32⟩
  | 33 => ⟨S262656x256, .f32⟩
  | 34 => ⟨S262656x256, .f32⟩
  | 35 => ⟨S_, .i32⟩
  | 36 => ⟨S262656, .i32⟩
  | 37 => ⟨S262656, .i1⟩
  | 38 => ⟨S_, .i32⟩
  | 39 => ⟨S262656, .i32⟩
  | 40 => ⟨S262656, .i32⟩
  | 41 => ⟨S262656, .i32⟩
  | 42 => ⟨S262656x1, .i32⟩
  | 43 => ⟨S512x256, .f32⟩
  | 44 => ⟨S1x256, .f32⟩
  | 45 => ⟨S512x256, .f32⟩
  | 46 => ⟨S512x256, .f32⟩
  | 47 => ⟨S512, .i32⟩
  | 48 => ⟨S1x262144, .i32⟩
  | 49 => ⟨S262144, .i32⟩
  | 50 => ⟨S262656, .i32⟩
  | 51 => ⟨S1x262144, .i32⟩
  | 52 => ⟨S262144, .i32⟩
  | 53 => ⟨S262656, .i32⟩
  | 54 => ⟨S_, .f32⟩
  | 55 => ⟨S512, .f32⟩
  | 56 => ⟨S262656, .f32⟩
  | 57 => ⟨S_, .f32⟩
  | 58 => ⟨S512, .f32⟩
  | 59 => ⟨S_, .i32⟩
  | 60 => ⟨S262656, .i32⟩
  | 61 => ⟨S262656, .i1⟩
  | 62 => ⟨S_, .i32⟩
  | 63 => ⟨S262656, .i32⟩
  | 64 => ⟨S262656, .i32⟩
  | 65 => ⟨S262656, .i32⟩
  | 66 => ⟨S262656x1, .i32⟩
  | 67 => ⟨S512, .f32⟩
  | 68 => ⟨S_, .f32⟩
  | 69 => ⟨S512, .f32⟩
  | 70 => ⟨S512, .i1⟩
  | 71 => ⟨S_, .f32⟩
  | 72 => ⟨S512, .f32⟩
  | 73 => ⟨S512, .f32⟩
  | 74 => ⟨S_, .f32⟩
  | 75 => ⟨S_, .f32⟩
  | 76 => ⟨S512, .f32⟩
  | 77 => ⟨S512, .f32⟩
  | 78 => ⟨S_, .i32⟩
  | 79 => ⟨S262656, .i32⟩
  | 80 => ⟨S262656, .i1⟩
  | 81 => ⟨S_, .i32⟩
  | 82 => ⟨S262656, .i32⟩
  | 83 => ⟨S262656, .i32⟩
  | 84 => ⟨S262656, .i32⟩
  | 85 => ⟨S262656x1, .i32⟩
  | 86 => ⟨S262656, .f32⟩
  | 87 => ⟨S262656, .f32⟩
  | 88 => ⟨S_, .i32⟩
  | 89 => ⟨S262656, .i32⟩
  | 90 => ⟨S262656, .i1⟩
  | 91 => ⟨S_, .i32⟩
  | 92 => ⟨S262656, .i32⟩
  | 93 => ⟨S262656, .i32⟩
  | 94 => ⟨S262656, .i32⟩
  | 95 => ⟨S262656x1, .i32⟩
  | 96 => ⟨S262656, .f32⟩
  | 97 => ⟨S262656, .f32⟩
  | 98 => ⟨S512x128, .f32⟩
  | 99 => ⟨S_, .f32⟩
  | 100 => ⟨S512x128, .f32⟩
  | 101 => ⟨S_, .i32⟩
  | 102 => ⟨S262656, .i32⟩
  | 103 => ⟨S262656, .i1⟩
  | 104 => ⟨S_, .i32⟩
  | 105 => ⟨S262656, .i32⟩
  | 106 => ⟨S262656, .i32⟩
  | 107 => ⟨S262656, .i32⟩
  | 108 => ⟨S262656x1, .i32⟩
  | 109 => ⟨S262656x128, .f32⟩
  | 110 => ⟨S262656x1, .f32⟩
  | 111 => ⟨S262656x128, .f32⟩
  | 112 => ⟨S262656x128, .f32⟩
  | 113 => ⟨S_, .i32⟩
  | 114 => ⟨S262656, .i32⟩
  | 115 => ⟨S262656, .i1⟩
  | 116 => ⟨S_, .i32⟩
  | 117 => ⟨S262656, .i32⟩
  | 118 => ⟨S262656, .i32⟩
  | 119 => ⟨S262656, .i32⟩
  | 120 => ⟨S262656x1, .i32⟩
  | 121 => ⟨S512x128, .f32⟩
  | 122 => ⟨S1x128, .f32⟩
  | 123 => ⟨S512x128, .f32⟩
  | 124 => ⟨S512x128, .f32⟩
  | 125 => ⟨S1x512x512, .f32⟩
  | 126 => ⟨S512x512, .f32⟩
  | 127 => ⟨S512, .i32⟩
  | _ => ⟨S4x512x512, .f32⟩

abbrev hbmTy0_2 (i : Nat) : BufTy := match i % 128 with
  | 0 => ⟨S512x512, .i32⟩
  | 1 => ⟨S262144, .i32⟩
  | 2 => ⟨S1x512, .i32⟩
  | 3 => ⟨S512x512, .i32⟩
  | 4 => ⟨S262144, .i32⟩
  | 5 => ⟨S1x262144, .i32⟩
  | 6 => ⟨S1x262144, .i32⟩
  | 7 => ⟨S2x262144, .i32⟩
  | 8 => ⟨S262144, .f32⟩
  | 9 => ⟨S512, .i32⟩
  | 10 => ⟨S1x262144, .i32⟩
  | 11 => ⟨S262144, .i32⟩
  | 12 => ⟨S262656, .i32⟩
  | 13 => ⟨S1x262144, .i32⟩
  | 14 => ⟨S262144, .i32⟩
  | 15 => ⟨S262656, .i32⟩
  | 16 => ⟨S_, .f32⟩
  | 17 => ⟨S512, .f32⟩
  | 18 => ⟨S262656, .f32⟩
  | 19 => ⟨S_, .f32⟩
  | 20 => ⟨S512, .f32⟩
  | 21 => ⟨S_, .i32⟩
  | 22 => ⟨S262656, .i32⟩
  | 23 => ⟨S262656, .i1⟩
  | 24 => ⟨S_, .i32⟩
  | 25 => ⟨S262656, .i32⟩
  | 26 => ⟨S262656, .i32⟩
  | 27 => ⟨S262656, .i32⟩
  | 28 => ⟨S262656x1, .i32⟩
  | 29 => ⟨S512, .f32⟩
  | 30 => ⟨S_, .f32⟩
  | 31 => ⟨S512, .f32⟩
  | 32 => ⟨S512, .i1⟩
  | 33 => ⟨S_, .f32⟩
  | 34 => ⟨S512, .f32⟩
  | 35 => ⟨S512, .f32⟩
  | 36 => ⟨S_, .f32⟩
  | 37 => ⟨S_, .f32⟩
  | 38 => ⟨S512, .f32⟩
  | 39 => ⟨S512, .f32⟩
  | 40 => ⟨S_, .i32⟩
  | 41 => ⟨S262656, .i32⟩
  | 42 => ⟨S262656, .i1⟩
  | 43 => ⟨S_, .i32⟩
  | 44 => ⟨S262656, .i32⟩
  | 45 => ⟨S262656, .i32⟩
  | 46 => ⟨S262656, .i32⟩
  | 47 => ⟨S262656x1, .i32⟩
  | 48 => ⟨S262656, .f32⟩
  | 49 => ⟨S262656, .f32⟩
  | 50 => ⟨S_, .i32⟩
  | 51 => ⟨S262656, .i32⟩
  | 52 => ⟨S262656, .i1⟩
  | 53 => ⟨S_, .i32⟩
  | 54 => ⟨S262656, .i32⟩
  | 55 => ⟨S262656, .i32⟩
  | 56 => ⟨S262656, .i32⟩
  | 57 => ⟨S262656x1, .i32⟩
  | 58 => ⟨S262656, .f32⟩
  | 59 => ⟨S262656, .f32⟩
  | 60 => ⟨S512x128, .f32⟩
  | 61 => ⟨S_, .f32⟩
  | 62 => ⟨S512x128, .f32⟩
  | 63 => ⟨S_, .i32⟩
  | 64 => ⟨S262656, .i32⟩
  | 65 => ⟨S262656, .i1⟩
  | 66 => ⟨S_, .i32⟩
  | 67 => ⟨S262656, .i32⟩
  | 68 => ⟨S262656, .i32⟩
  | 69 => ⟨S262656, .i32⟩
  | 70 => ⟨S262656x1, .i32⟩
  | 71 => ⟨S262656x128, .f32⟩
  | 72 => ⟨S262656x1, .f32⟩
  | 73 => ⟨S262656x128, .f32⟩
  | 74 => ⟨S262656x128, .f32⟩
  | 75 => ⟨S_, .i32⟩
  | 76 => ⟨S262656, .i32⟩
  | 77 => ⟨S262656, .i1⟩
  | 78 => ⟨S_, .i32⟩
  | 79 => ⟨S262656, .i32⟩
  | 80 => ⟨S262656, .i32⟩
  | 81 => ⟨S262656, .i32⟩
  | 82 => ⟨S262656x1, .i32⟩
  | 83 => ⟨S512x128, .f32⟩
  | 84 => ⟨S1x128, .f32⟩
  | 85 => ⟨S512x128, .f32⟩
  | 86 => ⟨S512x128, .f32⟩
  | 87 => ⟨S512, .i32⟩
  | 88 => ⟨S1x262144, .i32⟩
  | 89 => ⟨S262144, .i32⟩
  | 90 => ⟨S262656, .i32⟩
  | 91 => ⟨S1x262144, .i32⟩
  | 92 => ⟨S262144, .i32⟩
  | 93 => ⟨S262656, .i32⟩
  | 94 => ⟨S_, .f32⟩
  | 95 => ⟨S512, .f32⟩
  | 96 => ⟨S262656, .f32⟩
  | 97 => ⟨S_, .f32⟩
  | 98 => ⟨S512, .f32⟩
  | 99 => ⟨S_, .i32⟩
  | 100 => ⟨S262656, .i32⟩
  | 101 => ⟨S262656, .i1⟩
  | 102 => ⟨S_, .i32⟩
  | 103 => ⟨S262656, .i32⟩
  | 104 => ⟨S262656, .i32⟩
  | 105 => ⟨S262656, .i32⟩
  | 106 => ⟨S262656x1, .i32⟩
  | 107 => ⟨S512, .f32⟩
  | 108 => ⟨S_, .f32⟩
  | 109 => ⟨S512, .f32⟩
  | 110 => ⟨S512, .i1⟩
  | 111 => ⟨S_, .f32⟩
  | 112 => ⟨S512, .f32⟩
  | 113 => ⟨S512, .f32⟩
  | 114 => ⟨S_, .f32⟩
  | 115 => ⟨S_, .f32⟩
  | 116 => ⟨S512, .f32⟩
  | 117 => ⟨S512, .f32⟩
  | 118 => ⟨S_, .i32⟩
  | 119 => ⟨S262656, .i32⟩
  | 120 => ⟨S262656, .i1⟩
  | 121 => ⟨S_, .i32⟩
  | 122 => ⟨S262656, .i32⟩
  | 123 => ⟨S262656, .i32⟩
  | 124 => ⟨S262656, .i32⟩
  | 125 => ⟨S262656x1, .i32⟩
  | 126 => ⟨S262656, .f32⟩
  | 127 => ⟨S262656, .f32⟩
  | _ => ⟨S4x512x512, .f32⟩

abbrev hbmTy0_3 (i : Nat) : BufTy := match i % 128 with
  | 0 => ⟨S_, .i32⟩
  | 1 => ⟨S262656, .i32⟩
  | 2 => ⟨S262656, .i1⟩
  | 3 => ⟨S_, .i32⟩
  | 4 => ⟨S262656, .i32⟩
  | 5 => ⟨S262656, .i32⟩
  | 6 => ⟨S262656, .i32⟩
  | 7 => ⟨S262656x1, .i32⟩
  | 8 => ⟨S262656, .f32⟩
  | 9 => ⟨S262656, .f32⟩
  | 10 => ⟨S512x256, .f32⟩
  | 11 => ⟨S_, .f32⟩
  | 12 => ⟨S512x256, .f32⟩
  | 13 => ⟨S_, .i32⟩
  | 14 => ⟨S262656, .i32⟩
  | 15 => ⟨S262656, .i1⟩
  | 16 => ⟨S_, .i32⟩
  | 17 => ⟨S262656, .i32⟩
  | 18 => ⟨S262656, .i32⟩
  | 19 => ⟨S262656, .i32⟩
  | 20 => ⟨S262656x1, .i32⟩
  | 21 => ⟨S262656x256, .f32⟩
  | 22 => ⟨S262656x1, .f32⟩
  | 23 => ⟨S262656x256, .f32⟩
  | 24 => ⟨S262656x256, .f32⟩
  | 25 => ⟨S_, .i32⟩
  | 26 => ⟨S262656, .i32⟩
  | 27 => ⟨S262656, .i1⟩
  | 28 => ⟨S_, .i32⟩
  | 29 => ⟨S262656, .i32⟩
  | 30 => ⟨S262656, .i32⟩
  | 31 => ⟨S262656, .i32⟩
  | 32 => ⟨S262656x1, .i32⟩
  | 33 => ⟨S512x256, .f32⟩
  | 34 => ⟨S1x256, .f32⟩
  | 35 => ⟨S512x256, .f32⟩
  | 36 => ⟨S512x256, .f32⟩
  | 37 => ⟨S512, .i32⟩
  | 38 => ⟨S1x262144, .i32⟩
  | 39 => ⟨S262144, .i32⟩
  | 40 => ⟨S262656, .i32⟩
  | 41 => ⟨S1x262144, .i32⟩
  | 42 => ⟨S262144, .i32⟩
  | 43 => ⟨S262656, .i32⟩
  | 44 => ⟨S_, .f32⟩
  | 45 => ⟨S512, .f32⟩
  | 46 => ⟨S262656, .f32⟩
  | 47 => ⟨S_, .f32⟩
  | 48 => ⟨S512, .f32⟩
  | 49 => ⟨S_, .i32⟩
  | 50 => ⟨S262656, .i32⟩
  | 51 => ⟨S262656, .i1⟩
  | 52 => ⟨S_, .i32⟩
  | 53 => ⟨S262656, .i32⟩
  | 54 => ⟨S262656, .i32⟩
  | 55 => ⟨S262656, .i32⟩
  | 56 => ⟨S262656x1, .i32⟩
  | 57 => ⟨S512, .f32⟩
  | 58 => ⟨S_, .f32⟩
  | 59 => ⟨S512, .f32⟩
  | 60 => ⟨S512, .i1⟩
  | 61 => ⟨S_, .f32⟩
  | 62 => ⟨S512, .f32⟩
  | 63 => ⟨S512, .f32⟩
  | 64 => ⟨S_, .f32⟩
  | 65 => ⟨S_, .f32⟩
  | 66 => ⟨S512, .f32⟩
  | 67 => ⟨S512, .f32⟩
  | 68 => ⟨S_, .i32⟩
  | 69 => ⟨S262656, .i32⟩
  | 70 => ⟨S262656, .i1⟩
  | 71 => ⟨S_, .i32⟩
  | 72 => ⟨S262656, .i32⟩
  | 73 => ⟨S262656, .i32⟩
  | 74 => ⟨S262656, .i32⟩
  | 75 => ⟨S262656x1, .i32⟩
  | 76 => ⟨S262656, .f32⟩
  | 77 => ⟨S262656, .f32⟩
  | 78 => ⟨S_, .i32⟩
  | 79 => ⟨S262656, .i32⟩
  | 80 => ⟨S262656, .i1⟩
  | 81 => ⟨S_, .i32⟩
  | 82 => ⟨S262656, .i32⟩
  | 83 => ⟨S262656, .i32⟩
  | 84 => ⟨S262656, .i32⟩
  | 85 => ⟨S262656x1, .i32⟩
  | 86 => ⟨S262656, .f32⟩
  | 87 => ⟨S262656, .f32⟩
  | 88 => ⟨S512x128, .f32⟩
  | 89 => ⟨S_, .f32⟩
  | 90 => ⟨S512x128, .f32⟩
  | 91 => ⟨S_, .i32⟩
  | 92 => ⟨S262656, .i32⟩
  | 93 => ⟨S262656, .i1⟩
  | 94 => ⟨S_, .i32⟩
  | 95 => ⟨S262656, .i32⟩
  | 96 => ⟨S262656, .i32⟩
  | 97 => ⟨S262656, .i32⟩
  | 98 => ⟨S262656x1, .i32⟩
  | 99 => ⟨S262656x128, .f32⟩
  | 100 => ⟨S262656x1, .f32⟩
  | 101 => ⟨S262656x128, .f32⟩
  | 102 => ⟨S262656x128, .f32⟩
  | 103 => ⟨S_, .i32⟩
  | 104 => ⟨S262656, .i32⟩
  | 105 => ⟨S262656, .i1⟩
  | 106 => ⟨S_, .i32⟩
  | 107 => ⟨S262656, .i32⟩
  | 108 => ⟨S262656, .i32⟩
  | 109 => ⟨S262656, .i32⟩
  | 110 => ⟨S262656x1, .i32⟩
  | 111 => ⟨S512x128, .f32⟩
  | 112 => ⟨S1x128, .f32⟩
  | 113 => ⟨S512x128, .f32⟩
  | 114 => ⟨S512x128, .f32⟩
  | 115 => ⟨S1x512x512, .f32⟩
  | 116 => ⟨S512x512, .f32⟩
  | 117 => ⟨S512, .i32⟩
  | 118 => ⟨S512x512, .i32⟩
  | 119 => ⟨S262144, .i32⟩
  | 120 => ⟨S1x512, .i32⟩
  | 121 => ⟨S512x512, .i32⟩
  | 122 => ⟨S262144, .i32⟩
  | 123 => ⟨S1x262144, .i32⟩
  | 124 => ⟨S1x262144, .i32⟩
  | 125 => ⟨S2x262144, .i32⟩
  | 126 => ⟨S262144, .f32⟩
  | 127 => ⟨S512, .i32⟩
  | _ => ⟨S4x512x512, .f32⟩

abbrev hbmTy0_4 (i : Nat) : BufTy := match i % 128 with
  | 0 => ⟨S1x262144, .i32⟩
  | 1 => ⟨S262144, .i32⟩
  | 2 => ⟨S262656, .i32⟩
  | 3 => ⟨S1x262144, .i32⟩
  | 4 => ⟨S262144, .i32⟩
  | 5 => ⟨S262656, .i32⟩
  | 6 => ⟨S_, .f32⟩
  | 7 => ⟨S512, .f32⟩
  | 8 => ⟨S262656, .f32⟩
  | 9 => ⟨S_, .f32⟩
  | 10 => ⟨S512, .f32⟩
  | 11 => ⟨S_, .i32⟩
  | 12 => ⟨S262656, .i32⟩
  | 13 => ⟨S262656, .i1⟩
  | 14 => ⟨S_, .i32⟩
  | 15 => ⟨S262656, .i32⟩
  | 16 => ⟨S262656, .i32⟩
  | 17 => ⟨S262656, .i32⟩
  | 18 => ⟨S262656x1, .i32⟩
  | 19 => ⟨S512, .f32⟩
  | 20 => ⟨S_, .f32⟩
  | 21 => ⟨S512, .f32⟩
  | 22 => ⟨S512, .i1⟩
  | 23 => ⟨S_, .f32⟩
  | 24 => ⟨S512, .f32⟩
  | 25 => ⟨S512, .f32⟩
  | 26 => ⟨S_, .f32⟩
  | 27 => ⟨S_, .f32⟩
  | 28 => ⟨S512, .f32⟩
  | 29 => ⟨S512, .f32⟩
  | 30 => ⟨S_, .i32⟩
  | 31 => ⟨S262656, .i32⟩
  | 32 => ⟨S262656, .i1⟩
  | 33 => ⟨S_, .i32⟩
  | 34 => ⟨S262656, .i32⟩
  | 35 => ⟨S262656, .i32⟩
  | 36 => ⟨S262656, .i32⟩
  | 37 => ⟨S262656x1, .i32⟩
  | 38 => ⟨S262656, .f32⟩
  | 39 => ⟨S262656, .f32⟩
  | 40 => ⟨S_, .i32⟩
  | 41 => ⟨S262656, .i32⟩
  | 42 => ⟨S262656, .i1⟩
  | 43 => ⟨S_, .i32⟩
  | 44 => ⟨S262656, .i32⟩
  | 45 => ⟨S262656, .i32⟩
  | 46 => ⟨S262656, .i32⟩
  | 47 => ⟨S262656x1, .i32⟩
  | 48 => ⟨S262656, .f32⟩
  | 49 => ⟨S262656, .f32⟩
  | 50 => ⟨S512x128, .f32⟩
  | 51 => ⟨S_, .f32⟩
  | 52 => ⟨S512x128, .f32⟩
  | 53 => ⟨S_, .i32⟩
  | 54 => ⟨S262656, .i32⟩
  | 55 => ⟨S262656, .i1⟩
  | 56 => ⟨S_, .i32⟩
  | 57 => ⟨S262656, .i32⟩
  | 58 => ⟨S262656, .i32⟩
  | 59 => ⟨S262656, .i32⟩
  | 60 => ⟨S262656x1, .i32⟩
  | 61 => ⟨S262656x128, .f32⟩
  | 62 => ⟨S262656x1, .f32⟩
  | 63 => ⟨S262656x128, .f32⟩
  | 64 => ⟨S262656x128, .f32⟩
  | 65 => ⟨S_, .i32⟩
  | 66 => ⟨S262656, .i32⟩
  | 67 => ⟨S262656, .i1⟩
  | 68 => ⟨S_, .i32⟩
  | 69 => ⟨S262656, .i32⟩
  | 70 => ⟨S262656, .i32⟩
  | 71 => ⟨S262656, .i32⟩
  | 72 => ⟨S262656x1, .i32⟩
  | 73 => ⟨S512x128, .f32⟩
  | 74 => ⟨S1x128, .f32⟩
  | 75 => ⟨S512x128, .f32⟩
  | 76 => ⟨S512x128, .f32⟩
  | 77 => ⟨S512, .i32⟩
  | 78 => ⟨S1x262144, .i32⟩
  | 79 => ⟨S262144, .i32⟩
  | 80 => ⟨S262656, .i32⟩
  | 81 => ⟨S1x262144, .i32⟩
  | 82 => ⟨S262144, .i32⟩
  | 83 => ⟨S262656, .i32⟩
  | 84 => ⟨S_, .f32⟩
  | 85 => ⟨S512, .f32⟩
  | 86 => ⟨S262656, .f32⟩
  | 87 => ⟨S_, .f32⟩
  | 88 => ⟨S512, .f32⟩
  | 89 => ⟨S_, .i32⟩
  | 90 => ⟨S262656, .i32⟩
  | 91 => ⟨S262656, .i1⟩
  | 92 => ⟨S_, .i32⟩
  | 93 => ⟨S262656, .i32⟩
  | 94 => ⟨S262656, .i32⟩
  | 95 => ⟨S262656, .i32⟩
  | 96 => ⟨S262656x1, .i32⟩
  | 97 => ⟨S512, .f32⟩
  | 98 => ⟨S_, .f32⟩
  | 99 => ⟨S512, .f32⟩
  | 100 => ⟨S512, .i1⟩
  | 101 => ⟨S_, .f32⟩
  | 102 => ⟨S512, .f32⟩
  | 103 => ⟨S512, .f32⟩
  | 104 => ⟨S_, .f32⟩
  | 105 => ⟨S_, .f32⟩
  | 106 => ⟨S512, .f32⟩
  | 107 => ⟨S512, .f32⟩
  | 108 => ⟨S_, .i32⟩
  | 109 => ⟨S262656, .i32⟩
  | 110 => ⟨S262656, .i1⟩
  | 111 => ⟨S_, .i32⟩
  | 112 => ⟨S262656, .i32⟩
  | 113 => ⟨S262656, .i32⟩
  | 114 => ⟨S262656, .i32⟩
  | 115 => ⟨S262656x1, .i32⟩
  | 116 => ⟨S262656, .f32⟩
  | 117 => ⟨S262656, .f32⟩
  | 118 => ⟨S_, .i32⟩
  | 119 => ⟨S262656, .i32⟩
  | 120 => ⟨S262656, .i1⟩
  | 121 => ⟨S_, .i32⟩
  | 122 => ⟨S262656, .i32⟩
  | 123 => ⟨S262656, .i32⟩
  | 124 => ⟨S262656, .i32⟩
  | 125 => ⟨S262656x1, .i32⟩
  | 126 => ⟨S262656, .f32⟩
  | 127 => ⟨S262656, .f32⟩
  | _ => ⟨S4x512x512, .f32⟩

abbrev hbmTy0_5 (i : Nat) : BufTy := match i % 128 with
  | 0 => ⟨S512x256, .f32⟩
  | 1 => ⟨S_, .f32⟩
  | 2 => ⟨S512x256, .f32⟩
  | 3 => ⟨S_, .i32⟩
  | 4 => ⟨S262656, .i32⟩
  | 5 => ⟨S262656, .i1⟩
  | 6 => ⟨S_, .i32⟩
  | 7 => ⟨S262656, .i32⟩
  | 8 => ⟨S262656, .i32⟩
  | 9 => ⟨S262656, .i32⟩
  | 10 => ⟨S262656x1, .i32⟩
  | 11 => ⟨S262656x256, .f32⟩
  | 12 => ⟨S262656x1, .f32⟩
  | 13 => ⟨S262656x256, .f32⟩
  | 14 => ⟨S262656x256, .f32⟩
  | 15 => ⟨S_, .i32⟩
  | 16 => ⟨S262656, .i32⟩
  | 17 => ⟨S262656, .i1⟩
  | 18 => ⟨S_, .i32⟩
  | 19 => ⟨S262656, .i32⟩
  | 20 => ⟨S262656, .i32⟩
  | 21 => ⟨S262656, .i32⟩
  | 22 => ⟨S262656x1, .i32⟩
  | 23 => ⟨S512x256, .f32⟩
  | 24 => ⟨S1x256, .f32⟩
  | 25 => ⟨S512x256, .f32⟩
  | 26 => ⟨S512x256, .f32⟩
  | 27 => ⟨S512, .i32⟩
  | 28 => ⟨S1x262144, .i32⟩
  | 29 => ⟨S262144, .i32⟩
  | 30 => ⟨S262656, .i32⟩
  | 31 => ⟨S1x262144, .i32⟩
  | 32 => ⟨S262144, .i32⟩
  | 33 => ⟨S262656, .i32⟩
  | 34 => ⟨S_, .f32⟩
  | 35 => ⟨S512, .f32⟩
  | 36 => ⟨S262656, .f32⟩
  | 37 => ⟨S_, .f32⟩
  | 38 => ⟨S512, .f32⟩
  | 39 => ⟨S_, .i32⟩
  | 40 => ⟨S262656, .i32⟩
  | 41 => ⟨S262656, .i1⟩
  | 42 => ⟨S_, .i32⟩
  | 43 => ⟨S262656, .i32⟩
  | 44 => ⟨S262656, .i32⟩
  | 45 => ⟨S262656, .i32⟩
  | 46 => ⟨S262656x1, .i32⟩
  | 47 => ⟨S512, .f32⟩
  | 48 => ⟨S_, .f32⟩
  | 49 => ⟨S512, .f32⟩
  | 50 => ⟨S512, .i1⟩
  | 51 => ⟨S_, .f32⟩
  | 52 => ⟨S512, .f32⟩
  | 53 => ⟨S512, .f32⟩
  | 54 => ⟨S_, .f32⟩
  | 55 => ⟨S_, .f32⟩
  | 56 => ⟨S512, .f32⟩
  | 57 => ⟨S512, .f32⟩
  | 58 => ⟨S_, .i32⟩
  | 59 => ⟨S262656, .i32⟩
  | 60 => ⟨S262656, .i1⟩
  | 61 => ⟨S_, .i32⟩
  | 62 => ⟨S262656, .i32⟩
  | 63 => ⟨S262656, .i32⟩
  | 64 => ⟨S262656, .i32⟩
  | 65 => ⟨S262656x1, .i32⟩
  | 66 => ⟨S262656, .f32⟩
  | 67 => ⟨S262656, .f32⟩
  | 68 => ⟨S_, .i32⟩
  | 69 => ⟨S262656, .i32⟩
  | 70 => ⟨S262656, .i1⟩
  | 71 => ⟨S_, .i32⟩
  | 72 => ⟨S262656, .i32⟩
  | 73 => ⟨S262656, .i32⟩
  | 74 => ⟨S262656, .i32⟩
  | 75 => ⟨S262656x1, .i32⟩
  | 76 => ⟨S262656, .f32⟩
  | 77 => ⟨S262656, .f32⟩
  | 78 => ⟨S512x128, .f32⟩
  | 79 => ⟨S_, .f32⟩
  | 80 => ⟨S512x128, .f32⟩
  | 81 => ⟨S_, .i32⟩
  | 82 => ⟨S262656, .i32⟩
  | 83 => ⟨S262656, .i1⟩
  | 84 => ⟨S_, .i32⟩
  | 85 => ⟨S262656, .i32⟩
  | 86 => ⟨S262656, .i32⟩
  | 87 => ⟨S262656, .i32⟩
  | 88 => ⟨S262656x1, .i32⟩
  | 89 => ⟨S262656x128, .f32⟩
  | 90 => ⟨S262656x1, .f32⟩
  | 91 => ⟨S262656x128, .f32⟩
  | 92 => ⟨S262656x128, .f32⟩
  | 93 => ⟨S_, .i32⟩
  | 94 => ⟨S262656, .i32⟩
  | 95 => ⟨S262656, .i1⟩
  | 96 => ⟨S_, .i32⟩
  | 97 => ⟨S262656, .i32⟩
  | 98 => ⟨S262656, .i32⟩
  | 99 => ⟨S262656, .i32⟩
  | 100 => ⟨S262656x1, .i32⟩
  | 101 => ⟨S512x128, .f32⟩
  | 102 => ⟨S1x128, .f32⟩
  | 103 => ⟨S512x128, .f32⟩
  | 104 => ⟨S512x128, .f32⟩
  | 105 => ⟨S1x512x512, .f32⟩
  | 106 => ⟨S512x512, .f32⟩
  | 107 => ⟨S512, .i32⟩
  | 108 => ⟨S512x512, .i32⟩
  | 109 => ⟨S262144, .i32⟩
  | 110 => ⟨S1x512, .i32⟩
  | 111 => ⟨S512x512, .i32⟩
  | 112 => ⟨S262144, .i32⟩
  | 113 => ⟨S1x262144, .i32⟩
  | 114 => ⟨S1x262144, .i32⟩
  | 115 => ⟨S2x262144, .i32⟩
  | 116 => ⟨S262144, .f32⟩
  | 117 => ⟨S512, .i32⟩
  | 118 => ⟨S1x262144, .i32⟩
  | 119 => ⟨S262144, .i32⟩
  | 120 => ⟨S262656, .i32⟩
  | 121 => ⟨S1x262144, .i32⟩
  | 122 => ⟨S262144, .i32⟩
  | 123 => ⟨S262656, .i32⟩
  | 124 => ⟨S_, .f32⟩
  | 125 => ⟨S512, .f32⟩
  | 126 => ⟨S262656, .f32⟩
  | 127 => ⟨S_, .f32⟩
  | _ => ⟨S4x512x512, .f32⟩

abbrev hbmTy0_6 (i : Nat) : BufTy := match i % 128 with
  | 0 => ⟨S512, .f32⟩
  | 1 => ⟨S_, .i32⟩
  | 2 => ⟨S262656, .i32⟩
  | 3 => ⟨S262656, .i1⟩
  | 4 => ⟨S_, .i32⟩
  | 5 => ⟨S262656, .i32⟩
  | 6 => ⟨S262656, .i32⟩
  | 7 => ⟨S262656, .i32⟩
  | 8 => ⟨S262656x1, .i32⟩
  | 9 => ⟨S512, .f32⟩
  | 10 => ⟨S_, .f32⟩
  | 11 => ⟨S512, .f32⟩
  | 12 => ⟨S512, .i1⟩
  | 13 => ⟨S_, .f32⟩
  | 14 => ⟨S512, .f32⟩
  | 15 => ⟨S512, .f32⟩
  | 16 => ⟨S_, .f32⟩
  | 17 => ⟨S_, .f32⟩
  | 18 => ⟨S512, .f32⟩
  | 19 => ⟨S512, .f32⟩
  | 20 => ⟨S_, .i32⟩
  | 21 => ⟨S262656, .i32⟩
  | 22 => ⟨S262656, .i1⟩
  | 23 => ⟨S_, .i32⟩
  | 24 => ⟨S262656, .i32⟩
  | 25 => ⟨S262656, .i32⟩
  | 26 => ⟨S262656, .i32⟩
  | 27 => ⟨S262656x1, .i32⟩
  | 28 => ⟨S262656, .f32⟩
  | 29 => ⟨S262656, .f32⟩
  | 30 => ⟨S_, .i32⟩
  | 31 => ⟨S262656, .i32⟩
  | 32 => ⟨S262656, .i1⟩
  | 33 => ⟨S_, .i32⟩
  | 34 => ⟨S262656, .i32⟩
  | 35 => ⟨S262656, .i32⟩
  | 36 => ⟨S262656, .i32⟩
  | 37 => ⟨S262656x1, .i32⟩
  | 38 => ⟨S262656, .f32⟩
  | 39 => ⟨S262656, .f32⟩
  | 40 => ⟨S512x128, .f32⟩
  | 41 => ⟨S_, .f32⟩
  | 42 => ⟨S512x128, .f32⟩
  | 43 => ⟨S_, .i32⟩
  | 44 => ⟨S262656, .i32⟩
  | 45 => ⟨S262656, .i1⟩
  | 46 => ⟨S_, .i32⟩
  | 47 => ⟨S262656, .i32⟩
  | 48 => ⟨S262656, .i32⟩
  | 49 => ⟨S262656, .i32⟩
  | 50 => ⟨S262656x1, .i32⟩
  | 51 => ⟨S262656x128, .f32⟩
  | 52 => ⟨S262656x1, .f32⟩
  | 53 => ⟨S262656x128, .f32⟩
  | 54 => ⟨S262656x128, .f32⟩
  | 55 => ⟨S_, .i32⟩
  | 56 => ⟨S262656, .i32⟩
  | 57 => ⟨S262656, .i1⟩
  | 58 => ⟨S_, .i32⟩
  | 59 => ⟨S262656, .i32⟩
  | 60 => ⟨S262656, .i32⟩
  | 61 => ⟨S262656, .i32⟩
  | 62 => ⟨S262656x1, .i32⟩
  | 63 => ⟨S512x128, .f32⟩
  | 64 => ⟨S1x128, .f32⟩
  | 65 => ⟨S512x128, .f32⟩
  | 66 => ⟨S512x128, .f32⟩
  | 67 => ⟨S512, .i32⟩
  | 68 => ⟨S1x262144, .i32⟩
  | 69 => ⟨S262144, .i32⟩
  | 70 => ⟨S262656, .i32⟩
  | 71 => ⟨S1x262144, .i32⟩
  | 72 => ⟨S262144, .i32⟩
  | 73 => ⟨S262656, .i32⟩
  | 74 => ⟨S_, .f32⟩
  | 75 => ⟨S512, .f32⟩
  | 76 => ⟨S262656, .f32⟩
  | 77 => ⟨S_, .f32⟩
  | 78 => ⟨S512, .f32⟩
  | 79 => ⟨S_, .i32⟩
  | 80 => ⟨S262656, .i32⟩
  | 81 => ⟨S262656, .i1⟩
  | 82 => ⟨S_, .i32⟩
  | 83 => ⟨S262656, .i32⟩
  | 84 => ⟨S262656, .i32⟩
  | 85 => ⟨S262656, .i32⟩
  | 86 => ⟨S262656x1, .i32⟩
  | 87 => ⟨S512, .f32⟩
  | 88 => ⟨S_, .f32⟩
  | 89 => ⟨S512, .f32⟩
  | 90 => ⟨S512, .i1⟩
  | 91 => ⟨S_, .f32⟩
  | 92 => ⟨S512, .f32⟩
  | 93 => ⟨S512, .f32⟩
  | 94 => ⟨S_, .f32⟩
  | 95 => ⟨S_, .f32⟩
  | 96 => ⟨S512, .f32⟩
  | 97 => ⟨S512, .f32⟩
  | 98 => ⟨S_, .i32⟩
  | 99 => ⟨S262656, .i32⟩
  | 100 => ⟨S262656, .i1⟩
  | 101 => ⟨S_, .i32⟩
  | 102 => ⟨S262656, .i32⟩
  | 103 => ⟨S262656, .i32⟩
  | 104 => ⟨S262656, .i32⟩
  | 105 => ⟨S262656x1, .i32⟩
  | 106 => ⟨S262656, .f32⟩
  | 107 => ⟨S262656, .f32⟩
  | 108 => ⟨S_, .i32⟩
  | 109 => ⟨S262656, .i32⟩
  | 110 => ⟨S262656, .i1⟩
  | 111 => ⟨S_, .i32⟩
  | 112 => ⟨S262656, .i32⟩
  | 113 => ⟨S262656, .i32⟩
  | 114 => ⟨S262656, .i32⟩
  | 115 => ⟨S262656x1, .i32⟩
  | 116 => ⟨S262656, .f32⟩
  | 117 => ⟨S262656, .f32⟩
  | 118 => ⟨S512x256, .f32⟩
  | 119 => ⟨S_, .f32⟩
  | 120 => ⟨S512x256, .f32⟩
  | 121 => ⟨S_, .i32⟩
  | 122 => ⟨S262656, .i32⟩
  | 123 => ⟨S262656, .i1⟩
  | 124 => ⟨S_, .i32⟩
  | 125 => ⟨S262656, .i32⟩
  | 126 => ⟨S262656, .i32⟩
  | 127 => ⟨S262656, .i32⟩
  | _ => ⟨S4x512x512, .f32⟩

abbrev hbmTy0_7 (i : Nat) : BufTy := match i % 128 with
  | 0 => ⟨S262656x1, .i32⟩
  | 1 => ⟨S262656x256, .f32⟩
  | 2 => ⟨S262656x1, .f32⟩
  | 3 => ⟨S262656x256, .f32⟩
  | 4 => ⟨S262656x256, .f32⟩
  | 5 => ⟨S_, .i32⟩
  | 6 => ⟨S262656, .i32⟩
  | 7 => ⟨S262656, .i1⟩
  | 8 => ⟨S_, .i32⟩
  | 9 => ⟨S262656, .i32⟩
  | 10 => ⟨S262656, .i32⟩
  | 11 => ⟨S262656, .i32⟩
  | 12 => ⟨S262656x1, .i32⟩
  | 13 => ⟨S512x256, .f32⟩
  | 14 => ⟨S1x256, .f32⟩
  | 15 => ⟨S512x256, .f32⟩
  | 16 => ⟨S512x256, .f32⟩
  | 17 => ⟨S512, .i32⟩
  | 18 => ⟨S1x262144, .i32⟩
  | 19 => ⟨S262144, .i32⟩
  | 20 => ⟨S262656, .i32⟩
  | 21 => ⟨S1x262144, .i32⟩
  | 22 => ⟨S262144, .i32⟩
  | 23 => ⟨S262656, .i32⟩
  | 24 => ⟨S_, .f32⟩
  | 25 => ⟨S512, .f32⟩
  | 26 => ⟨S262656, .f32⟩
  | 27 => ⟨S_, .f32⟩
  | 28 => ⟨S512, .f32⟩
  | 29 => ⟨S_, .i32⟩
  | 30 => ⟨S262656, .i32⟩
  | 31 => ⟨S262656, .i1⟩
  | 32 => ⟨S_, .i32⟩
  | 33 => ⟨S262656, .i32⟩
  | 34 => ⟨S262656, .i32⟩
  | 35 => ⟨S262656, .i32⟩
  | 36 => ⟨S262656x1, .i32⟩
  | 37 => ⟨S512, .f32⟩
  | 38 => ⟨S_, .f32⟩
  | 39 => ⟨S512, .f32⟩
  | 40 => ⟨S512, .i1⟩
  | 41 => ⟨S_, .f32⟩
  | 42 => ⟨S512, .f32⟩
  | 43 => ⟨S512, .f32⟩
  | 44 => ⟨S_, .f32⟩
  | 45 => ⟨S_, .f32⟩
  | 46 => ⟨S512, .f32⟩
  | 47 => ⟨S512, .f32⟩
  | 48 => ⟨S_, .i32⟩
  | 49 => ⟨S262656, .i32⟩
  | 50 => ⟨S262656, .i1⟩
  | 51 => ⟨S_, .i32⟩
  | 52 => ⟨S262656, .i32⟩
  | 53 => ⟨S262656, .i32⟩
  | 54 => ⟨S262656, .i32⟩
  | 55 => ⟨S262656x1, .i32⟩
  | 56 => ⟨S262656, .f32⟩
  | 57 => ⟨S262656, .f32⟩
  | 58 => ⟨S_, .i32⟩
  | 59 => ⟨S262656, .i32⟩
  | 60 => ⟨S262656, .i1⟩
  | 61 => ⟨S_, .i32⟩
  | 62 => ⟨S262656, .i32⟩
  | 63 => ⟨S262656, .i32⟩
  | 64 => ⟨S262656, .i32⟩
  | 65 => ⟨S262656x1, .i32⟩
  | 66 => ⟨S262656, .f32⟩
  | 67 => ⟨S262656, .f32⟩
  | 68 => ⟨S512x128, .f32⟩
  | 69 => ⟨S_, .f32⟩
  | 70 => ⟨S512x128, .f32⟩
  | 71 => ⟨S_, .i32⟩
  | 72 => ⟨S262656, .i32⟩
  | 73 => ⟨S262656, .i1⟩
  | 74 => ⟨S_, .i32⟩
  | 75 => ⟨S262656, .i32⟩
  | 76 => ⟨S262656, .i32⟩
  | 77 => ⟨S262656, .i32⟩
  | 78 => ⟨S262656x1, .i32⟩
  | 79 => ⟨S262656x128, .f32⟩
  | 80 => ⟨S262656x1, .f32⟩
  | 81 => ⟨S262656x128, .f32⟩
  | 82 => ⟨S262656x128, .f32⟩
  | 83 => ⟨S_, .i32⟩
  | 84 => ⟨S262656, .i32⟩
  | 85 => ⟨S262656, .i1⟩
  | 86 => ⟨S_, .i32⟩
  | 87 => ⟨S262656, .i32⟩
  | 88 => ⟨S262656, .i32⟩
  | 89 => ⟨S262656, .i32⟩
  | 90 => ⟨S262656x1, .i32⟩
  | 91 => ⟨S512x128, .f32⟩
  | 92 => ⟨S1x128, .f32⟩
  | 93 => ⟨S512x128, .f32⟩
  | 94 => ⟨S512x128, .f32⟩
  | 95 => ⟨S1x512x128, .f32⟩
  | 96 => ⟨S1x512x128, .f32⟩
  | 97 => ⟨S1x512x128, .f32⟩
  | 98 => ⟨S1x512x128, .f32⟩
  | 99 => ⟨S4x512x128, .f32⟩
  | _ => ⟨S4x512x512, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | _ => ⟨S4x512x512, .f32⟩

abbrev bufTy : (tb : Table) → Fin (tcTables nBuf tb) → BufTy
  | .hbm, ⟨i, _⟩ => hbmTy i
  | _, _ => ⟨S4x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst : Ref sig .tc := ⟨.hbm, 26, rfl⟩
abbrev main_v19 : Ref sig .tc := ⟨.hbm, 27, rfl⟩
abbrev main_v20 : Ref sig .tc := ⟨.hbm, 28, rfl⟩
abbrev main_cst_0 : Ref sig .tc := ⟨.hbm, 29, rfl⟩
abbrev main_v21 : Ref sig .tc := ⟨.hbm, 30, rfl⟩
abbrev main_c : Ref sig .tc := ⟨.hbm, 31, rfl⟩
abbrev main_v22 : Ref sig .tc := ⟨.hbm, 32, rfl⟩
abbrev main_v23 : Ref sig .tc := ⟨.hbm, 33, rfl⟩
abbrev main_c_1 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_2 : Ref sig .tc := ⟨.hbm, 40, rfl⟩
abbrev main_v29 : Ref sig .tc := ⟨.hbm, 41, rfl⟩
abbrev main_v30 : Ref sig .tc := ⟨.hbm, 42, rfl⟩
abbrev main_cst_3 : Ref sig .tc := ⟨.hbm, 43, rfl⟩
abbrev main_v31 : Ref sig .tc := ⟨.hbm, 44, rfl⟩
abbrev main_v32 : Ref sig .tc := ⟨.hbm, 45, rfl⟩
abbrev main_cst_4 : Ref sig .tc := ⟨.hbm, 46, rfl⟩
abbrev main_call0_v0 : Ref sig .tc := ⟨.hbm, 47, rfl⟩
abbrev main_call0_v1 : Ref sig .tc := ⟨.hbm, 48, rfl⟩
abbrev main_v33 : Ref sig .tc := ⟨.hbm, 49, rfl⟩
abbrev main_c_5 : Ref sig .tc := ⟨.hbm, 50, rfl⟩
abbrev main_v34 : Ref sig .tc := ⟨.hbm, 51, rfl⟩
abbrev main_v35 : Ref sig .tc := ⟨.hbm, 52, rfl⟩
abbrev main_c_6 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_c_7 : Ref sig .tc := ⟨.hbm, 60, rfl⟩
abbrev main_v42 : Ref sig .tc := ⟨.hbm, 61, rfl⟩
abbrev main_v43 : Ref sig .tc := ⟨.hbm, 62, rfl⟩
abbrev main_c_8 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_9 : Ref sig .tc := ⟨.hbm, 71, rfl⟩
abbrev main_v51 : Ref sig .tc := ⟨.hbm, 72, rfl⟩
abbrev main_c_10 : Ref sig .tc := ⟨.hbm, 73, rfl⟩
abbrev main_v52 : Ref sig .tc := ⟨.hbm, 74, rfl⟩
abbrev main_v53 : Ref sig .tc := ⟨.hbm, 75, rfl⟩
abbrev main_c_11 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_c_12 : Ref sig .tc := ⟨.hbm, 85, rfl⟩
abbrev main_v62 : Ref sig .tc := ⟨.hbm, 86, rfl⟩
abbrev main_v63 : Ref sig .tc := ⟨.hbm, 87, rfl⟩
abbrev main_c_13 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_cst_14 : Ref sig .tc := ⟨.hbm, 104, rfl⟩
abbrev main_v79 : Ref sig .tc := ⟨.hbm, 105, rfl⟩
abbrev main_v80 : Ref sig .tc := ⟨.hbm, 106, rfl⟩
abbrev main_cst_15 : Ref sig .tc := ⟨.hbm, 107, rfl⟩
abbrev main_v81 : Ref sig .tc := ⟨.hbm, 108, rfl⟩
abbrev main_c_16 : Ref sig .tc := ⟨.hbm, 109, rfl⟩
abbrev main_v82 : Ref sig .tc := ⟨.hbm, 110, rfl⟩
abbrev main_v83 : Ref sig .tc := ⟨.hbm, 111, rfl⟩
abbrev main_c_17 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_cst_18 : Ref sig .tc := ⟨.hbm, 118, rfl⟩
abbrev main_v89 : Ref sig .tc := ⟨.hbm, 119, rfl⟩
abbrev main_v90 : Ref sig .tc := ⟨.hbm, 120, rfl⟩
abbrev main_cst_19 : Ref sig .tc := ⟨.hbm, 121, rfl⟩
abbrev main_v91 : Ref sig .tc := ⟨.hbm, 122, rfl⟩
abbrev main_v92 : Ref sig .tc := ⟨.hbm, 123, rfl⟩
abbrev main_cst_20 : Ref sig .tc := ⟨.hbm, 124, rfl⟩
abbrev main_call1_v0 : Ref sig .tc := ⟨.hbm, 125, rfl⟩
abbrev main_call1_v1 : Ref sig .tc := ⟨.hbm, 126, rfl⟩
abbrev main_v93 : Ref sig .tc := ⟨.hbm, 127, rfl⟩
abbrev main_c_21 : Ref sig .tc := ⟨.hbm, 128, rfl⟩
abbrev main_v94 : Ref sig .tc := ⟨.hbm, 129, rfl⟩
abbrev main_v95 : Ref sig .tc := ⟨.hbm, 130, rfl⟩
abbrev main_c_22 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_c_23 : Ref sig .tc := ⟨.hbm, 138, rfl⟩
abbrev main_v102 : Ref sig .tc := ⟨.hbm, 139, rfl⟩
abbrev main_v103 : Ref sig .tc := ⟨.hbm, 140, rfl⟩
abbrev main_c_24 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_cst_25 : Ref sig .tc := ⟨.hbm, 149, rfl⟩
abbrev main_v111 : Ref sig .tc := ⟨.hbm, 150, rfl⟩
abbrev main_c_26 : Ref sig .tc := ⟨.hbm, 151, rfl⟩
abbrev main_v112 : Ref sig .tc := ⟨.hbm, 152, rfl⟩
abbrev main_v113 : Ref sig .tc := ⟨.hbm, 153, rfl⟩
abbrev main_c_27 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_c_28 : Ref sig .tc := ⟨.hbm, 163, rfl⟩
abbrev main_v122 : Ref sig .tc := ⟨.hbm, 164, rfl⟩
abbrev main_v123 : Ref sig .tc := ⟨.hbm, 165, rfl⟩
abbrev main_c_29 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩
abbrev main_v129 : Ref sig .tc := ⟨.hbm, 172, rfl⟩
abbrev main_v130 : Ref sig .tc := ⟨.hbm, 173, rfl⟩
abbrev main_v131 : Ref sig .tc := ⟨.hbm, 174, rfl⟩
abbrev main_v132 : Ref sig .tc := ⟨.hbm, 175, rfl⟩
abbrev main_v133 : Ref sig .tc := ⟨.hbm, 176, rfl⟩
abbrev main_v134 : Ref sig .tc := ⟨.hbm, 177, rfl⟩
abbrev main_v135 : Ref sig .tc := ⟨.hbm, 178, rfl⟩
abbrev main_v136 : Ref sig .tc := ⟨.hbm, 179, rfl⟩
abbrev main_v137 : Ref sig .tc := ⟨.hbm, 180, rfl⟩
abbrev main_v138 : Ref sig .tc := ⟨.hbm, 181, rfl⟩
abbrev main_cst_30 : Ref sig .tc := ⟨.hbm, 182, rfl⟩
abbrev main_v139 : Ref sig .tc := ⟨.hbm, 183, rfl⟩
abbrev main_v140 : Ref sig .tc := ⟨.hbm, 184, rfl⟩
abbrev main_cst_31 : Ref sig .tc := ⟨.hbm, 185, rfl⟩
abbrev main_v141 : Ref sig .tc := ⟨.hbm, 186, rfl⟩
abbrev main_c_32 : Ref sig .tc := ⟨.hbm, 187, rfl⟩
abbrev main_v142 : Ref sig .tc := ⟨.hbm, 188, rfl⟩
abbrev main_v143 : Ref sig .tc := ⟨.hbm, 189, rfl⟩
abbrev main_c_33 : Ref sig .tc := ⟨.hbm, 190, rfl⟩
abbrev main_v144 : Ref sig .tc := ⟨.hbm, 191, rfl⟩
abbrev main_v145 : Ref sig .tc := ⟨.hbm, 192, rfl⟩
abbrev main_v146 : Ref sig .tc := ⟨.hbm, 193, rfl⟩
abbrev main_v147 : Ref sig .tc := ⟨.hbm, 194, rfl⟩
abbrev main_v148 : Ref sig .tc := ⟨.hbm, 195, rfl⟩
abbrev main_cst_34 : Ref sig .tc := ⟨.hbm, 196, rfl⟩
abbrev main_v149 : Ref sig .tc := ⟨.hbm, 197, rfl⟩
abbrev main_v150 : Ref sig .tc := ⟨.hbm, 198, rfl⟩
abbrev main_cst_35 : Ref sig .tc := ⟨.hbm, 199, rfl⟩
abbrev main_v151 : Ref sig .tc := ⟨.hbm, 200, rfl⟩
abbrev main_v152 : Ref sig .tc := ⟨.hbm, 201, rfl⟩
abbrev main_cst_36 : Ref sig .tc := ⟨.hbm, 202, rfl⟩
abbrev main_call2_v0 : Ref sig .tc := ⟨.hbm, 203, rfl⟩
abbrev main_call2_v1 : Ref sig .tc := ⟨.hbm, 204, rfl⟩
abbrev main_v153 : Ref sig .tc := ⟨.hbm, 205, rfl⟩
abbrev main_c_37 : Ref sig .tc := ⟨.hbm, 206, rfl⟩
abbrev main_v154 : Ref sig .tc := ⟨.hbm, 207, rfl⟩
abbrev main_v155 : Ref sig .tc := ⟨.hbm, 208, rfl⟩
abbrev main_c_38 : Ref sig .tc := ⟨.hbm, 209, rfl⟩
abbrev main_v156 : Ref sig .tc := ⟨.hbm, 210, rfl⟩
abbrev main_v157 : Ref sig .tc := ⟨.hbm, 211, rfl⟩
abbrev main_v158 : Ref sig .tc := ⟨.hbm, 212, rfl⟩
abbrev main_v159 : Ref sig .tc := ⟨.hbm, 213, rfl⟩
abbrev main_v160 : Ref sig .tc := ⟨.hbm, 214, rfl⟩
abbrev main_v161 : Ref sig .tc := ⟨.hbm, 215, rfl⟩
abbrev main_c_39 : Ref sig .tc := ⟨.hbm, 216, rfl⟩
abbrev main_v162 : Ref sig .tc := ⟨.hbm, 217, rfl⟩
abbrev main_v163 : Ref sig .tc := ⟨.hbm, 218, rfl⟩
abbrev main_c_40 : Ref sig .tc := ⟨.hbm, 219, rfl⟩
abbrev main_v164 : Ref sig .tc := ⟨.hbm, 220, rfl⟩
abbrev main_v165 : Ref sig .tc := ⟨.hbm, 221, rfl⟩
abbrev main_v166 : Ref sig .tc := ⟨.hbm, 222, rfl⟩
abbrev main_v167 : Ref sig .tc := ⟨.hbm, 223, rfl⟩
abbrev main_v168 : Ref sig .tc := ⟨.hbm, 224, rfl⟩
abbrev main_v169 : Ref sig .tc := ⟨.hbm, 225, rfl⟩
abbrev main_v170 : Ref sig .tc := ⟨.hbm, 226, rfl⟩
abbrev main_cst_41 : Ref sig .tc := ⟨.hbm, 227, rfl⟩
abbrev main_v171 : Ref sig .tc := ⟨.hbm, 228, rfl⟩
abbrev main_c_42 : Ref sig .tc := ⟨.hbm, 229, rfl⟩
abbrev main_v172 : Ref sig .tc := ⟨.hbm, 230, rfl⟩
abbrev main_v173 : Ref sig .tc := ⟨.hbm, 231, rfl⟩
abbrev main_c_43 : Ref sig .tc := ⟨.hbm, 232, rfl⟩
abbrev main_v174 : Ref sig .tc := ⟨.hbm, 233, rfl⟩
abbrev main_v175 : Ref sig .tc := ⟨.hbm, 234, rfl⟩
abbrev main_v176 : Ref sig .tc := ⟨.hbm, 235, rfl⟩
abbrev main_v177 : Ref sig .tc := ⟨.hbm, 236, rfl⟩
abbrev main_v178 : Ref sig .tc := ⟨.hbm, 237, rfl⟩
abbrev main_v179 : Ref sig .tc := ⟨.hbm, 238, rfl⟩
abbrev main_v180 : Ref sig .tc := ⟨.hbm, 239, rfl⟩
abbrev main_v181 : Ref sig .tc := ⟨.hbm, 240, rfl⟩
abbrev main_c_44 : Ref sig .tc := ⟨.hbm, 241, rfl⟩
abbrev main_v182 : Ref sig .tc := ⟨.hbm, 242, rfl⟩
abbrev main_v183 : Ref sig .tc := ⟨.hbm, 243, rfl⟩
abbrev main_c_45 : Ref sig .tc := ⟨.hbm, 244, rfl⟩
abbrev main_v184 : Ref sig .tc := ⟨.hbm, 245, rfl⟩
abbrev main_v185 : Ref sig .tc := ⟨.hbm, 246, rfl⟩
abbrev main_v186 : Ref sig .tc := ⟨.hbm, 247, rfl⟩
abbrev main_v187 : Ref sig .tc := ⟨.hbm, 248, rfl⟩
abbrev main_v188 : Ref sig .tc := ⟨.hbm, 249, rfl⟩
abbrev main_v189 : Ref sig .tc := ⟨.hbm, 250, rfl⟩
abbrev main_v190 : Ref sig .tc := ⟨.hbm, 251, rfl⟩
abbrev main_v191 : Ref sig .tc := ⟨.hbm, 252, rfl⟩
abbrev main_v192 : Ref sig .tc := ⟨.hbm, 253, rfl⟩
abbrev main_v193 : Ref sig .tc := ⟨.hbm, 254, rfl⟩
abbrev main_v194 : Ref sig .tc := ⟨.hbm, 255, rfl⟩
abbrev main_v195 : Ref sig .tc := ⟨.hbm, 256, rfl⟩
abbrev main_v196 : Ref sig .tc := ⟨.hbm, 257, rfl⟩
abbrev main_v197 : Ref sig .tc := ⟨.hbm, 258, rfl⟩
abbrev main_v198 : Ref sig .tc := ⟨.hbm, 259, rfl⟩
abbrev main_v199 : Ref sig .tc := ⟨.hbm, 260, rfl⟩
abbrev main_v200 : Ref sig .tc := ⟨.hbm, 261, rfl⟩
abbrev main_v201 : Ref sig .tc := ⟨.hbm, 262, rfl⟩
abbrev main_v202 : Ref sig .tc := ⟨.hbm, 263, rfl⟩
abbrev main_v203 : Ref sig .tc := ⟨.hbm, 264, rfl⟩
abbrev main_v204 : Ref sig .tc := ⟨.hbm, 265, rfl⟩
abbrev main_v205 : Ref sig .tc := ⟨.hbm, 266, rfl⟩
abbrev main_v206 : Ref sig .tc := ⟨.hbm, 267, rfl⟩
abbrev main_v207 : Ref sig .tc := ⟨.hbm, 268, rfl⟩
abbrev main_v208 : Ref sig .tc := ⟨.hbm, 269, rfl⟩
abbrev main_v209 : Ref sig .tc := ⟨.hbm, 270, rfl⟩
abbrev main_v210 : Ref sig .tc := ⟨.hbm, 271, rfl⟩
abbrev main_cst_46 : Ref sig .tc := ⟨.hbm, 272, rfl⟩
abbrev main_v211 : Ref sig .tc := ⟨.hbm, 273, rfl⟩
abbrev main_v212 : Ref sig .tc := ⟨.hbm, 274, rfl⟩
abbrev main_cst_47 : Ref sig .tc := ⟨.hbm, 275, rfl⟩
abbrev main_v213 : Ref sig .tc := ⟨.hbm, 276, rfl⟩
abbrev main_c_48 : Ref sig .tc := ⟨.hbm, 277, rfl⟩
abbrev main_v214 : Ref sig .tc := ⟨.hbm, 278, rfl⟩
abbrev main_v215 : Ref sig .tc := ⟨.hbm, 279, rfl⟩
abbrev main_c_49 : Ref sig .tc := ⟨.hbm, 280, rfl⟩
abbrev main_v216 : Ref sig .tc := ⟨.hbm, 281, rfl⟩
abbrev main_v217 : Ref sig .tc := ⟨.hbm, 282, rfl⟩
abbrev main_v218 : Ref sig .tc := ⟨.hbm, 283, rfl⟩
abbrev main_v219 : Ref sig .tc := ⟨.hbm, 284, rfl⟩
abbrev main_v220 : Ref sig .tc := ⟨.hbm, 285, rfl⟩
abbrev main_cst_50 : Ref sig .tc := ⟨.hbm, 286, rfl⟩
abbrev main_v221 : Ref sig .tc := ⟨.hbm, 287, rfl⟩
abbrev main_v222 : Ref sig .tc := ⟨.hbm, 288, rfl⟩
abbrev main_cst_51 : Ref sig .tc := ⟨.hbm, 289, rfl⟩
abbrev main_v223 : Ref sig .tc := ⟨.hbm, 290, rfl⟩
abbrev main_v224 : Ref sig .tc := ⟨.hbm, 291, rfl⟩
abbrev main_cst_52 : Ref sig .tc := ⟨.hbm, 292, rfl⟩
abbrev main_call3_v0 : Ref sig .tc := ⟨.hbm, 293, rfl⟩
abbrev main_call3_v1 : Ref sig .tc := ⟨.hbm, 294, rfl⟩
abbrev main_v225 : Ref sig .tc := ⟨.hbm, 295, rfl⟩
abbrev main_c_53 : Ref sig .tc := ⟨.hbm, 296, rfl⟩
abbrev main_v226 : Ref sig .tc := ⟨.hbm, 297, rfl⟩
abbrev main_v227 : Ref sig .tc := ⟨.hbm, 298, rfl⟩
abbrev main_c_54 : Ref sig .tc := ⟨.hbm, 299, rfl⟩
abbrev main_v228 : Ref sig .tc := ⟨.hbm, 300, rfl⟩
abbrev main_v229 : Ref sig .tc := ⟨.hbm, 301, rfl⟩
abbrev main_v230 : Ref sig .tc := ⟨.hbm, 302, rfl⟩
abbrev main_v231 : Ref sig .tc := ⟨.hbm, 303, rfl⟩
abbrev main_v232 : Ref sig .tc := ⟨.hbm, 304, rfl⟩
abbrev main_v233 : Ref sig .tc := ⟨.hbm, 305, rfl⟩
abbrev main_c_55 : Ref sig .tc := ⟨.hbm, 306, rfl⟩
abbrev main_v234 : Ref sig .tc := ⟨.hbm, 307, rfl⟩
abbrev main_v235 : Ref sig .tc := ⟨.hbm, 308, rfl⟩
abbrev main_c_56 : Ref sig .tc := ⟨.hbm, 309, rfl⟩
abbrev main_v236 : Ref sig .tc := ⟨.hbm, 310, rfl⟩
abbrev main_v237 : Ref sig .tc := ⟨.hbm, 311, rfl⟩
abbrev main_v238 : Ref sig .tc := ⟨.hbm, 312, rfl⟩
abbrev main_v239 : Ref sig .tc := ⟨.hbm, 313, rfl⟩
abbrev main_v240 : Ref sig .tc := ⟨.hbm, 314, rfl⟩
abbrev main_v241 : Ref sig .tc := ⟨.hbm, 315, rfl⟩
abbrev main_v242 : Ref sig .tc := ⟨.hbm, 316, rfl⟩
abbrev main_cst_57 : Ref sig .tc := ⟨.hbm, 317, rfl⟩
abbrev main_v243 : Ref sig .tc := ⟨.hbm, 318, rfl⟩
abbrev main_c_58 : Ref sig .tc := ⟨.hbm, 319, rfl⟩
abbrev main_v244 : Ref sig .tc := ⟨.hbm, 320, rfl⟩
abbrev main_v245 : Ref sig .tc := ⟨.hbm, 321, rfl⟩
abbrev main_c_59 : Ref sig .tc := ⟨.hbm, 322, rfl⟩
abbrev main_v246 : Ref sig .tc := ⟨.hbm, 323, rfl⟩
abbrev main_v247 : Ref sig .tc := ⟨.hbm, 324, rfl⟩
abbrev main_v248 : Ref sig .tc := ⟨.hbm, 325, rfl⟩
abbrev main_v249 : Ref sig .tc := ⟨.hbm, 326, rfl⟩
abbrev main_v250 : Ref sig .tc := ⟨.hbm, 327, rfl⟩
abbrev main_v251 : Ref sig .tc := ⟨.hbm, 328, rfl⟩
abbrev main_v252 : Ref sig .tc := ⟨.hbm, 329, rfl⟩
abbrev main_v253 : Ref sig .tc := ⟨.hbm, 330, rfl⟩
abbrev main_c_60 : Ref sig .tc := ⟨.hbm, 331, rfl⟩
abbrev main_v254 : Ref sig .tc := ⟨.hbm, 332, rfl⟩
abbrev main_v255 : Ref sig .tc := ⟨.hbm, 333, rfl⟩
abbrev main_c_61 : Ref sig .tc := ⟨.hbm, 334, rfl⟩
abbrev main_v256 : Ref sig .tc := ⟨.hbm, 335, rfl⟩
abbrev main_v257 : Ref sig .tc := ⟨.hbm, 336, rfl⟩
abbrev main_v258 : Ref sig .tc := ⟨.hbm, 337, rfl⟩
abbrev main_v259 : Ref sig .tc := ⟨.hbm, 338, rfl⟩
abbrev main_v260 : Ref sig .tc := ⟨.hbm, 339, rfl⟩
abbrev main_v261 : Ref sig .tc := ⟨.hbm, 340, rfl⟩
abbrev main_v262 : Ref sig .tc := ⟨.hbm, 341, rfl⟩
abbrev main_v263 : Ref sig .tc := ⟨.hbm, 342, rfl⟩
abbrev main_v264 : Ref sig .tc := ⟨.hbm, 343, rfl⟩
abbrev main_v265 : Ref sig .tc := ⟨.hbm, 344, rfl⟩
abbrev main_v266 : Ref sig .tc := ⟨.hbm, 345, rfl⟩
abbrev main_v267 : Ref sig .tc := ⟨.hbm, 346, rfl⟩
abbrev main_v268 : Ref sig .tc := ⟨.hbm, 347, rfl⟩
abbrev main_v269 : Ref sig .tc := ⟨.hbm, 348, rfl⟩
abbrev main_v270 : Ref sig .tc := ⟨.hbm, 349, rfl⟩
abbrev main_cst_62 : Ref sig .tc := ⟨.hbm, 350, rfl⟩
abbrev main_v271 : Ref sig .tc := ⟨.hbm, 351, rfl⟩
abbrev main_v272 : Ref sig .tc := ⟨.hbm, 352, rfl⟩
abbrev main_cst_63 : Ref sig .tc := ⟨.hbm, 353, rfl⟩
abbrev main_v273 : Ref sig .tc := ⟨.hbm, 354, rfl⟩
abbrev main_c_64 : Ref sig .tc := ⟨.hbm, 355, rfl⟩
abbrev main_v274 : Ref sig .tc := ⟨.hbm, 356, rfl⟩
abbrev main_v275 : Ref sig .tc := ⟨.hbm, 357, rfl⟩
abbrev main_c_65 : Ref sig .tc := ⟨.hbm, 358, rfl⟩
abbrev main_v276 : Ref sig .tc := ⟨.hbm, 359, rfl⟩
abbrev main_v277 : Ref sig .tc := ⟨.hbm, 360, rfl⟩
abbrev main_v278 : Ref sig .tc := ⟨.hbm, 361, rfl⟩
abbrev main_v279 : Ref sig .tc := ⟨.hbm, 362, rfl⟩
abbrev main_v280 : Ref sig .tc := ⟨.hbm, 363, rfl⟩
abbrev main_cst_66 : Ref sig .tc := ⟨.hbm, 364, rfl⟩
abbrev main_v281 : Ref sig .tc := ⟨.hbm, 365, rfl⟩
abbrev main_v282 : Ref sig .tc := ⟨.hbm, 366, rfl⟩
abbrev main_cst_67 : Ref sig .tc := ⟨.hbm, 367, rfl⟩
abbrev main_v283 : Ref sig .tc := ⟨.hbm, 368, rfl⟩
abbrev main_v284 : Ref sig .tc := ⟨.hbm, 369, rfl⟩
abbrev main_cst_68 : Ref sig .tc := ⟨.hbm, 370, rfl⟩
abbrev main_call4_v0 : Ref sig .tc := ⟨.hbm, 371, rfl⟩
abbrev main_call4_v1 : Ref sig .tc := ⟨.hbm, 372, rfl⟩
abbrev main_v285 : Ref sig .tc := ⟨.hbm, 373, rfl⟩
abbrev main_c_69 : Ref sig .tc := ⟨.hbm, 374, rfl⟩
abbrev main_v286 : Ref sig .tc := ⟨.hbm, 375, rfl⟩
abbrev main_v287 : Ref sig .tc := ⟨.hbm, 376, rfl⟩
abbrev main_c_70 : Ref sig .tc := ⟨.hbm, 377, rfl⟩
abbrev main_v288 : Ref sig .tc := ⟨.hbm, 378, rfl⟩
abbrev main_v289 : Ref sig .tc := ⟨.hbm, 379, rfl⟩
abbrev main_v290 : Ref sig .tc := ⟨.hbm, 380, rfl⟩
abbrev main_v291 : Ref sig .tc := ⟨.hbm, 381, rfl⟩
abbrev main_v292 : Ref sig .tc := ⟨.hbm, 382, rfl⟩
abbrev main_v293 : Ref sig .tc := ⟨.hbm, 383, rfl⟩
abbrev main_c_71 : Ref sig .tc := ⟨.hbm, 384, rfl⟩
abbrev main_v294 : Ref sig .tc := ⟨.hbm, 385, rfl⟩
abbrev main_v295 : Ref sig .tc := ⟨.hbm, 386, rfl⟩
abbrev main_c_72 : Ref sig .tc := ⟨.hbm, 387, rfl⟩
abbrev main_v296 : Ref sig .tc := ⟨.hbm, 388, rfl⟩
abbrev main_v297 : Ref sig .tc := ⟨.hbm, 389, rfl⟩
abbrev main_v298 : Ref sig .tc := ⟨.hbm, 390, rfl⟩
abbrev main_v299 : Ref sig .tc := ⟨.hbm, 391, rfl⟩
abbrev main_v300 : Ref sig .tc := ⟨.hbm, 392, rfl⟩
abbrev main_v301 : Ref sig .tc := ⟨.hbm, 393, rfl⟩
abbrev main_v302 : Ref sig .tc := ⟨.hbm, 394, rfl⟩
abbrev main_cst_73 : Ref sig .tc := ⟨.hbm, 395, rfl⟩
abbrev main_v303 : Ref sig .tc := ⟨.hbm, 396, rfl⟩
abbrev main_c_74 : Ref sig .tc := ⟨.hbm, 397, rfl⟩
abbrev main_v304 : Ref sig .tc := ⟨.hbm, 398, rfl⟩
abbrev main_v305 : Ref sig .tc := ⟨.hbm, 399, rfl⟩
abbrev main_c_75 : Ref sig .tc := ⟨.hbm, 400, rfl⟩
abbrev main_v306 : Ref sig .tc := ⟨.hbm, 401, rfl⟩
abbrev main_v307 : Ref sig .tc := ⟨.hbm, 402, rfl⟩
abbrev main_v308 : Ref sig .tc := ⟨.hbm, 403, rfl⟩
abbrev main_v309 : Ref sig .tc := ⟨.hbm, 404, rfl⟩
abbrev main_v310 : Ref sig .tc := ⟨.hbm, 405, rfl⟩
abbrev main_v311 : Ref sig .tc := ⟨.hbm, 406, rfl⟩
abbrev main_v312 : Ref sig .tc := ⟨.hbm, 407, rfl⟩
abbrev main_v313 : Ref sig .tc := ⟨.hbm, 408, rfl⟩
abbrev main_c_76 : Ref sig .tc := ⟨.hbm, 409, rfl⟩
abbrev main_v314 : Ref sig .tc := ⟨.hbm, 410, rfl⟩
abbrev main_v315 : Ref sig .tc := ⟨.hbm, 411, rfl⟩
abbrev main_c_77 : Ref sig .tc := ⟨.hbm, 412, rfl⟩
abbrev main_v316 : Ref sig .tc := ⟨.hbm, 413, rfl⟩
abbrev main_v317 : Ref sig .tc := ⟨.hbm, 414, rfl⟩
abbrev main_v318 : Ref sig .tc := ⟨.hbm, 415, rfl⟩
abbrev main_v319 : Ref sig .tc := ⟨.hbm, 416, rfl⟩
abbrev main_v320 : Ref sig .tc := ⟨.hbm, 417, rfl⟩
abbrev main_v321 : Ref sig .tc := ⟨.hbm, 418, rfl⟩
abbrev main_v322 : Ref sig .tc := ⟨.hbm, 419, rfl⟩
abbrev main_v323 : Ref sig .tc := ⟨.hbm, 420, rfl⟩
abbrev main_v324 : Ref sig .tc := ⟨.hbm, 421, rfl⟩
abbrev main_v325 : Ref sig .tc := ⟨.hbm, 422, rfl⟩
abbrev main_v326 : Ref sig .tc := ⟨.hbm, 423, rfl⟩
abbrev main_v327 : Ref sig .tc := ⟨.hbm, 424, rfl⟩
abbrev main_v328 : Ref sig .tc := ⟨.hbm, 425, rfl⟩
abbrev main_v329 : Ref sig .tc := ⟨.hbm, 426, rfl⟩
abbrev main_v330 : Ref sig .tc := ⟨.hbm, 427, rfl⟩
abbrev main_cst_78 : Ref sig .tc := ⟨.hbm, 428, rfl⟩
abbrev main_v331 : Ref sig .tc := ⟨.hbm, 429, rfl⟩
abbrev main_v332 : Ref sig .tc := ⟨.hbm, 430, rfl⟩
abbrev main_cst_79 : Ref sig .tc := ⟨.hbm, 431, rfl⟩
abbrev main_v333 : Ref sig .tc := ⟨.hbm, 432, rfl⟩
abbrev main_c_80 : Ref sig .tc := ⟨.hbm, 433, rfl⟩
abbrev main_v334 : Ref sig .tc := ⟨.hbm, 434, rfl⟩
abbrev main_v335 : Ref sig .tc := ⟨.hbm, 435, rfl⟩
abbrev main_c_81 : Ref sig .tc := ⟨.hbm, 436, rfl⟩
abbrev main_v336 : Ref sig .tc := ⟨.hbm, 437, rfl⟩
abbrev main_v337 : Ref sig .tc := ⟨.hbm, 438, rfl⟩
abbrev main_v338 : Ref sig .tc := ⟨.hbm, 439, rfl⟩
abbrev main_v339 : Ref sig .tc := ⟨.hbm, 440, rfl⟩
abbrev main_v340 : Ref sig .tc := ⟨.hbm, 441, rfl⟩
abbrev main_cst_82 : Ref sig .tc := ⟨.hbm, 442, rfl⟩
abbrev main_v341 : Ref sig .tc := ⟨.hbm, 443, rfl⟩
abbrev main_v342 : Ref sig .tc := ⟨.hbm, 444, rfl⟩
abbrev main_cst_83 : Ref sig .tc := ⟨.hbm, 445, rfl⟩
abbrev main_v343 : Ref sig .tc := ⟨.hbm, 446, rfl⟩
abbrev main_v344 : Ref sig .tc := ⟨.hbm, 447, rfl⟩
abbrev main_cst_84 : Ref sig .tc := ⟨.hbm, 448, rfl⟩
abbrev main_call5_v0 : Ref sig .tc := ⟨.hbm, 449, rfl⟩
abbrev main_call5_v1 : Ref sig .tc := ⟨.hbm, 450, rfl⟩
abbrev main_v345 : Ref sig .tc := ⟨.hbm, 451, rfl⟩
abbrev main_c_85 : Ref sig .tc := ⟨.hbm, 452, rfl⟩
abbrev main_v346 : Ref sig .tc := ⟨.hbm, 453, rfl⟩
abbrev main_v347 : Ref sig .tc := ⟨.hbm, 454, rfl⟩
abbrev main_c_86 : Ref sig .tc := ⟨.hbm, 455, rfl⟩
abbrev main_v348 : Ref sig .tc := ⟨.hbm, 456, rfl⟩
abbrev main_v349 : Ref sig .tc := ⟨.hbm, 457, rfl⟩
abbrev main_v350 : Ref sig .tc := ⟨.hbm, 458, rfl⟩
abbrev main_v351 : Ref sig .tc := ⟨.hbm, 459, rfl⟩
abbrev main_v352 : Ref sig .tc := ⟨.hbm, 460, rfl⟩
abbrev main_v353 : Ref sig .tc := ⟨.hbm, 461, rfl⟩
abbrev main_c_87 : Ref sig .tc := ⟨.hbm, 462, rfl⟩
abbrev main_v354 : Ref sig .tc := ⟨.hbm, 463, rfl⟩
abbrev main_v355 : Ref sig .tc := ⟨.hbm, 464, rfl⟩
abbrev main_c_88 : Ref sig .tc := ⟨.hbm, 465, rfl⟩
abbrev main_v356 : Ref sig .tc := ⟨.hbm, 466, rfl⟩
abbrev main_v357 : Ref sig .tc := ⟨.hbm, 467, rfl⟩
abbrev main_v358 : Ref sig .tc := ⟨.hbm, 468, rfl⟩
abbrev main_v359 : Ref sig .tc := ⟨.hbm, 469, rfl⟩
abbrev main_v360 : Ref sig .tc := ⟨.hbm, 470, rfl⟩
abbrev main_v361 : Ref sig .tc := ⟨.hbm, 471, rfl⟩
abbrev main_v362 : Ref sig .tc := ⟨.hbm, 472, rfl⟩
abbrev main_cst_89 : Ref sig .tc := ⟨.hbm, 473, rfl⟩
abbrev main_v363 : Ref sig .tc := ⟨.hbm, 474, rfl⟩
abbrev main_c_90 : Ref sig .tc := ⟨.hbm, 475, rfl⟩
abbrev main_v364 : Ref sig .tc := ⟨.hbm, 476, rfl⟩
abbrev main_v365 : Ref sig .tc := ⟨.hbm, 477, rfl⟩
abbrev main_c_91 : Ref sig .tc := ⟨.hbm, 478, rfl⟩
abbrev main_v366 : Ref sig .tc := ⟨.hbm, 479, rfl⟩
abbrev main_v367 : Ref sig .tc := ⟨.hbm, 480, rfl⟩
abbrev main_v368 : Ref sig .tc := ⟨.hbm, 481, rfl⟩
abbrev main_v369 : Ref sig .tc := ⟨.hbm, 482, rfl⟩
abbrev main_v370 : Ref sig .tc := ⟨.hbm, 483, rfl⟩
abbrev main_v371 : Ref sig .tc := ⟨.hbm, 484, rfl⟩
abbrev main_v372 : Ref sig .tc := ⟨.hbm, 485, rfl⟩
abbrev main_v373 : Ref sig .tc := ⟨.hbm, 486, rfl⟩
abbrev main_c_92 : Ref sig .tc := ⟨.hbm, 487, rfl⟩
abbrev main_v374 : Ref sig .tc := ⟨.hbm, 488, rfl⟩
abbrev main_v375 : Ref sig .tc := ⟨.hbm, 489, rfl⟩
abbrev main_c_93 : Ref sig .tc := ⟨.hbm, 490, rfl⟩
abbrev main_v376 : Ref sig .tc := ⟨.hbm, 491, rfl⟩
abbrev main_v377 : Ref sig .tc := ⟨.hbm, 492, rfl⟩
abbrev main_v378 : Ref sig .tc := ⟨.hbm, 493, rfl⟩
abbrev main_v379 : Ref sig .tc := ⟨.hbm, 494, rfl⟩
abbrev main_v380 : Ref sig .tc := ⟨.hbm, 495, rfl⟩
abbrev main_v381 : Ref sig .tc := ⟨.hbm, 496, rfl⟩
abbrev main_v382 : Ref sig .tc := ⟨.hbm, 497, rfl⟩
abbrev main_v383 : Ref sig .tc := ⟨.hbm, 498, rfl⟩
abbrev main_v384 : Ref sig .tc := ⟨.hbm, 499, rfl⟩
abbrev main_v385 : Ref sig .tc := ⟨.hbm, 500, rfl⟩
abbrev main_v386 : Ref sig .tc := ⟨.hbm, 501, rfl⟩
abbrev main_v387 : Ref sig .tc := ⟨.hbm, 502, rfl⟩
abbrev main_v388 : Ref sig .tc := ⟨.hbm, 503, rfl⟩
abbrev main_v389 : Ref sig .tc := ⟨.hbm, 504, rfl⟩
abbrev main_v390 : Ref sig .tc := ⟨.hbm, 505, rfl⟩
abbrev main_v391 : Ref sig .tc := ⟨.hbm, 506, rfl⟩
abbrev main_v392 : Ref sig .tc := ⟨.hbm, 507, rfl⟩
abbrev main_v393 : Ref sig .tc := ⟨.hbm, 508, rfl⟩
abbrev main_v394 : Ref sig .tc := ⟨.hbm, 509, rfl⟩
abbrev main_v395 : Ref sig .tc := ⟨.hbm, 510, rfl⟩
abbrev main_v396 : Ref sig .tc := ⟨.hbm, 511, rfl⟩
abbrev main_v397 : Ref sig .tc := ⟨.hbm, 512, rfl⟩
abbrev main_v398 : Ref sig .tc := ⟨.hbm, 513, rfl⟩
abbrev main_v399 : Ref sig .tc := ⟨.hbm, 514, rfl⟩
abbrev main_v400 : Ref sig .tc := ⟨.hbm, 515, rfl⟩
abbrev main_v401 : Ref sig .tc := ⟨.hbm, 516, rfl⟩
abbrev main_v402 : Ref sig .tc := ⟨.hbm, 517, rfl⟩
abbrev main_cst_94 : Ref sig .tc := ⟨.hbm, 518, rfl⟩
abbrev main_v403 : Ref sig .tc := ⟨.hbm, 519, rfl⟩
abbrev main_v404 : Ref sig .tc := ⟨.hbm, 520, rfl⟩
abbrev main_cst_95 : Ref sig .tc := ⟨.hbm, 521, rfl⟩
abbrev main_v405 : Ref sig .tc := ⟨.hbm, 522, rfl⟩
abbrev main_c_96 : Ref sig .tc := ⟨.hbm, 523, rfl⟩
abbrev main_v406 : Ref sig .tc := ⟨.hbm, 524, rfl⟩
abbrev main_v407 : Ref sig .tc := ⟨.hbm, 525, rfl⟩
abbrev main_c_97 : Ref sig .tc := ⟨.hbm, 526, rfl⟩
abbrev main_v408 : Ref sig .tc := ⟨.hbm, 527, rfl⟩
abbrev main_v409 : Ref sig .tc := ⟨.hbm, 528, rfl⟩
abbrev main_v410 : Ref sig .tc := ⟨.hbm, 529, rfl⟩
abbrev main_v411 : Ref sig .tc := ⟨.hbm, 530, rfl⟩
abbrev main_v412 : Ref sig .tc := ⟨.hbm, 531, rfl⟩
abbrev main_cst_98 : Ref sig .tc := ⟨.hbm, 532, rfl⟩
abbrev main_v413 : Ref sig .tc := ⟨.hbm, 533, rfl⟩
abbrev main_v414 : Ref sig .tc := ⟨.hbm, 534, rfl⟩
abbrev main_cst_99 : Ref sig .tc := ⟨.hbm, 535, rfl⟩
abbrev main_v415 : Ref sig .tc := ⟨.hbm, 536, rfl⟩
abbrev main_v416 : Ref sig .tc := ⟨.hbm, 537, rfl⟩
abbrev main_cst_100 : Ref sig .tc := ⟨.hbm, 538, rfl⟩
abbrev main_call6_v0 : Ref sig .tc := ⟨.hbm, 539, rfl⟩
abbrev main_call6_v1 : Ref sig .tc := ⟨.hbm, 540, rfl⟩
abbrev main_v417 : Ref sig .tc := ⟨.hbm, 541, rfl⟩
abbrev main_c_101 : Ref sig .tc := ⟨.hbm, 542, rfl⟩
abbrev main_v418 : Ref sig .tc := ⟨.hbm, 543, rfl⟩
abbrev main_v419 : Ref sig .tc := ⟨.hbm, 544, rfl⟩
abbrev main_c_102 : Ref sig .tc := ⟨.hbm, 545, rfl⟩
abbrev main_v420 : Ref sig .tc := ⟨.hbm, 546, rfl⟩
abbrev main_v421 : Ref sig .tc := ⟨.hbm, 547, rfl⟩
abbrev main_v422 : Ref sig .tc := ⟨.hbm, 548, rfl⟩
abbrev main_v423 : Ref sig .tc := ⟨.hbm, 549, rfl⟩
abbrev main_v424 : Ref sig .tc := ⟨.hbm, 550, rfl⟩
abbrev main_v425 : Ref sig .tc := ⟨.hbm, 551, rfl⟩
abbrev main_c_103 : Ref sig .tc := ⟨.hbm, 552, rfl⟩
abbrev main_v426 : Ref sig .tc := ⟨.hbm, 553, rfl⟩
abbrev main_v427 : Ref sig .tc := ⟨.hbm, 554, rfl⟩
abbrev main_c_104 : Ref sig .tc := ⟨.hbm, 555, rfl⟩
abbrev main_v428 : Ref sig .tc := ⟨.hbm, 556, rfl⟩
abbrev main_v429 : Ref sig .tc := ⟨.hbm, 557, rfl⟩
abbrev main_v430 : Ref sig .tc := ⟨.hbm, 558, rfl⟩
abbrev main_v431 : Ref sig .tc := ⟨.hbm, 559, rfl⟩
abbrev main_v432 : Ref sig .tc := ⟨.hbm, 560, rfl⟩
abbrev main_v433 : Ref sig .tc := ⟨.hbm, 561, rfl⟩
abbrev main_v434 : Ref sig .tc := ⟨.hbm, 562, rfl⟩
abbrev main_cst_105 : Ref sig .tc := ⟨.hbm, 563, rfl⟩
abbrev main_v435 : Ref sig .tc := ⟨.hbm, 564, rfl⟩
abbrev main_c_106 : Ref sig .tc := ⟨.hbm, 565, rfl⟩
abbrev main_v436 : Ref sig .tc := ⟨.hbm, 566, rfl⟩
abbrev main_v437 : Ref sig .tc := ⟨.hbm, 567, rfl⟩
abbrev main_c_107 : Ref sig .tc := ⟨.hbm, 568, rfl⟩
abbrev main_v438 : Ref sig .tc := ⟨.hbm, 569, rfl⟩
abbrev main_v439 : Ref sig .tc := ⟨.hbm, 570, rfl⟩
abbrev main_v440 : Ref sig .tc := ⟨.hbm, 571, rfl⟩
abbrev main_v441 : Ref sig .tc := ⟨.hbm, 572, rfl⟩
abbrev main_v442 : Ref sig .tc := ⟨.hbm, 573, rfl⟩
abbrev main_v443 : Ref sig .tc := ⟨.hbm, 574, rfl⟩
abbrev main_v444 : Ref sig .tc := ⟨.hbm, 575, rfl⟩
abbrev main_v445 : Ref sig .tc := ⟨.hbm, 576, rfl⟩
abbrev main_c_108 : Ref sig .tc := ⟨.hbm, 577, rfl⟩
abbrev main_v446 : Ref sig .tc := ⟨.hbm, 578, rfl⟩
abbrev main_v447 : Ref sig .tc := ⟨.hbm, 579, rfl⟩
abbrev main_c_109 : Ref sig .tc := ⟨.hbm, 580, rfl⟩
abbrev main_v448 : Ref sig .tc := ⟨.hbm, 581, rfl⟩
abbrev main_v449 : Ref sig .tc := ⟨.hbm, 582, rfl⟩
abbrev main_v450 : Ref sig .tc := ⟨.hbm, 583, rfl⟩
abbrev main_v451 : Ref sig .tc := ⟨.hbm, 584, rfl⟩
abbrev main_v452 : Ref sig .tc := ⟨.hbm, 585, rfl⟩
abbrev main_v453 : Ref sig .tc := ⟨.hbm, 586, rfl⟩
abbrev main_v454 : Ref sig .tc := ⟨.hbm, 587, rfl⟩
abbrev main_v455 : Ref sig .tc := ⟨.hbm, 588, rfl⟩
abbrev main_v456 : Ref sig .tc := ⟨.hbm, 589, rfl⟩
abbrev main_v457 : Ref sig .tc := ⟨.hbm, 590, rfl⟩
abbrev main_v458 : Ref sig .tc := ⟨.hbm, 591, rfl⟩
abbrev main_v459 : Ref sig .tc := ⟨.hbm, 592, rfl⟩
abbrev main_v460 : Ref sig .tc := ⟨.hbm, 593, rfl⟩
abbrev main_v461 : Ref sig .tc := ⟨.hbm, 594, rfl⟩
abbrev main_v462 : Ref sig .tc := ⟨.hbm, 595, rfl⟩
abbrev main_cst_110 : Ref sig .tc := ⟨.hbm, 596, rfl⟩
abbrev main_v463 : Ref sig .tc := ⟨.hbm, 597, rfl⟩
abbrev main_v464 : Ref sig .tc := ⟨.hbm, 598, rfl⟩
abbrev main_cst_111 : Ref sig .tc := ⟨.hbm, 599, rfl⟩
abbrev main_v465 : Ref sig .tc := ⟨.hbm, 600, rfl⟩
abbrev main_c_112 : Ref sig .tc := ⟨.hbm, 601, rfl⟩
abbrev main_v466 : Ref sig .tc := ⟨.hbm, 602, rfl⟩
abbrev main_v467 : Ref sig .tc := ⟨.hbm, 603, rfl⟩
abbrev main_c_113 : Ref sig .tc := ⟨.hbm, 604, rfl⟩
abbrev main_v468 : Ref sig .tc := ⟨.hbm, 605, rfl⟩
abbrev main_v469 : Ref sig .tc := ⟨.hbm, 606, rfl⟩
abbrev main_v470 : Ref sig .tc := ⟨.hbm, 607, rfl⟩
abbrev main_v471 : Ref sig .tc := ⟨.hbm, 608, rfl⟩
abbrev main_v472 : Ref sig .tc := ⟨.hbm, 609, rfl⟩
abbrev main_cst_114 : Ref sig .tc := ⟨.hbm, 610, rfl⟩
abbrev main_v473 : Ref sig .tc := ⟨.hbm, 611, rfl⟩
abbrev main_v474 : Ref sig .tc := ⟨.hbm, 612, rfl⟩
abbrev main_cst_115 : Ref sig .tc := ⟨.hbm, 613, rfl⟩
abbrev main_v475 : Ref sig .tc := ⟨.hbm, 614, rfl⟩
abbrev main_v476 : Ref sig .tc := ⟨.hbm, 615, rfl⟩
abbrev main_cst_116 : Ref sig .tc := ⟨.hbm, 616, rfl⟩
abbrev main_call7_v0 : Ref sig .tc := ⟨.hbm, 617, rfl⟩
abbrev main_call7_v1 : Ref sig .tc := ⟨.hbm, 618, rfl⟩
abbrev main_v477 : Ref sig .tc := ⟨.hbm, 619, rfl⟩
abbrev main_c_117 : Ref sig .tc := ⟨.hbm, 620, rfl⟩
abbrev main_v478 : Ref sig .tc := ⟨.hbm, 621, rfl⟩
abbrev main_v479 : Ref sig .tc := ⟨.hbm, 622, rfl⟩
abbrev main_c_118 : Ref sig .tc := ⟨.hbm, 623, rfl⟩
abbrev main_v480 : Ref sig .tc := ⟨.hbm, 624, rfl⟩
abbrev main_v481 : Ref sig .tc := ⟨.hbm, 625, rfl⟩
abbrev main_v482 : Ref sig .tc := ⟨.hbm, 626, rfl⟩
abbrev main_v483 : Ref sig .tc := ⟨.hbm, 627, rfl⟩
abbrev main_v484 : Ref sig .tc := ⟨.hbm, 628, rfl⟩
abbrev main_v485 : Ref sig .tc := ⟨.hbm, 629, rfl⟩
abbrev main_c_119 : Ref sig .tc := ⟨.hbm, 630, rfl⟩
abbrev main_v486 : Ref sig .tc := ⟨.hbm, 631, rfl⟩
abbrev main_v487 : Ref sig .tc := ⟨.hbm, 632, rfl⟩
abbrev main_c_120 : Ref sig .tc := ⟨.hbm, 633, rfl⟩
abbrev main_v488 : Ref sig .tc := ⟨.hbm, 634, rfl⟩
abbrev main_v489 : Ref sig .tc := ⟨.hbm, 635, rfl⟩
abbrev main_v490 : Ref sig .tc := ⟨.hbm, 636, rfl⟩
abbrev main_v491 : Ref sig .tc := ⟨.hbm, 637, rfl⟩
abbrev main_v492 : Ref sig .tc := ⟨.hbm, 638, rfl⟩
abbrev main_v493 : Ref sig .tc := ⟨.hbm, 639, rfl⟩
abbrev main_v494 : Ref sig .tc := ⟨.hbm, 640, rfl⟩
abbrev main_cst_121 : Ref sig .tc := ⟨.hbm, 641, rfl⟩
abbrev main_v495 : Ref sig .tc := ⟨.hbm, 642, rfl⟩
abbrev main_c_122 : Ref sig .tc := ⟨.hbm, 643, rfl⟩
abbrev main_v496 : Ref sig .tc := ⟨.hbm, 644, rfl⟩
abbrev main_v497 : Ref sig .tc := ⟨.hbm, 645, rfl⟩
abbrev main_c_123 : Ref sig .tc := ⟨.hbm, 646, rfl⟩
abbrev main_v498 : Ref sig .tc := ⟨.hbm, 647, rfl⟩
abbrev main_v499 : Ref sig .tc := ⟨.hbm, 648, rfl⟩
abbrev main_v500 : Ref sig .tc := ⟨.hbm, 649, rfl⟩
abbrev main_v501 : Ref sig .tc := ⟨.hbm, 650, rfl⟩
abbrev main_v502 : Ref sig .tc := ⟨.hbm, 651, rfl⟩
abbrev main_v503 : Ref sig .tc := ⟨.hbm, 652, rfl⟩
abbrev main_v504 : Ref sig .tc := ⟨.hbm, 653, rfl⟩
abbrev main_v505 : Ref sig .tc := ⟨.hbm, 654, rfl⟩
abbrev main_c_124 : Ref sig .tc := ⟨.hbm, 655, rfl⟩
abbrev main_v506 : Ref sig .tc := ⟨.hbm, 656, rfl⟩
abbrev main_v507 : Ref sig .tc := ⟨.hbm, 657, rfl⟩
abbrev main_c_125 : Ref sig .tc := ⟨.hbm, 658, rfl⟩
abbrev main_v508 : Ref sig .tc := ⟨.hbm, 659, rfl⟩
abbrev main_v509 : Ref sig .tc := ⟨.hbm, 660, rfl⟩
abbrev main_v510 : Ref sig .tc := ⟨.hbm, 661, rfl⟩
abbrev main_v511 : Ref sig .tc := ⟨.hbm, 662, rfl⟩
abbrev main_v512 : Ref sig .tc := ⟨.hbm, 663, rfl⟩
abbrev main_v513 : Ref sig .tc := ⟨.hbm, 664, rfl⟩
abbrev main_v514 : Ref sig .tc := ⟨.hbm, 665, rfl⟩
abbrev main_v515 : Ref sig .tc := ⟨.hbm, 666, rfl⟩
abbrev main_v516 : Ref sig .tc := ⟨.hbm, 667, rfl⟩
abbrev main_v517 : Ref sig .tc := ⟨.hbm, 668, rfl⟩
abbrev main_v518 : Ref sig .tc := ⟨.hbm, 669, rfl⟩
abbrev main_v519 : Ref sig .tc := ⟨.hbm, 670, rfl⟩
abbrev main_v520 : Ref sig .tc := ⟨.hbm, 671, rfl⟩
abbrev main_v521 : Ref sig .tc := ⟨.hbm, 672, rfl⟩
abbrev main_v522 : Ref sig .tc := ⟨.hbm, 673, rfl⟩
abbrev main_cst_126 : Ref sig .tc := ⟨.hbm, 674, rfl⟩
abbrev main_v523 : Ref sig .tc := ⟨.hbm, 675, rfl⟩
abbrev main_v524 : Ref sig .tc := ⟨.hbm, 676, rfl⟩
abbrev main_cst_127 : Ref sig .tc := ⟨.hbm, 677, rfl⟩
abbrev main_v525 : Ref sig .tc := ⟨.hbm, 678, rfl⟩
abbrev main_c_128 : Ref sig .tc := ⟨.hbm, 679, rfl⟩
abbrev main_v526 : Ref sig .tc := ⟨.hbm, 680, rfl⟩
abbrev main_v527 : Ref sig .tc := ⟨.hbm, 681, rfl⟩
abbrev main_c_129 : Ref sig .tc := ⟨.hbm, 682, rfl⟩
abbrev main_v528 : Ref sig .tc := ⟨.hbm, 683, rfl⟩
abbrev main_v529 : Ref sig .tc := ⟨.hbm, 684, rfl⟩
abbrev main_v530 : Ref sig .tc := ⟨.hbm, 685, rfl⟩
abbrev main_v531 : Ref sig .tc := ⟨.hbm, 686, rfl⟩
abbrev main_v532 : Ref sig .tc := ⟨.hbm, 687, rfl⟩
abbrev main_cst_130 : Ref sig .tc := ⟨.hbm, 688, rfl⟩
abbrev main_v533 : Ref sig .tc := ⟨.hbm, 689, rfl⟩
abbrev main_v534 : Ref sig .tc := ⟨.hbm, 690, rfl⟩
abbrev main_cst_131 : Ref sig .tc := ⟨.hbm, 691, rfl⟩
abbrev main_v535 : Ref sig .tc := ⟨.hbm, 692, rfl⟩
abbrev main_v536 : Ref sig .tc := ⟨.hbm, 693, rfl⟩
abbrev main_cst_132 : Ref sig .tc := ⟨.hbm, 694, rfl⟩
abbrev main_call8_v0 : Ref sig .tc := ⟨.hbm, 695, rfl⟩
abbrev main_call8_v1 : Ref sig .tc := ⟨.hbm, 696, rfl⟩
abbrev main_v537 : Ref sig .tc := ⟨.hbm, 697, rfl⟩
abbrev main_c_133 : Ref sig .tc := ⟨.hbm, 698, rfl⟩
abbrev main_v538 : Ref sig .tc := ⟨.hbm, 699, rfl⟩
abbrev main_v539 : Ref sig .tc := ⟨.hbm, 700, rfl⟩
abbrev main_c_134 : Ref sig .tc := ⟨.hbm, 701, rfl⟩
abbrev main_v540 : Ref sig .tc := ⟨.hbm, 702, rfl⟩
abbrev main_v541 : Ref sig .tc := ⟨.hbm, 703, rfl⟩
abbrev main_v542 : Ref sig .tc := ⟨.hbm, 704, rfl⟩
abbrev main_v543 : Ref sig .tc := ⟨.hbm, 705, rfl⟩
abbrev main_v544 : Ref sig .tc := ⟨.hbm, 706, rfl⟩
abbrev main_v545 : Ref sig .tc := ⟨.hbm, 707, rfl⟩
abbrev main_c_135 : Ref sig .tc := ⟨.hbm, 708, rfl⟩
abbrev main_v546 : Ref sig .tc := ⟨.hbm, 709, rfl⟩
abbrev main_v547 : Ref sig .tc := ⟨.hbm, 710, rfl⟩
abbrev main_c_136 : Ref sig .tc := ⟨.hbm, 711, rfl⟩
abbrev main_v548 : Ref sig .tc := ⟨.hbm, 712, rfl⟩
abbrev main_v549 : Ref sig .tc := ⟨.hbm, 713, rfl⟩
abbrev main_v550 : Ref sig .tc := ⟨.hbm, 714, rfl⟩
abbrev main_v551 : Ref sig .tc := ⟨.hbm, 715, rfl⟩
abbrev main_v552 : Ref sig .tc := ⟨.hbm, 716, rfl⟩
abbrev main_v553 : Ref sig .tc := ⟨.hbm, 717, rfl⟩
abbrev main_v554 : Ref sig .tc := ⟨.hbm, 718, rfl⟩
abbrev main_cst_137 : Ref sig .tc := ⟨.hbm, 719, rfl⟩
abbrev main_v555 : Ref sig .tc := ⟨.hbm, 720, rfl⟩
abbrev main_c_138 : Ref sig .tc := ⟨.hbm, 721, rfl⟩
abbrev main_v556 : Ref sig .tc := ⟨.hbm, 722, rfl⟩
abbrev main_v557 : Ref sig .tc := ⟨.hbm, 723, rfl⟩
abbrev main_c_139 : Ref sig .tc := ⟨.hbm, 724, rfl⟩
abbrev main_v558 : Ref sig .tc := ⟨.hbm, 725, rfl⟩
abbrev main_v559 : Ref sig .tc := ⟨.hbm, 726, rfl⟩
abbrev main_v560 : Ref sig .tc := ⟨.hbm, 727, rfl⟩
abbrev main_v561 : Ref sig .tc := ⟨.hbm, 728, rfl⟩
abbrev main_v562 : Ref sig .tc := ⟨.hbm, 729, rfl⟩
abbrev main_v563 : Ref sig .tc := ⟨.hbm, 730, rfl⟩
abbrev main_v564 : Ref sig .tc := ⟨.hbm, 731, rfl⟩
abbrev main_v565 : Ref sig .tc := ⟨.hbm, 732, rfl⟩
abbrev main_c_140 : Ref sig .tc := ⟨.hbm, 733, rfl⟩
abbrev main_v566 : Ref sig .tc := ⟨.hbm, 734, rfl⟩
abbrev main_v567 : Ref sig .tc := ⟨.hbm, 735, rfl⟩
abbrev main_c_141 : Ref sig .tc := ⟨.hbm, 736, rfl⟩
abbrev main_v568 : Ref sig .tc := ⟨.hbm, 737, rfl⟩
abbrev main_v569 : Ref sig .tc := ⟨.hbm, 738, rfl⟩
abbrev main_v570 : Ref sig .tc := ⟨.hbm, 739, rfl⟩
abbrev main_v571 : Ref sig .tc := ⟨.hbm, 740, rfl⟩
abbrev main_v572 : Ref sig .tc := ⟨.hbm, 741, rfl⟩
abbrev main_v573 : Ref sig .tc := ⟨.hbm, 742, rfl⟩
abbrev main_v574 : Ref sig .tc := ⟨.hbm, 743, rfl⟩
abbrev main_v575 : Ref sig .tc := ⟨.hbm, 744, rfl⟩
abbrev main_v576 : Ref sig .tc := ⟨.hbm, 745, rfl⟩
abbrev main_v577 : Ref sig .tc := ⟨.hbm, 746, rfl⟩
abbrev main_v578 : Ref sig .tc := ⟨.hbm, 747, rfl⟩
abbrev main_v579 : Ref sig .tc := ⟨.hbm, 748, rfl⟩
abbrev main_v580 : Ref sig .tc := ⟨.hbm, 749, rfl⟩
abbrev main_v581 : Ref sig .tc := ⟨.hbm, 750, rfl⟩
abbrev main_v582 : Ref sig .tc := ⟨.hbm, 751, rfl⟩
abbrev main_v583 : Ref sig .tc := ⟨.hbm, 752, rfl⟩
abbrev main_v584 : Ref sig .tc := ⟨.hbm, 753, rfl⟩
abbrev main_v585 : Ref sig .tc := ⟨.hbm, 754, rfl⟩
abbrev main_v586 : Ref sig .tc := ⟨.hbm, 755, rfl⟩
abbrev main_v587 : Ref sig .tc := ⟨.hbm, 756, rfl⟩
abbrev main_v588 : Ref sig .tc := ⟨.hbm, 757, rfl⟩
abbrev main_v589 : Ref sig .tc := ⟨.hbm, 758, rfl⟩
abbrev main_v590 : Ref sig .tc := ⟨.hbm, 759, rfl⟩
abbrev main_v591 : Ref sig .tc := ⟨.hbm, 760, rfl⟩
abbrev main_v592 : Ref sig .tc := ⟨.hbm, 761, rfl⟩
abbrev main_v593 : Ref sig .tc := ⟨.hbm, 762, rfl⟩
abbrev main_v594 : Ref sig .tc := ⟨.hbm, 763, rfl⟩
abbrev main_cst_142 : Ref sig .tc := ⟨.hbm, 764, rfl⟩
abbrev main_v595 : Ref sig .tc := ⟨.hbm, 765, rfl⟩
abbrev main_v596 : Ref sig .tc := ⟨.hbm, 766, rfl⟩
abbrev main_cst_143 : Ref sig .tc := ⟨.hbm, 767, rfl⟩
abbrev main_v597 : Ref sig .tc := ⟨.hbm, 768, rfl⟩
abbrev main_c_144 : Ref sig .tc := ⟨.hbm, 769, rfl⟩
abbrev main_v598 : Ref sig .tc := ⟨.hbm, 770, rfl⟩
abbrev main_v599 : Ref sig .tc := ⟨.hbm, 771, rfl⟩
abbrev main_c_145 : Ref sig .tc := ⟨.hbm, 772, rfl⟩
abbrev main_v600 : Ref sig .tc := ⟨.hbm, 773, rfl⟩
abbrev main_v601 : Ref sig .tc := ⟨.hbm, 774, rfl⟩
abbrev main_v602 : Ref sig .tc := ⟨.hbm, 775, rfl⟩
abbrev main_v603 : Ref sig .tc := ⟨.hbm, 776, rfl⟩
abbrev main_v604 : Ref sig .tc := ⟨.hbm, 777, rfl⟩
abbrev main_cst_146 : Ref sig .tc := ⟨.hbm, 778, rfl⟩
abbrev main_v605 : Ref sig .tc := ⟨.hbm, 779, rfl⟩
abbrev main_v606 : Ref sig .tc := ⟨.hbm, 780, rfl⟩
abbrev main_cst_147 : Ref sig .tc := ⟨.hbm, 781, rfl⟩
abbrev main_v607 : Ref sig .tc := ⟨.hbm, 782, rfl⟩
abbrev main_v608 : Ref sig .tc := ⟨.hbm, 783, rfl⟩
abbrev main_cst_148 : Ref sig .tc := ⟨.hbm, 784, rfl⟩
abbrev main_call9_v0 : Ref sig .tc := ⟨.hbm, 785, rfl⟩
abbrev main_call9_v1 : Ref sig .tc := ⟨.hbm, 786, rfl⟩
abbrev main_v609 : Ref sig .tc := ⟨.hbm, 787, rfl⟩
abbrev main_c_149 : Ref sig .tc := ⟨.hbm, 788, rfl⟩
abbrev main_v610 : Ref sig .tc := ⟨.hbm, 789, rfl⟩
abbrev main_v611 : Ref sig .tc := ⟨.hbm, 790, rfl⟩
abbrev main_c_150 : Ref sig .tc := ⟨.hbm, 791, rfl⟩
abbrev main_v612 : Ref sig .tc := ⟨.hbm, 792, rfl⟩
abbrev main_v613 : Ref sig .tc := ⟨.hbm, 793, rfl⟩
abbrev main_v614 : Ref sig .tc := ⟨.hbm, 794, rfl⟩
abbrev main_v615 : Ref sig .tc := ⟨.hbm, 795, rfl⟩
abbrev main_v616 : Ref sig .tc := ⟨.hbm, 796, rfl⟩
abbrev main_v617 : Ref sig .tc := ⟨.hbm, 797, rfl⟩
abbrev main_c_151 : Ref sig .tc := ⟨.hbm, 798, rfl⟩
abbrev main_v618 : Ref sig .tc := ⟨.hbm, 799, rfl⟩
abbrev main_v619 : Ref sig .tc := ⟨.hbm, 800, rfl⟩
abbrev main_c_152 : Ref sig .tc := ⟨.hbm, 801, rfl⟩
abbrev main_v620 : Ref sig .tc := ⟨.hbm, 802, rfl⟩
abbrev main_v621 : Ref sig .tc := ⟨.hbm, 803, rfl⟩
abbrev main_v622 : Ref sig .tc := ⟨.hbm, 804, rfl⟩
abbrev main_v623 : Ref sig .tc := ⟨.hbm, 805, rfl⟩
abbrev main_v624 : Ref sig .tc := ⟨.hbm, 806, rfl⟩
abbrev main_v625 : Ref sig .tc := ⟨.hbm, 807, rfl⟩
abbrev main_v626 : Ref sig .tc := ⟨.hbm, 808, rfl⟩
abbrev main_cst_153 : Ref sig .tc := ⟨.hbm, 809, rfl⟩
abbrev main_v627 : Ref sig .tc := ⟨.hbm, 810, rfl⟩
abbrev main_c_154 : Ref sig .tc := ⟨.hbm, 811, rfl⟩
abbrev main_v628 : Ref sig .tc := ⟨.hbm, 812, rfl⟩
abbrev main_v629 : Ref sig .tc := ⟨.hbm, 813, rfl⟩
abbrev main_c_155 : Ref sig .tc := ⟨.hbm, 814, rfl⟩
abbrev main_v630 : Ref sig .tc := ⟨.hbm, 815, rfl⟩
abbrev main_v631 : Ref sig .tc := ⟨.hbm, 816, rfl⟩
abbrev main_v632 : Ref sig .tc := ⟨.hbm, 817, rfl⟩
abbrev main_v633 : Ref sig .tc := ⟨.hbm, 818, rfl⟩
abbrev main_v634 : Ref sig .tc := ⟨.hbm, 819, rfl⟩
abbrev main_v635 : Ref sig .tc := ⟨.hbm, 820, rfl⟩
abbrev main_v636 : Ref sig .tc := ⟨.hbm, 821, rfl⟩
abbrev main_v637 : Ref sig .tc := ⟨.hbm, 822, rfl⟩
abbrev main_c_156 : Ref sig .tc := ⟨.hbm, 823, rfl⟩
abbrev main_v638 : Ref sig .tc := ⟨.hbm, 824, rfl⟩
abbrev main_v639 : Ref sig .tc := ⟨.hbm, 825, rfl⟩
abbrev main_c_157 : Ref sig .tc := ⟨.hbm, 826, rfl⟩
abbrev main_v640 : Ref sig .tc := ⟨.hbm, 827, rfl⟩
abbrev main_v641 : Ref sig .tc := ⟨.hbm, 828, rfl⟩
abbrev main_v642 : Ref sig .tc := ⟨.hbm, 829, rfl⟩
abbrev main_v643 : Ref sig .tc := ⟨.hbm, 830, rfl⟩
abbrev main_v644 : Ref sig .tc := ⟨.hbm, 831, rfl⟩
abbrev main_v645 : Ref sig .tc := ⟨.hbm, 832, rfl⟩
abbrev main_v646 : Ref sig .tc := ⟨.hbm, 833, rfl⟩
abbrev main_v647 : Ref sig .tc := ⟨.hbm, 834, rfl⟩
abbrev main_v648 : Ref sig .tc := ⟨.hbm, 835, rfl⟩
abbrev main_v649 : Ref sig .tc := ⟨.hbm, 836, rfl⟩
abbrev main_v650 : Ref sig .tc := ⟨.hbm, 837, rfl⟩
abbrev main_v651 : Ref sig .tc := ⟨.hbm, 838, rfl⟩
abbrev main_v652 : Ref sig .tc := ⟨.hbm, 839, rfl⟩
abbrev main_v653 : Ref sig .tc := ⟨.hbm, 840, rfl⟩
abbrev main_v654 : Ref sig .tc := ⟨.hbm, 841, rfl⟩
abbrev main_cst_158 : Ref sig .tc := ⟨.hbm, 842, rfl⟩
abbrev main_v655 : Ref sig .tc := ⟨.hbm, 843, rfl⟩
abbrev main_v656 : Ref sig .tc := ⟨.hbm, 844, rfl⟩
abbrev main_cst_159 : Ref sig .tc := ⟨.hbm, 845, rfl⟩
abbrev main_v657 : Ref sig .tc := ⟨.hbm, 846, rfl⟩
abbrev main_c_160 : Ref sig .tc := ⟨.hbm, 847, rfl⟩
abbrev main_v658 : Ref sig .tc := ⟨.hbm, 848, rfl⟩
abbrev main_v659 : Ref sig .tc := ⟨.hbm, 849, rfl⟩
abbrev main_c_161 : Ref sig .tc := ⟨.hbm, 850, rfl⟩
abbrev main_v660 : Ref sig .tc := ⟨.hbm, 851, rfl⟩
abbrev main_v661 : Ref sig .tc := ⟨.hbm, 852, rfl⟩
abbrev main_v662 : Ref sig .tc := ⟨.hbm, 853, rfl⟩
abbrev main_v663 : Ref sig .tc := ⟨.hbm, 854, rfl⟩
abbrev main_v664 : Ref sig .tc := ⟨.hbm, 855, rfl⟩
abbrev main_cst_162 : Ref sig .tc := ⟨.hbm, 856, rfl⟩
abbrev main_v665 : Ref sig .tc := ⟨.hbm, 857, rfl⟩
abbrev main_v666 : Ref sig .tc := ⟨.hbm, 858, rfl⟩
abbrev main_cst_163 : Ref sig .tc := ⟨.hbm, 859, rfl⟩
abbrev main_v667 : Ref sig .tc := ⟨.hbm, 860, rfl⟩
abbrev main_v668 : Ref sig .tc := ⟨.hbm, 861, rfl⟩
abbrev main_cst_164 : Ref sig .tc := ⟨.hbm, 862, rfl⟩
abbrev main_call10_v0 : Ref sig .tc := ⟨.hbm, 863, rfl⟩
abbrev main_call10_v1 : Ref sig .tc := ⟨.hbm, 864, rfl⟩
abbrev main_v669 : Ref sig .tc := ⟨.hbm, 865, rfl⟩
abbrev main_c_165 : Ref sig .tc := ⟨.hbm, 866, rfl⟩
abbrev main_v670 : Ref sig .tc := ⟨.hbm, 867, rfl⟩
abbrev main_v671 : Ref sig .tc := ⟨.hbm, 868, rfl⟩
abbrev main_c_166 : Ref sig .tc := ⟨.hbm, 869, rfl⟩
abbrev main_v672 : Ref sig .tc := ⟨.hbm, 870, rfl⟩
abbrev main_v673 : Ref sig .tc := ⟨.hbm, 871, rfl⟩
abbrev main_v674 : Ref sig .tc := ⟨.hbm, 872, rfl⟩
abbrev main_v675 : Ref sig .tc := ⟨.hbm, 873, rfl⟩
abbrev main_v676 : Ref sig .tc := ⟨.hbm, 874, rfl⟩
abbrev main_v677 : Ref sig .tc := ⟨.hbm, 875, rfl⟩
abbrev main_c_167 : Ref sig .tc := ⟨.hbm, 876, rfl⟩
abbrev main_v678 : Ref sig .tc := ⟨.hbm, 877, rfl⟩
abbrev main_v679 : Ref sig .tc := ⟨.hbm, 878, rfl⟩
abbrev main_c_168 : Ref sig .tc := ⟨.hbm, 879, rfl⟩
abbrev main_v680 : Ref sig .tc := ⟨.hbm, 880, rfl⟩
abbrev main_v681 : Ref sig .tc := ⟨.hbm, 881, rfl⟩
abbrev main_v682 : Ref sig .tc := ⟨.hbm, 882, rfl⟩
abbrev main_v683 : Ref sig .tc := ⟨.hbm, 883, rfl⟩
abbrev main_v684 : Ref sig .tc := ⟨.hbm, 884, rfl⟩
abbrev main_v685 : Ref sig .tc := ⟨.hbm, 885, rfl⟩
abbrev main_v686 : Ref sig .tc := ⟨.hbm, 886, rfl⟩
abbrev main_cst_169 : Ref sig .tc := ⟨.hbm, 887, rfl⟩
abbrev main_v687 : Ref sig .tc := ⟨.hbm, 888, rfl⟩
abbrev main_c_170 : Ref sig .tc := ⟨.hbm, 889, rfl⟩
abbrev main_v688 : Ref sig .tc := ⟨.hbm, 890, rfl⟩
abbrev main_v689 : Ref sig .tc := ⟨.hbm, 891, rfl⟩
abbrev main_c_171 : Ref sig .tc := ⟨.hbm, 892, rfl⟩
abbrev main_v690 : Ref sig .tc := ⟨.hbm, 893, rfl⟩
abbrev main_v691 : Ref sig .tc := ⟨.hbm, 894, rfl⟩
abbrev main_v692 : Ref sig .tc := ⟨.hbm, 895, rfl⟩
abbrev main_v693 : Ref sig .tc := ⟨.hbm, 896, rfl⟩
abbrev main_v694 : Ref sig .tc := ⟨.hbm, 897, rfl⟩
abbrev main_v695 : Ref sig .tc := ⟨.hbm, 898, rfl⟩
abbrev main_v696 : Ref sig .tc := ⟨.hbm, 899, rfl⟩
abbrev main_v697 : Ref sig .tc := ⟨.hbm, 900, rfl⟩
abbrev main_c_172 : Ref sig .tc := ⟨.hbm, 901, rfl⟩
abbrev main_v698 : Ref sig .tc := ⟨.hbm, 902, rfl⟩
abbrev main_v699 : Ref sig .tc := ⟨.hbm, 903, rfl⟩
abbrev main_c_173 : Ref sig .tc := ⟨.hbm, 904, rfl⟩
abbrev main_v700 : Ref sig .tc := ⟨.hbm, 905, rfl⟩
abbrev main_v701 : Ref sig .tc := ⟨.hbm, 906, rfl⟩
abbrev main_v702 : Ref sig .tc := ⟨.hbm, 907, rfl⟩
abbrev main_v703 : Ref sig .tc := ⟨.hbm, 908, rfl⟩
abbrev main_v704 : Ref sig .tc := ⟨.hbm, 909, rfl⟩
abbrev main_v705 : Ref sig .tc := ⟨.hbm, 910, rfl⟩
abbrev main_v706 : Ref sig .tc := ⟨.hbm, 911, rfl⟩
abbrev main_v707 : Ref sig .tc := ⟨.hbm, 912, rfl⟩
abbrev main_v708 : Ref sig .tc := ⟨.hbm, 913, rfl⟩
abbrev main_v709 : Ref sig .tc := ⟨.hbm, 914, rfl⟩
abbrev main_v710 : Ref sig .tc := ⟨.hbm, 915, rfl⟩
abbrev main_v711 : Ref sig .tc := ⟨.hbm, 916, rfl⟩
abbrev main_v712 : Ref sig .tc := ⟨.hbm, 917, rfl⟩
abbrev main_v713 : Ref sig .tc := ⟨.hbm, 918, rfl⟩
abbrev main_v714 : Ref sig .tc := ⟨.hbm, 919, rfl⟩
abbrev main_cst_174 : Ref sig .tc := ⟨.hbm, 920, rfl⟩
abbrev main_v715 : Ref sig .tc := ⟨.hbm, 921, rfl⟩
abbrev main_v716 : Ref sig .tc := ⟨.hbm, 922, rfl⟩
abbrev main_cst_175 : Ref sig .tc := ⟨.hbm, 923, rfl⟩
abbrev main_v717 : Ref sig .tc := ⟨.hbm, 924, rfl⟩
abbrev main_c_176 : Ref sig .tc := ⟨.hbm, 925, rfl⟩
abbrev main_v718 : Ref sig .tc := ⟨.hbm, 926, rfl⟩
abbrev main_v719 : Ref sig .tc := ⟨.hbm, 927, rfl⟩
abbrev main_c_177 : Ref sig .tc := ⟨.hbm, 928, rfl⟩
abbrev main_v720 : Ref sig .tc := ⟨.hbm, 929, rfl⟩
abbrev main_v721 : Ref sig .tc := ⟨.hbm, 930, rfl⟩
abbrev main_v722 : Ref sig .tc := ⟨.hbm, 931, rfl⟩
abbrev main_v723 : Ref sig .tc := ⟨.hbm, 932, rfl⟩
abbrev main_v724 : Ref sig .tc := ⟨.hbm, 933, rfl⟩
abbrev main_cst_178 : Ref sig .tc := ⟨.hbm, 934, rfl⟩
abbrev main_v725 : Ref sig .tc := ⟨.hbm, 935, rfl⟩
abbrev main_v726 : Ref sig .tc := ⟨.hbm, 936, rfl⟩
abbrev main_cst_179 : Ref sig .tc := ⟨.hbm, 937, rfl⟩
abbrev main_v727 : Ref sig .tc := ⟨.hbm, 938, rfl⟩
abbrev main_v728 : Ref sig .tc := ⟨.hbm, 939, rfl⟩
abbrev main_cst_180 : Ref sig .tc := ⟨.hbm, 940, rfl⟩
abbrev main_call11_v0 : Ref sig .tc := ⟨.hbm, 941, rfl⟩
abbrev main_call11_v1 : Ref sig .tc := ⟨.hbm, 942, rfl⟩
abbrev main_v729 : Ref sig .tc := ⟨.hbm, 943, rfl⟩
abbrev main_c_181 : Ref sig .tc := ⟨.hbm, 944, rfl⟩
abbrev main_v730 : Ref sig .tc := ⟨.hbm, 945, rfl⟩
abbrev main_v731 : Ref sig .tc := ⟨.hbm, 946, rfl⟩
abbrev main_c_182 : Ref sig .tc := ⟨.hbm, 947, rfl⟩
abbrev main_v732 : Ref sig .tc := ⟨.hbm, 948, rfl⟩
abbrev main_v733 : Ref sig .tc := ⟨.hbm, 949, rfl⟩
abbrev main_v734 : Ref sig .tc := ⟨.hbm, 950, rfl⟩
abbrev main_v735 : Ref sig .tc := ⟨.hbm, 951, rfl⟩
abbrev main_v736 : Ref sig .tc := ⟨.hbm, 952, rfl⟩
abbrev main_v737 : Ref sig .tc := ⟨.hbm, 953, rfl⟩
abbrev main_c_183 : Ref sig .tc := ⟨.hbm, 954, rfl⟩
abbrev main_v738 : Ref sig .tc := ⟨.hbm, 955, rfl⟩
abbrev main_v739 : Ref sig .tc := ⟨.hbm, 956, rfl⟩
abbrev main_c_184 : Ref sig .tc := ⟨.hbm, 957, rfl⟩
abbrev main_v740 : Ref sig .tc := ⟨.hbm, 958, rfl⟩
abbrev main_v741 : Ref sig .tc := ⟨.hbm, 959, rfl⟩
abbrev main_v742 : Ref sig .tc := ⟨.hbm, 960, rfl⟩
abbrev main_v743 : Ref sig .tc := ⟨.hbm, 961, rfl⟩
abbrev main_v744 : Ref sig .tc := ⟨.hbm, 962, rfl⟩
abbrev main_v745 : Ref sig .tc := ⟨.hbm, 963, rfl⟩
abbrev main_v746 : Ref sig .tc := ⟨.hbm, 964, rfl⟩
abbrev main_cst_185 : Ref sig .tc := ⟨.hbm, 965, rfl⟩
abbrev main_v747 : Ref sig .tc := ⟨.hbm, 966, rfl⟩
abbrev main_c_186 : Ref sig .tc := ⟨.hbm, 967, rfl⟩
abbrev main_v748 : Ref sig .tc := ⟨.hbm, 968, rfl⟩
abbrev main_v749 : Ref sig .tc := ⟨.hbm, 969, rfl⟩
abbrev main_c_187 : Ref sig .tc := ⟨.hbm, 970, rfl⟩
abbrev main_v750 : Ref sig .tc := ⟨.hbm, 971, rfl⟩
abbrev main_v751 : Ref sig .tc := ⟨.hbm, 972, rfl⟩
abbrev main_v752 : Ref sig .tc := ⟨.hbm, 973, rfl⟩
abbrev main_v753 : Ref sig .tc := ⟨.hbm, 974, rfl⟩
abbrev main_v754 : Ref sig .tc := ⟨.hbm, 975, rfl⟩
abbrev main_v755 : Ref sig .tc := ⟨.hbm, 976, rfl⟩
abbrev main_v756 : Ref sig .tc := ⟨.hbm, 977, rfl⟩
abbrev main_v757 : Ref sig .tc := ⟨.hbm, 978, rfl⟩
abbrev main_c_188 : Ref sig .tc := ⟨.hbm, 979, rfl⟩
abbrev main_v758 : Ref sig .tc := ⟨.hbm, 980, rfl⟩
abbrev main_v759 : Ref sig .tc := ⟨.hbm, 981, rfl⟩
abbrev main_c_189 : Ref sig .tc := ⟨.hbm, 982, rfl⟩
abbrev main_v760 : Ref sig .tc := ⟨.hbm, 983, rfl⟩
abbrev main_v761 : Ref sig .tc := ⟨.hbm, 984, rfl⟩
abbrev main_v762 : Ref sig .tc := ⟨.hbm, 985, rfl⟩
abbrev main_v763 : Ref sig .tc := ⟨.hbm, 986, rfl⟩
abbrev main_v764 : Ref sig .tc := ⟨.hbm, 987, rfl⟩
abbrev main_v765 : Ref sig .tc := ⟨.hbm, 988, rfl⟩
abbrev main_v766 : Ref sig .tc := ⟨.hbm, 989, rfl⟩
abbrev main_v767 : Ref sig .tc := ⟨.hbm, 990, rfl⟩
abbrev main_v768 : Ref sig .tc := ⟨.hbm, 991, rfl⟩
abbrev main_v769 : Ref sig .tc := ⟨.hbm, 992, rfl⟩
abbrev main_v770 : Ref sig .tc := ⟨.hbm, 993, rfl⟩
abbrev main_v771 : Ref sig .tc := ⟨.hbm, 994, rfl⟩
abbrev main_v772 : Ref sig .tc := ⟨.hbm, 995, rfl⟩

abbrev nD : Nat := 1
abbrev τ : Topo := Topo.v7x

variable {F : FTy → Type} [FloatOps F]

class Facts₀ : Prop where
  slices_S4x512x512_S1x512x512_0_0_0 : S4x512x512.Slices ![0, 0, 0] S1x512x512
  shapeCasts_S1x512x512_S512x512 : S1x512x512.ShapeCasts S512x512
  bcast_S512_S512x512_0 : S512.BroadcastsInDim S512x512 (![0] : Fin 1 → Fin S512x512.rank)
  shapeCasts_S512x512_S262144 : S512x512.ShapeCasts S262144
  shapeCasts_S512_S1x512 : S512.ShapeCasts S1x512
  bcast_S1x512_S512x512_0_1 : S1x512.BroadcastsInDim S512x512 (![0, 1] : Fin 2 → Fin S512x512.rank)
  bcast_S262144_S1x262144_1 : S262144.BroadcastsInDim S1x262144 (![1] : Fin 1 → Fin S1x262144.rank)
  concatenates_S1x262144_S1x262144_S2x262144_d0 : Shape.Concatenates [S1x262144, S1x262144] S2x262144 0
  slices_S2x262144_S1x262144_0_0 : S2x262144.Slices ![0, 0] S1x262144
  shapeCasts_S1x262144_S262144 : S1x262144.ShapeCasts S262144
  concatenates_S262144_S512_S262656_d0 : Shape.Concatenates [S262144, S512] S262656 0
  slices_S2x262144_S1x262144_1_0 : S2x262144.Slices ![1, 0] S1x262144
  bcast_S_S512 : S_.BroadcastsInDim S512 (![] : Fin 0 → Fin S512.rank)
  bcast_S_S262656 : S_.BroadcastsInDim S262656 (![] : Fin 0 → Fin S262656.rank)
  bcast_S262656_S262656x1_0 : S262656.BroadcastsInDim S262656x1 (![0] : Fin 1 → Fin S262656x1.rank)
  bcast_S_S512x128 : S_.BroadcastsInDim S512x128 (![] : Fin 0 → Fin S512x128.rank)
  bcast_S262656x1_S262656x128_0_1 : S262656x1.BroadcastsInDim S262656x128 (![0, 1] : Fin 2 → Fin S262656x128.rank)
  bcast_S128_S1x128_1 : S128.BroadcastsInDim S1x128 (![1] : Fin 1 → Fin S1x128.rank)
  bcast_S1x128_S512x128_0_1 : S1x128.BroadcastsInDim S512x128 (![0, 1] : Fin 2 → Fin S512x128.rank)
  bcast_S_S512x256 : S_.BroadcastsInDim S512x256 (![] : Fin 0 → Fin S512x256.rank)
  bcast_S262656x1_S262656x256_0_1 : S262656x1.BroadcastsInDim S262656x256 (![0, 1] : Fin 2 → Fin S262656x256.rank)
  bcast_S256_S1x256_1 : S256.BroadcastsInDim S1x256 (![1] : Fin 1 → Fin S1x256.rank)
  bcast_S1x256_S512x256_0_1 : S1x256.BroadcastsInDim S512x256 (![0, 1] : Fin 2 → Fin S512x256.rank)
  slices_S4x512x512_S1x512x512_1_0_0 : S4x512x512.Slices ![1, 0, 0] S1x512x512
  slices_S4x512x512_S1x512x512_2_0_0 : S4x512x512.Slices ![2, 0, 0] S1x512x512
  slices_S4x512x512_S1x512x512_3_0_0 : S4x512x512.Slices ![3, 0, 0] S1x512x512
  bcast_S512x128_S1x512x128_1_2 : S512x128.BroadcastsInDim S1x512x128 (![1, 2] : Fin 2 → Fin S1x512x128.rank)
  concatenates_S1x512x128_S1x512x128_S1x512x128_S1x512x128_S4x512x128_d0 : Shape.Concatenates [S1x512x128, S1x512x128, S1x512x128, S1x512x128] S4x512x128 0
  scatter_S512_S262656x1_S262656_n_0_0_1_wf : ScatterDims.WF S512 S262656x1 S262656 [] [0] [0] 1
  gather_S512_S262656x1_S262656_n_0_n_n_0_1_1_wf : GatherDims.WF S512 S262656x1 S262656 [] [0] [] [0] [] 1 ![1]
  dot_S512x512_S512x128_S512x128_1_0_0_1_n_n_wf : DotDims.WF S512x512 S512x128 S512x128 [1] [0] [0] [1] [] []
  gather_S512x128_S262656x1_S262656x128_1_0_n_n_0_1_1128_wf : GatherDims.WF S512x128 S262656x1 S262656x128 [1] [0] [] [0] [] 1 ![1, 128]
  scatter_S512x128_S262656x1_S262656x128_1_0_0_1_wf : ScatterDims.WF S512x128 S262656x1 S262656x128 [1] [0] [0] 1
  dot_S512x128_S128x256_S512x256_1_0_0_1_n_n_wf : DotDims.WF S512x128 S128x256 S512x256 [1] [0] [0] [1] [] []
  gather_S512x256_S262656x1_S262656x256_1_0_n_n_0_1_1256_wf : GatherDims.WF S512x256 S262656x1 S262656x256 [1] [0] [] [0] [] 1 ![1, 256]
  scatter_S512x256_S262656x1_S262656x256_1_0_0_1_wf : ScatterDims.WF S512x256 S262656x1 S262656x256 [1] [0] [0] 1
  dot_S512x256_S256x128_S512x128_1_0_0_1_n_n_wf : DotDims.WF S512x256 S256x128 S512x128 [1] [0] [0] [1] [] []

variable [Facts₀]

def scatter_S512_S262656x1_S262656_n_0_0_1 : ScatterDims S512 S262656x1 S262656 where
  updateWindowDims := []
  insertedWindowDims := [0]
  scatterDimsToOperandDims := [0]
  indexVectorDim := 1
  wf := scatter_S512_S262656x1_S262656_n_0_0_1_wf
def gather_S512_S262656x1_S262656_n_0_n_n_0_1_1 : GatherDims S512 S262656x1 S262656 where
  offsetDims := []
  collapsedSliceDims := [0]
  operandBatchingDims := []
  startIndicesBatchingDims := []
  startIndexMap := [0]
  indexVectorDim := 1
  sliceSizes := ![1]
  wf := gather_S512_S262656x1_S262656_n_0_n_n_0_1_1_wf
def dot_S512x512_S512x128_S512x128_1_0_0_1_n_n : DotDims S512x512 S512x128 S512x128 where
  lhsContracting := [1]
  rhsContracting := [0]
  lhsNonContracting := [0]
  rhsNonContracting := [1]
  lhsBatch := []
  rhsBatch := []
  wf := dot_S512x512_S512x128_S512x128_1_0_0_1_n_n_wf
def gather_S512x128_S262656x1_S262656x128_1_0_n_n_0_1_1128 : GatherDims S512x128 S262656x1 S262656x128 where
  offsetDims := [1]
  collapsedSliceDims := [0]
  operandBatchingDims := []
  startIndicesBatchingDims := []
  startIndexMap := [0]
  indexVectorDim := 1
  sliceSizes := ![1, 128]
  wf := gather_S512x128_S262656x1_S262656x128_1_0_n_n_0_1_1128_wf
def scatter_S512x128_S262656x1_S262656x128_1_0_0_1 : ScatterDims S512x128 S262656x1 S262656x128 where
  updateWindowDims := [1]
  insertedWindowDims := [0]
  scatterDimsToOperandDims := [0]
  indexVectorDim := 1
  wf := scatter_S512x128_S262656x1_S262656x128_1_0_0_1_wf
def dot_S512x128_S128x256_S512x256_1_0_0_1_n_n : DotDims S512x128 S128x256 S512x256 where
  lhsContracting := [1]
  rhsContracting := [0]
  lhsNonContracting := [0]
  rhsNonContracting := [1]
  lhsBatch := []
  rhsBatch := []
  wf := dot_S512x128_S128x256_S512x256_1_0_0_1_n_n_wf
def gather_S512x256_S262656x1_S262656x256_1_0_n_n_0_1_1256 : GatherDims S512x256 S262656x1 S262656x256 where
  offsetDims := [1]
  collapsedSliceDims := [0]
  operandBatchingDims := []
  startIndicesBatchingDims := []
  startIndexMap := [0]
  indexVectorDim := 1
  sliceSizes := ![1, 256]
  wf := gather_S512x256_S262656x1_S262656x256_1_0_n_n_0_1_1256_wf
def scatter_S512x256_S262656x1_S262656x256_1_0_0_1 : ScatterDims S512x256 S262656x1 S262656x256 where
  updateWindowDims := [1]
  insertedWindowDims := [0]
  scatterDimsToOperandDims := [0]
  indexVectorDim := 1
  wf := scatter_S512x256_S262656x1_S262656x256_1_0_0_1_wf
def dot_S512x256_S256x128_S512x128_1_0_0_1_n_n : DotDims S512x256 S256x128 S512x128 where
  lhsContracting := [1]
  rhsContracting := [0]
  lhsNonContracting := [0]
  rhsNonContracting := [1]
  lhsBatch := []
  rhsBatch := []
  wf := dot_S512x256_S256x128_S512x128_1_0_0_1_n_n_wf

class Facts : Prop extends Facts₀ where

variable [Facts]
-- ==== Proof.Finite.lean ====
import proofs.«148651_g6150393168184_cont_sun_c4_511_5_alg».proof.Pre_finite_inputs
import proofs.«148651_g6150393168184_cont_sun_c4_511_5_alg».proof.Proof.Gen.Pre_finite_inputs
import Idealize.ShloMosaic.Lib.ValueIdx
import Idealize.ShloMosaic.Lib.ReduceAll
import Idealize.ShloMosaic.PureOps.Ideal.Laws

/-! Under the precondition every argument array holds real numbers. -/

noncomputable section

namespace Cert.Finite

open Cert.Pre_finite_inputs Idealize.ShloMosaic Idealize.ShloMosaic.ValueIdx

def IsReal {S : Shape} (v : S.Idx → EReal) : Prop := ∃ r : S.Idx → ℝ, v = fun i => ((r i : ℝ) : EReal)

private instance : Subsingleton S_.Idx := ⟨fun a b => funext fun d => d.elim0⟩

private theorem inf_word : Ideal.ofBits .f32 0x7F800000#32 = (⊤ : EReal) := by
  simp [Ideal.ofBits, Ideal.ieee]

private theorem real_of_abs_lt_top (x : EReal) (h : max x (-x) < (⊤ : EReal)) : ∃ r : ℝ, x = (r : EReal) := by
  induction x using EReal.rec with
  | bot => simp at h
  | coe r => exact ⟨r, rfl⟩
  | top => simp at h

private theorem real_of_cmp (x : Ideal .f32)
    (h : FloatOps.cmpf .olt (FloatOps.hostAbsf x) (FloatOps.ofBits (F := Ideal) .f32 0x7F800000#32) = 1#1) :
    ∃ r : ℝ, x = (r : EReal) := by
  refine real_of_abs_lt_top x ?_
  have h' : BitVec.ofBool (decide (max x (-x) < Ideal.ofBits .f32 0x7F800000#32)) = 1#1 := h
  rw [inf_word] at h'
  by_contra hn
  simp [hn] at h'

private theorem isReal_of_all {S : Shape} (v : FVec Ideal S .f32)
    (hb : S_.BroadcastsInDim S (![] : Fin 0 → Fin S.rank))
    (hall : ∀ i : S.Idx,
      cmpf .olt (Host.absf v) (broadcastInDim S ![] hb (constant S_ .f32 0x7F800000#32)) i = 1#1) :
    IsReal v := by
  have hr : ∀ i : S.Idx, ∃ r : ℝ, v i = (r : EReal) := fun i => real_of_cmp (v i) (hall i)
  choose r hr using hr
  exact ⟨r, funext hr⟩

theorem reals_of_pre [Cert.Pre_finite_inputs.Facts]
    (a0 : FVec Ideal S4x512x512 .f32) (a1 : FVec Ideal S512x128 .f32) (a2 : FVec Ideal S128 .f32) (a3 : FVec Ideal S128x256 .f32)
    (a4 : FVec Ideal S256 .f32) (a5 : FVec Ideal S256x128 .f32) (a6 : FVec Ideal S128 .f32)
    (h : Cert.Pre_finite_inputs.fn (F := Ideal) a0 a1 a2 a3 a4 a5 a6 = fun _ => 1#1) :
    IsReal a0 ∧ IsReal a1 ∧ IsReal a2 ∧ IsReal a3 ∧ IsReal a4 ∧ IsReal a5 ∧ IsReal a6 := by
  have h0 := congrFun h ValueIdx.ix0
  dsimp only [Cert.Pre_finite_inputs.fn, Cert.Pre_finite_inputs.fn_part1] at h0

  obtain ⟨h0, h6⟩ := IntOp.andi_eq_one.1 h0
  obtain ⟨h0, h5⟩ := IntOp.andi_eq_one.1 h0
  obtain ⟨h0, h4⟩ := IntOp.andi_eq_one.1 h0
  obtain ⟨h0, h3⟩ := IntOp.andi_eq_one.1 h0
  obtain ⟨h0, h2⟩ := IntOp.andi_eq_one.1 h0
  obtain ⟨h0, h1⟩ := IntOp.andi_eq_one.1 h0
  exact ⟨isReal_of_all a0 _ (Host.reduce_andi_all _ _ _ _ _ h0),
    isReal_of_all a1 _ (Host.reduce_andi_all _ _ _ _ _ h1),
    isReal_of_all a2 _ (Host.reduce_andi_all _ _ _ _ _ h2),
    isReal_of_all a3 _ (Host.reduce_andi_all _ _ _ _ _ h3),
    isReal_of_all a4 _ (Host.reduce_andi_all _ _ _ _ _ h4),
    isReal_of_all a5 _ (Host.reduce_andi_all _ _ _ _ _ h5),
    isReal_of_all a6 _ (Host.reduce_andi_all _ _ _ _ _ h6)⟩

end Cert.Finite

end
-- ==== Proof.Spec.lean ====
import Mathlib.Analysis.SpecialFunctions.Pow.Real
import Mathlib.Analysis.SpecialFunctions.Sqrt
import Mathlib.Algebra.BigOperators.Ring.Finset

/-! The mathematics both programs compute, over the reals. -/

noncomputable section

namespace Cert.Gcn

open Finset

variable {n K L M : Nat}

def deg (A : Fin n → Fin n → ℝ) (j : Fin n) : ℝ := (∑ i, A i j) + 1

def dinv (A : Fin n → Fin n → ℝ) (j : Fin n) : ℝ := if 0 < deg A j then (Real.sqrt (deg A j))⁻¹ else 0

def mm (x : Fin n → Fin K → ℝ) (W : Fin K → Fin L → ℝ) : Fin n → Fin L → ℝ := fun r c => ∑ k, x r k * W k c

def prop (A : Fin n → Fin n → ℝ) (x : Fin n → Fin K → ℝ) : Fin n → Fin K → ℝ :=
  fun j c => ((∑ i, A i j * (x i c * dinv A i)) + x j c * dinv A j) * dinv A j

def propEdges (A : Fin n → Fin n → ℝ) (x : Fin n → Fin K → ℝ) : Fin n → Fin K → ℝ :=
  fun j c => (∑ i, x i c * (dinv A i * A i j * dinv A j)) + x j c * (dinv A j * 1 * dinv A j)

def layer (A : Fin n → Fin n → ℝ) (x : Fin n → Fin K → ℝ) (W : Fin K → Fin L → ℝ) (b : Fin L → ℝ) : Fin n → Fin L → ℝ :=
  fun j c => propEdges A (mm x W) j c + b c

def refOut (A : Fin n → Fin n → ℝ) (W1 : Fin n → Fin K → ℝ) (b1 : Fin K → ℝ) (W2 : Fin K → Fin L → ℝ) (b2 : Fin L → ℝ)
    (W3 : Fin L → Fin M → ℝ) (b3 : Fin M → ℝ) : Fin n → Fin M → ℝ :=
  layer A (layer A (layer A A W1 b1) W2 b2) W3 b3

def kerOut (A : Fin n → Fin n → ℝ) (W1 : Fin n → Fin K → ℝ) (b1 : Fin K → ℝ) (W2 : Fin K → Fin L → ℝ) (b2 : Fin L → ℝ)
    (W3 : Fin L → Fin M → ℝ) (b3 : Fin M → ℝ) : Fin n → Fin M → ℝ :=
  fun j c => prop A (fun r c' => mm (prop A (fun r' c'' => prop A (mm A W1) r' c'' + b1 c'')) (mm W2 W3) r c'
      + ∑ k, b2 k * W3 k c') j c + b3 c

end Cert.Gcn

end
-- ==== Proof.RealAlg.lean ====
import proofs.«148651_g6150393168184_cont_sun_c4_511_5_alg».proof.Proof.Spec
import Mathlib.Data.EReal.Basic
import Mathlib.Data.EReal.Operations

/-! Over the reals propagation along the edges is linear, so the kernel's reassociated chain equals the reference's three layers. -/

noncomputable section

namespace Cert.Gcn

open Finset

variable {n K L M : Nat}

theorem prop_eq_propEdges (A : Fin n → Fin n → ℝ) (x : Fin n → Fin K → ℝ) : prop A x = propEdges A x := by
  funext j c
  simp only [prop, propEdges, add_mul, Finset.sum_mul]
  congr 1
  · exact Finset.sum_congr rfl (fun i _ => by ring)
  · ring

theorem prop_mm (A : Fin n → Fin n → ℝ) (x : Fin n → Fin K → ℝ) (W : Fin K → Fin L → ℝ) :
    prop A (mm x W) = mm (prop A x) W := by
  funext j c
  simp only [prop, mm, add_mul, Finset.sum_mul, Finset.mul_sum, Finset.sum_add_distrib]
  congr 1
  · rw [Finset.sum_comm]
    exact Finset.sum_congr rfl (fun k _ => Finset.sum_congr rfl (fun i _ => by ring))
  · exact Finset.sum_congr rfl (fun k _ => by ring)

private theorem mm_assoc (x : Fin n → Fin K → ℝ) (W : Fin K → Fin L → ℝ) (V : Fin L → Fin M → ℝ) :
    mm (mm x W) V = mm x (mm W V) := by
  funext r c
  simp only [mm, Finset.sum_mul, Finset.mul_sum]
  rw [Finset.sum_comm]
  exact Finset.sum_congr rfl (fun k _ => Finset.sum_congr rfl (fun l _ => by ring))

private theorem mm_add_row (x : Fin n → Fin K → ℝ) (b : Fin K → ℝ) (W : Fin K → Fin L → ℝ) :
    mm (fun r c => x r c + b c) W = fun r c => mm x W r c + ∑ k, b k * W k c := by
  funext r c
  simp only [mm, add_mul, Finset.sum_add_distrib]

private theorem chain_mid (A : Fin n → Fin n → ℝ) (X : Fin n → Fin K → ℝ) (W2 : Fin K → Fin L → ℝ) (b2 : Fin L → ℝ)
    (W3 : Fin L → Fin M → ℝ) :
    mm (fun j c => prop A (mm X W2) j c + b2 c) W3
      = fun r c' => mm (prop A X) (mm W2 W3) r c' + ∑ k, b2 k * W3 k c' := by
  rw [mm_add_row, prop_mm, mm_assoc]

private theorem layer_eq (A : Fin n → Fin n → ℝ) (x : Fin n → Fin K → ℝ) (W : Fin K → Fin L → ℝ) (b : Fin L → ℝ) :
    layer A x W b = fun j c => prop A (mm x W) j c + b c := by
  funext j c
  simp only [layer, ← prop_eq_propEdges]

theorem kerOut_eq_refOut (A : Fin n → Fin n → ℝ) (W1 : Fin n → Fin K → ℝ) (b1 : Fin K → ℝ) (W2 : Fin K → Fin L → ℝ)
    (b2 : Fin L → ℝ) (W3 : Fin L → Fin M → ℝ) (b3 : Fin M → ℝ) :
    kerOut A W1 b1 W2 b2 W3 b3 = refOut A W1 b1 W2 b2 W3 b3 := by
  funext j c
  simp only [kerOut, refOut, layer_eq]
  rw [chain_mid]

theorem rpow_neg_half (d : ℝ) (hd : 0 < d) : Real.rpow d (-(1 / 2 : ℝ)) = (Real.sqrt d)⁻¹ := by
  show d ^ (-(1 / 2 : ℝ)) = (Real.sqrt d)⁻¹
  rw [Real.rpow_neg (le_of_lt hd), Real.sqrt_eq_rpow]

theorem coe_sum {ι : Type*} (s : Finset ι) (f : ι → ℝ) : (∑ i ∈ s, ((f i : ℝ) : EReal)) = ((∑ i ∈ s, f i : ℝ) : EReal) := by
  classical
  refine Finset.induction_on s ?_ ?_
  · simp
  · intro a t ha ih
    rw [Finset.sum_insert ha, Finset.sum_insert ha, ih, EReal.coe_add]

theorem coe_sum_mul {ι : Type*} (s : Finset ι) (f g : ι → ℝ) :
    (∑ i ∈ s, ((f i : ℝ) : EReal) * ((g i : ℝ) : EReal)) = ((∑ i ∈ s, f i * g i : ℝ) : EReal) := by
  simp only [← EReal.coe_mul]
  exact coe_sum s (fun i => f i * g i)

end Cert.Gcn

end
-- ==== Proof.LibPlainDot.lean ====
import Idealize.ShloMosaic.Lib.ValueIdx
import Idealize.ShloMosaic.PureOps.Ideal.Laws
import Idealize.ShloMosaic.Lib.ValueLayout

/-! A plain two-dimensional contraction (rows by inner, inner by columns) read at an index as a sum over the inner axis. -/

noncomputable section

namespace Cert.PlainDot

open Idealize.ShloMosaic Idealize.ShloMosaic.ValueIdx

variable {M K N : Nat}

theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

theorem lhs_inner (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

theorem rhs_inner (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

theorem sum_contr (A : (⟨2, ![M, K]⟩ : Shape).Idx → EReal) (B : (⟨2, ![K, N]⟩ : Shape).Idx → EReal)
    (j : (⟨2, ![M, N]⟩ : Shape).Idx) :
    (∑ q : (DotDims.plain M K N).contr.Idx, A ((DotDims.plain M K N).lhsIdx j q) * B ((DotDims.plain M K N).rhsIdx j q))
      = ∑ k : Fin K, A (ix2 (j 0) k) * B (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhs_row _ _
      | ⟨1, _⟩ => exact (lhs_inner _ _).trans hk)
  have er : (DotDims.plain M K N).rhsIdx j ((contrEquiv1 (DotDims.plain M K N) K rfl rfl).symm k) = ix2 k (j 1) :=
    funext fun a => Fin.ext (by
      match a with
      | ⟨0, _⟩ => exact (rhs_inner _ _).trans hk
      | ⟨1, _⟩ => exact rhs_col _ _)
  exact congrArg₂ (· * ·) (congrArg A el) (congrArg B er)

theorem matmul_zero_apply {φ₁ φ₂ : FTy} (prec : Option ContractPrecision)
    (A : FVec Ideal (⟨2, ![M, K]⟩ : Shape) φ₁) (B : FVec Ideal (⟨2, ![K, N]⟩ : Shape) φ₂) (j : (⟨2, ![M, N]⟩ : Shape).Idx) :
    FloatOps.matmul (DotDims.plain M K N) prec A B (constant (⟨2, ![M, N]⟩ : Shape) .f32 0x00000000#32) j
      = ∑ k : Fin K, A (ix2 (j 0) k) * B (ix2 k (j 1)) :=
  (Ideal.matmul_constant_zero_apply (DotDims.plain M K N) prec A B j).trans (sum_contr A B j)

theorem dotGeneral_apply {φ₁ φ₂ : FTy} (prec : Option ContractPrecision) (sched : HostSchedule)
    (A : FVec Ideal (⟨2, ![M, K]⟩ : Shape) φ₁) (B : FVec Ideal (⟨2, ![K, N]⟩ : Shape) φ₂) (j : (⟨2, ![M, N]⟩ : Shape).Idx) :
    FloatOps.dotGeneral (DotDims.plain M K N) prec sched A B j
      = ∑ k : Fin K, A (ix2 (j 0) k) * B (ix2 k (j 1)) :=
  (Ideal.dotGeneral_apply (DotDims.plain M K N) prec sched A B j).trans (sum_contr A B j)

def affine (A : (⟨2, ![M, K]⟩ : Shape).Idx → EReal) (B : (⟨2, ![K, N]⟩ : Shape).Idx → EReal)
    (b : (⟨2, ![1, N]⟩ : Shape).Idx → EReal) : (⟨2, ![M, N]⟩ : Shape).Idx → EReal :=
  fun j => (∑ k : Fin K, A (ix2 (j 0) k) * B (ix2 k (j 1))) + b (ix2 (0 : Fin 1) (j 1))

theorem matmul_add_row_eq {φ₁ φ₂ : FTy} (prec : Option ContractPrecision)
    (A : FVec Ideal (⟨2, ![M, K]⟩ : Shape) φ₁) (B : FVec Ideal (⟨2, ![K, N]⟩ : Shape) φ₂)
    (b : FVec Ideal (⟨2, ![1, N]⟩ : Shape) .f32) (h : (⟨2, ![1, N]⟩ : Shape).Broadcasts ⟨2, ![M, N]⟩) :
    addf (matmul (DotDims.plain M K N) prec A B (constant (⟨2, ![M, N]⟩ : Shape) .f32 0x00000000#32))
        (broadcastTo (⟨2, ![M, N]⟩ : Shape) b h) = affine A B b := by
  funext j
  obtain ⟨p, q, rfl⟩ : ∃ (p : Fin M) (q : Fin N), j = ix2 p q := ⟨j 0, j 1, eq_ix2 j⟩
  show FloatOps.matmul (DotDims.plain M K N) prec A B (constant (⟨2, ![M, N]⟩ : Shape) .f32 0x00000000#32) (ix2 p q)
      + broadcastTo (⟨2, ![M, N]⟩ : Shape) b h (ix2 p q) = _
  rw [matmul_zero_apply, broadcastTo_1b_ab_apply]
  rfl

end Cert.PlainDot

end
-- ==== Proof.KernelPay.lean ====
import proofs.«148651_g6150393168184_cont_sun_c4_511_5_alg».proof.Proof.Gen.KernelIdeal.Skeleton
import proofs.«148651_g6150393168184_cont_sun_c4_511_5_alg».proof.Proof.Spec
import proofs.«148651_g6150393168184_cont_sun_c4_511_5_alg».proof.Proof.RealAlg
import proofs.«148651_g6150393168184_cont_sun_c4_511_5_alg».proof.Proof.LibPlainDot
import Idealize.ShloMosaic.Lib.ValueIdx
import Idealize.ShloMosaic.Lib.ValueLayout
import Idealize.ShloMosaic.Lib.Pipeline.Value
import Idealize.ShloMosaic.PureOps.Ideal.Laws

/-! The kernel's stored block, entry by entry, over real inputs. -/

noncomputable section

namespace Cert.KernelIdeal.Pay

open Cert.KernelIdeal Cert.KernelIdeal.Gen Idealize.ShloMosaic Idealize.ShloMosaic.ValueIdx

private theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

private theorem tdot_lhs_0 (j : S512x128.Idx) (q : dot_S512x512_S512x128_S512x128_0_0_1_1_n_n.contr.Idx) :
    (dot_S512x512_S512x128_S512x128_0_0_1_1_n_n.lhsIdx j q 0).val = (q ⟨0, Nat.one_pos⟩).val :=
  dot_S512x512_S512x128_S512x128_0_0_1_1_n_n.lhsIdx_val_of_single rfl j q

private theorem tdot_lhs_1 (j : S512x128.Idx) (q : dot_S512x512_S512x128_S512x128_0_0_1_1_n_n.contr.Idx) :
    (dot_S512x512_S512x128_S512x128_0_0_1_1_n_n.lhsIdx j q 1).val = (j 0).val := by
  unfold DotDims.lhsIdx
  rw [dif_neg (show ¬(1 : Fin S512x512.rank) ∈ dot_S512x512_S512x128_S512x128_0_0_1_1_n_n.lhsBatch from List.not_mem_nil),
    dif_pos (show (1 : Fin S512x512.rank) ∈ dot_S512x512_S512x128_S512x128_0_0_1_1_n_n.lhsNonContracting from List.mem_singleton.mpr rfl)]
  rfl

private theorem tdot_rhs_0 (j : S512x128.Idx) (q : dot_S512x512_S512x128_S512x128_0_0_1_1_n_n.contr.Idx) :
    (dot_S512x512_S512x128_S512x128_0_0_1_1_n_n.rhsIdx j q 0).val = (q ⟨0, Nat.one_pos⟩).val :=
  dot_S512x512_S512x128_S512x128_0_0_1_1_n_n.rhsIdx_val_of_single rfl j q

private theorem tdot_rhs_1 (j : S512x128.Idx) (q : dot_S512x512_S512x128_S512x128_0_0_1_1_n_n.contr.Idx) :
    (dot_S512x512_S512x128_S512x128_0_0_1_1_n_n.rhsIdx j q 1).val = (j 1).val := by
  unfold DotDims.rhsIdx
  rw [dif_neg (show ¬(1 : Fin S512x128.rank) ∈ dot_S512x512_S512x128_S512x128_0_0_1_1_n_n.rhsBatch from List.not_mem_nil),
    dif_pos (show (1 : Fin S512x128.rank) ∈ dot_S512x512_S512x128_S512x128_0_0_1_1_n_n.rhsNonContracting from List.mem_singleton.mpr rfl)]
  rfl

private theorem tdot_zero_apply (f : FVec Ideal S512x512 .f32) (y : FVec Ideal S512x128 .f32) (j : Fin 512) (c : Fin 128) :
    matmul dot_S512x512_S512x128_S512x128_0_0_1_1_n_n none f y (constant (F := Ideal) S512x128 .f32 0x00000000#32) (ix2 j c)
      = ∑ i : Fin 512, f (ix2 i j) * y (ix2 i c) := by
  refine (Ideal.matmul_constant_zero_apply dot_S512x512_S512x128_S512x128_0_0_1_1_n_n none f y (ix2 j c)).trans ?_
  rw [← Equiv.sum_comp (contrEquiv1 dot_S512x512_S512x128_S512x128_0_0_1_1_n_n 512 rfl rfl).symm]
  refine Finset.sum_congr rfl fun k _ => ?_
  have hk := contrEquiv1_symm_val dot_S512x512_S512x128_S512x128_0_0_1_1_n_n 512 rfl rfl k
  have el : dot_S512x512_S512x128_S512x128_0_0_1_1_n_n.lhsIdx (ix2 j c)
      ((contrEquiv1 dot_S512x512_S512x128_S512x128_0_0_1_1_n_n 512 rfl rfl).symm k) = ix2 k j :=
    funext fun a => Fin.ext (by
      match a with
      | ⟨0, _⟩ => exact (tdot_lhs_0 _ _).trans hk
      | ⟨1, _⟩ => exact tdot_lhs_1 _ _)
  have er : dot_S512x512_S512x128_S512x128_0_0_1_1_n_n.rhsIdx (ix2 j c)
      ((contrEquiv1 dot_S512x512_S512x128_S512x128_0_0_1_1_n_n 512 rfl rfl).symm k) = ix2 k c :=
    funext fun a => Fin.ext (by
      match a with
      | ⟨0, _⟩ => exact (tdot_rhs_0 _ _).trans hk
      | ⟨1, _⟩ => exact tdot_rhs_1 _ _)
  exact congrArg₂ (· * ·) (congrArg f el) (congrArg y er)

private theorem dot_512_512_128_apply (f : FVec Ideal S512x512 .f32) (y : FVec Ideal S512x128 .f32) (p : Fin 512) (c : Fin 128) :
    matmul dot_S512x512_S512x128_S512x128_1_0_0_1_n_n none f y (constant (F := Ideal) S512x128 .f32 0x00000000#32) (ix2 p c)
      = ∑ k : Fin 512, f (ix2 p k) * y (ix2 k c) :=
  Cert.PlainDot.matmul_zero_apply (M := 512) (K := 512) (N := 128) none f y (ix2 p c)

private theorem dot_128_256_128_apply (f : FVec Ideal S128x256 .f32) (y : FVec Ideal S256x128 .f32) (p : Fin 128) (c : Fin 128) :
    matmul dot_S128x256_S256x128_S128x128_1_0_0_1_n_n none f y (constant (F := Ideal) S128x128 .f32 0x00000000#32) (ix2 p c)
      = ∑ k : Fin 256, f (ix2 p k) * y (ix2 k c) :=
  Cert.PlainDot.matmul_zero_apply (M := 128) (K := 256) (N := 128) none f y (ix2 p c)

private theorem dot_1_256_128_apply (f : FVec Ideal S1x256 .f32) (y : FVec Ideal S256x128 .f32) (p : Fin 1) (c : Fin 128) :
    matmul dot_S1x256_S256x128_S1x128_1_0_0_1_n_n none f y (constant (F := Ideal) S1x128 .f32 0x00000000#32) (ix2 p c)
      = ∑ k : Fin 256, f (ix2 p k) * y (ix2 k c) :=
  Cert.PlainDot.matmul_zero_apply (M := 1) (K := 256) (N := 128) none f y (ix2 p c)

private theorem dot_512_128_128_apply (f : FVec Ideal S512x128 .f32) (y : FVec Ideal S128x128 .f32) (p : Fin 512) (c : Fin 128) :
    matmul dot_S512x128_S128x128_S512x128_1_0_0_1_n_n none f y (constant (F := Ideal) S512x128 .f32 0x00000000#32) (ix2 p c)
      = ∑ k : Fin 128, f (ix2 p k) * y (ix2 k c) :=
  Cert.PlainDot.matmul_zero_apply (M := 512) (K := 128) (N := 128) none f y (ix2 p c)

private theorem pay2_apply (x0 : Vec Ideal S1x512x512 .f32) (i j : Fin 512) :
    k0_pay2 x0 (ix2 i j) = x0 (ix3 (0 : Fin 1) i j) :=
  shapeCast_1ab_ab_apply x0 shapeCasts_S1x512x512_S512x512 i j

private theorem colsum_apply (f : FVec Ideal S512x512 .f32) (h : S512x512.Reduces [0] S512) (hφ : FKind.Formats .f32)
    (hacc : (0x00000000#32 : BitVec 32) = FKind.add.neutral .f32 hφ) (j : Fin 512) :
    multiReduction (F := Ideal) .add [0] S512 f 0x00000000#32 h hφ hacc (ix1 j) = ∑ i : Fin 512, f (ix2 i j) := by
  refine (Ideal.multiReduction_add_single f 0x00000000#32 h hφ hacc (ix1 j)).trans ?_
  show ∑ i : Fin 512, f (h.lift (ix1 j) i) = _
  refine Finset.sum_congr rfl fun i _ => congrArg f ?_
  funext a
  refine Fin.ext ?_
  match a with
  | ⟨0, _⟩ => rfl
  | ⟨1, _⟩ => rfl

private theorem ofBits_one_f32 : Ideal.ofBits .f32 0x3F800000#32 = ((1 : ℝ) : EReal) :=
  (IdealRules.sign_bit.ideal_onePat .f32).trans EReal.coe_one.symm

private theorem select_rsqrt (d : Ideal .f32) (r : ℝ) (hd : d = ((r : ℝ) : EReal)) :
    Scalar.select (FloatOps.cmpf .ogt d (Scalar.ofBits (F := Ideal) .f32 0x00000000#32)) (FloatOps.rsqrt d)
        (Scalar.ofBits (F := Ideal) .f32 0x00000000#32)
      = (((if 0 < r then (Real.sqrt r)⁻¹ else 0 : ℝ)) : EReal) := by
  subst hd
  have hz : Scalar.ofBits (F := Ideal) .f32 0x00000000#32 = (0 : EReal) := Ideal.ofBits_zero_f32
  rw [hz, Ideal.cmpf_def, Ideal.rsqrt_def, Ideal.rsqrt_coe]
  by_cases hr : 0 < r
  · have hc : Ideal.cmp .ogt ((r : ℝ) : EReal) 0 = 1#1 := by
      have : (0 : EReal) < ((r : ℝ) : EReal) := EReal.coe_pos.mpr hr
      simp [Ideal.cmp, this]
    rw [hc, select_one, if_pos hr, if_neg (not_lt.mpr hr.le), if_neg hr.ne']
  · have hc : Ideal.cmp .ogt ((r : ℝ) : EReal) 0 = 0#1 := by
      have : ¬ (0 : EReal) < ((r : ℝ) : EReal) := fun h => hr (EReal.coe_pos.mp h)
      simp [Ideal.cmp, this]
    rw [hc, select_zero, if_neg hr, EReal.coe_zero]

private theorem pay3_apply (A : Fin 512 → Fin 512 → ℝ) (x0 : Vec Ideal S1x512x512 .f32)
    (h0 : ∀ (i : Fin 512) (j : Fin 512), x0 (ix3 (0 : Fin 1) i j) = ((A i j : ℝ) : EReal)) (j : Fin 512) (u : Fin 1) :
    k0_pay3 x0 (ix2 j u) = ((Cert.Gcn.dinv A j : ℝ) : EReal) := by
  have hdeg : addf (multiReduction (F := Ideal) .add [0] S512 (k0_pay2 x0) 0x00000000#32 reduces_S512x512_S512 (.inl rfl) rfl)
      (broadcast S512 (Scalar.ofBits (F := Ideal) .f32 0x3F800000#32)) (ix1 j) = ((Cert.Gcn.deg A j : ℝ) : EReal) := by
    refine (congrArg₂ (· + ·) (colsum_apply (k0_pay2 x0) reduces_S512x512_S512 (.inl rfl) rfl j) ofBits_one_f32).trans ?_
    simp only [pay2_apply, h0]
    rw [Cert.Gcn.coe_sum, ← EReal.coe_add]
    rfl
  unfold k0_pay3
  refine (shapeCast_a_a1_apply _ shapeCasts_S512_S512x1 j u).trans ?_
  refine (select_rsqrt _ (Cert.Gcn.deg A j) hdeg).trans ?_
  rfl

private def step (f : FVec Ideal S512x512 .f32) (dcol : FVec Ideal S512x1 .f32) (X : FVec Ideal S512x128 .f32) :
    FVec Ideal S512x128 .f32 :=
  mulf (addf (matmul dot_S512x512_S512x128_S512x128_0_0_1_1_n_n none f
        (mulf X (broadcastTo S512x128 dcol broadcasts_S512x1_S512x128)) (constant S512x128 .f32 0x00000000#32))
      (mulf X (broadcastTo S512x128 dcol broadcasts_S512x1_S512x128)))
    (broadcastTo S512x128 dcol broadcasts_S512x1_S512x128)

private theorem step_apply (A : Fin 512 → Fin 512 → ℝ) (f : FVec Ideal S512x512 .f32) (dcol : FVec Ideal S512x1 .f32)
    (hf : ∀ (i : Fin 512) (j : Fin 512), f (ix2 i j) = ((A i j : ℝ) : EReal))
    (hd : ∀ (j : Fin 512) (u : Fin 1), dcol (ix2 j u) = ((Cert.Gcn.dinv A j : ℝ) : EReal))
    (x : Fin 512 → Fin 128 → ℝ) (X : FVec Ideal S512x128 .f32)
    (hX : ∀ (i : Fin 512) (c : Fin 128), X (ix2 i c) = ((x i c : ℝ) : EReal)) (j : Fin 512) (c : Fin 128) :
    step f dcol X (ix2 j c) = ((Cert.Gcn.prop A x j c : ℝ) : EReal) := by
  have hB : ∀ (i : Fin 512) (c : Fin 128),
      broadcastTo S512x128 dcol broadcasts_S512x1_S512x128 (ix2 i c) = ((Cert.Gcn.dinv A i : ℝ) : EReal) := by
    intro i c
    rw [broadcastTo_a1_ab_apply, hd]
  have hY : ∀ (i : Fin 512) (c : Fin 128),
      mulf X (broadcastTo S512x128 dcol broadcasts_S512x1_S512x128) (ix2 i c)
        = ((x i c * Cert.Gcn.dinv A i : ℝ) : EReal) := by
    intro i c
    rw [mulf_apply, hB, hX, ← EReal.coe_mul]
  unfold step
  rw [mulf_apply, addf_apply, tdot_zero_apply, hB, hY]
  simp only [hf, hY]
  rw [Cert.Gcn.coe_sum_mul, ← EReal.coe_add, ← EReal.coe_mul]
  rfl

private theorem pay4_apply (W2 : Fin 128 → Fin 256 → ℝ) (W3 : Fin 256 → Fin 128 → ℝ)
    (x3 : Vec Ideal S128x256 .f32) (x5 : Vec Ideal S256x128 .f32)
    (h3 : ∀ (i : Fin 128) (k : Fin 256), x3 (ix2 i k) = ((W2 i k : ℝ) : EReal))
    (h5 : ∀ (i : Fin 256) (k : Fin 128), x5 (ix2 i k) = ((W3 i k : ℝ) : EReal)) (p : Fin 128) (c : Fin 128) :
    k0_pay4 x3 x5 (ix2 p c) = ((Cert.Gcn.mm W2 W3 p c : ℝ) : EReal) := by
  unfold k0_pay4
  refine (dot_128_256_128_apply x3 x5 p c).trans ?_
  simp only [h3, h5]
  rw [Cert.Gcn.coe_sum_mul]
  rfl

private theorem pay5_apply (b2 : Fin 256 → ℝ) (W3 : Fin 256 → Fin 128 → ℝ)
    (x4 : Vec Ideal S256 .f32) (x5 : Vec Ideal S256x128 .f32)
    (h4 : ∀ k : Fin 256, x4 (ix1 k) = ((b2 k : ℝ) : EReal))
    (h5 : ∀ (i : Fin 256) (k : Fin 128), x5 (ix2 i k) = ((W3 i k : ℝ) : EReal)) (u : Fin 1) (c : Fin 128) :
    k0_pay5 x4 x5 (ix2 u c) = ((∑ k, b2 k * W3 k c : ℝ) : EReal) := by
  unfold k0_pay5
  refine (dot_1_256_128_apply _ x5 u c).trans ?_
  simp only [shapeCast_a_1a_apply, h4, h5]
  rw [Cert.Gcn.coe_sum_mul]

private theorem bias_apply (b : Fin 128 → ℝ) (xb : Vec Ideal S128 .f32) (hb : ∀ k : Fin 128, xb (ix1 k) = ((b k : ℝ) : EReal))
    (i : Fin 512) (c : Fin 128) :
    broadcastTo S512x128 (shapeCast S1x128 xb shapeCasts_S128_S1x128) broadcasts_S1x128_S512x128 (ix2 i c)
      = ((b c : ℝ) : EReal) := by
  rw [broadcastTo_1b_ab_apply, shapeCast_a_1a_apply, hb]

private theorem pay6_eq (x0 : Vec Ideal S1x512x512 .f32) (x1 : Vec Ideal S512x128 .f32) (x2 : Vec Ideal S128 .f32) :
    k0_pay6 x0 x1 x2 = step (k0_pay2 x0) (k0_pay3 x0)
      (addf (step (k0_pay2 x0) (k0_pay3 x0)
          (matmul (φ₁ := .f32) (φ₂ := .f32) dot_S512x512_S512x128_S512x128_1_0_0_1_n_n none (k0_pay2 x0) x1 (constant S512x128 .f32 0x00000000#32)))
        (broadcastTo S512x128 (shapeCast S1x128 x2 shapeCasts_S128_S1x128) broadcasts_S1x128_S512x128)) := rfl

private theorem pay6_apply (A : Fin 512 → Fin 512 → ℝ) (W1 : Fin 512 → Fin 128 → ℝ) (b1 : Fin 128 → ℝ)
    (x0 : Vec Ideal S1x512x512 .f32) (x1 : Vec Ideal S512x128 .f32) (x2 : Vec Ideal S128 .f32)
    (h0 : ∀ (i : Fin 512) (j : Fin 512), x0 (ix3 (0 : Fin 1) i j) = ((A i j : ℝ) : EReal))
    (h1 : ∀ (i : Fin 512) (k : Fin 128), x1 (ix2 i k) = ((W1 i k : ℝ) : EReal))
    (h2 : ∀ k : Fin 128, x2 (ix1 k) = ((b1 k : ℝ) : EReal)) (j : Fin 512) (c : Fin 128) :
    k0_pay6 x0 x1 x2 (ix2 j c)
      = ((Cert.Gcn.prop A (fun r c' => Cert.Gcn.prop A (Cert.Gcn.mm A W1) r c' + b1 c') j c : ℝ) : EReal) := by
  have hf : ∀ (i : Fin 512) (j : Fin 512), k0_pay2 x0 (ix2 i j) = ((A i j : ℝ) : EReal) :=
    fun i j => (pay2_apply x0 i j).trans (h0 i j)
  have hd := pay3_apply A x0 h0
  have hM : ∀ (i : Fin 512) (c : Fin 128),
      matmul (φ₁ := .f32) (φ₂ := .f32) dot_S512x512_S512x128_S512x128_1_0_0_1_n_n none (k0_pay2 x0) x1 (constant (F := Ideal) S512x128 .f32 0x00000000#32) (ix2 i c)
        = ((Cert.Gcn.mm A W1 i c : ℝ) : EReal) := by
    intro i c
    refine (dot_512_512_128_apply (k0_pay2 x0) x1 i c).trans ?_
    simp only [hf, h1]
    rw [Cert.Gcn.coe_sum_mul]
    rfl
  have hX : ∀ (i : Fin 512) (c : Fin 128),
      addf (step (k0_pay2 x0) (k0_pay3 x0)
          (matmul (φ₁ := .f32) (φ₂ := .f32) dot_S512x512_S512x128_S512x128_1_0_0_1_n_n none (k0_pay2 x0) x1 (constant S512x128 .f32 0x00000000#32)))
        (broadcastTo S512x128 (shapeCast S1x128 x2 shapeCasts_S128_S1x128) broadcasts_S1x128_S512x128) (ix2 i c)
        = ((Cert.Gcn.prop A (Cert.Gcn.mm A W1) i c + b1 c : ℝ) : EReal) := by
    intro i c
    rw [addf_apply, bias_apply b1 x2 h2, step_apply A _ _ hf hd (Cert.Gcn.mm A W1) _ hM i c, ← EReal.coe_add]
  rw [pay6_eq]
  exact step_apply A _ _ hf hd (fun r c' => Cert.Gcn.prop A (Cert.Gcn.mm A W1) r c' + b1 c') _ hX j c

private theorem pay1_eq (v1 : FVec Ideal S512x512 .f32) (v10 : FVec Ideal S512x1 .f32) (v13 : FVec Ideal S128x128 .f32)
    (v17 : FVec Ideal S1x128 .f32) (v35 : FVec Ideal S512x128 .f32) (cst_20 : FVec Ideal S512x128 .f32) (v45 : Vec Ideal S128 .f32) :
    k0_pay1 v1 v10 v13 v17 v35 cst_20 v45
      = shapeCast S1x512x128
          (addf (step v1 v10
              (addf (matmul dot_S512x128_S128x128_S512x128_1_0_0_1_n_n none v35 v13 cst_20)
                (broadcastTo S512x128 v17 broadcasts_S1x128_S512x128)))
            (broadcastTo S512x128 (shapeCast S1x128 v45 shapeCasts_S128_S1x128) broadcasts_S1x128_S512x128))
          shapeCasts_S512x128_S1x512x128 := rfl

theorem pay_real (A : Fin 512 → Fin 512 → ℝ) (W1 : Fin 512 → Fin 128 → ℝ) (b1 : Fin 128 → ℝ) (W2 : Fin 128 → Fin 256 → ℝ)
    (b2 : Fin 256 → ℝ) (W3 : Fin 256 → Fin 128 → ℝ) (b3 : Fin 128 → ℝ)
    (x0 : Vec Ideal S1x512x512 .f32) (x1 : Vec Ideal S512x128 .f32) (x2 : Vec Ideal S128 .f32) (x3 : Vec Ideal S128x256 .f32)
    (x4 : Vec Ideal S256 .f32) (x5 : Vec Ideal S256x128 .f32) (x6 : Vec Ideal S128 .f32)
    (h0 : ∀ (i : Fin 512) (j : Fin 512), x0 (ix3 (0 : Fin 1) i j) = ((A i j : ℝ) : EReal))
    (h1 : ∀ (i : Fin 512) (k : Fin 128), x1 (ix2 i k) = ((W1 i k : ℝ) : EReal))
    (h2 : ∀ k : Fin 128, x2 (ix1 k) = ((b1 k : ℝ) : EReal))
    (h3 : ∀ (i : Fin 128) (k : Fin 256), x3 (ix2 i k) = ((W2 i k : ℝ) : EReal))
    (h4 : ∀ k : Fin 256, x4 (ix1 k) = ((b2 k : ℝ) : EReal))
    (h5 : ∀ (i : Fin 256) (k : Fin 128), x5 (ix2 i k) = ((W3 i k : ℝ) : EReal))
    (h6 : ∀ k : Fin 128, x6 (ix1 k) = ((b3 k : ℝ) : EReal))
    (j : Fin 512) (c : Fin 128) :
    k0_pay1 (F := Ideal) (k0_pay2 x0) (k0_pay3 x0) (k0_pay4 x3 x5) (k0_pay5 x4 x5) (k0_pay6 x0 x1 x2)
        (constant S512x128 .f32 0x00000000#32) x6 (ix3 (0 : Fin 1) j c)
      = ((Cert.Gcn.kerOut A W1 b1 W2 b2 W3 b3 j c : ℝ) : EReal) := by
  have hf : ∀ (i : Fin 512) (j : Fin 512), k0_pay2 x0 (ix2 i j) = ((A i j : ℝ) : EReal) :=
    fun i j => (pay2_apply x0 i j).trans (h0 i j)
  have hd := pay3_apply A x0 h0
  have hX : ∀ (i : Fin 512) (c : Fin 128),
      addf (matmul dot_S512x128_S128x128_S512x128_1_0_0_1_n_n none (k0_pay6 x0 x1 x2) (k0_pay4 x3 x5)
            (constant (F := Ideal) S512x128 .f32 0x00000000#32))
          (broadcastTo S512x128 (k0_pay5 x4 x5) broadcasts_S1x128_S512x128) (ix2 i c)
        = ((Cert.Gcn.mm (Cert.Gcn.prop A (fun r c' => Cert.Gcn.prop A (Cert.Gcn.mm A W1) r c' + b1 c')) (Cert.Gcn.mm W2 W3) i c
            + ∑ k, b2 k * W3 k c : ℝ) : EReal) := by
    intro i c
    rw [addf_apply, dot_512_128_128_apply, broadcastTo_1b_ab_apply, pay5_apply b2 W3 x4 x5 h4 h5]
    simp only [pay6_apply A W1 b1 x0 x1 x2 h0 h1 h2, pay4_apply W2 W3 x3 x5 h3 h5]
    rw [Cert.Gcn.coe_sum_mul, ← EReal.coe_add]
    rfl
  rw [pay1_eq]
  refine (shapeCast_ab_1ab_apply _ shapeCasts_S512x128_S1x512x128 (0 : Fin 1) j c).trans ?_
  rw [addf_apply, bias_apply b3 x6 h6,
    step_apply A _ _ hf hd
      (fun r c' => Cert.Gcn.mm (Cert.Gcn.prop A (fun r' c'' => Cert.Gcn.prop A (Cert.Gcn.mm A W1) r' c'' + b1 c''))
        (Cert.Gcn.mm W2 W3) r c' + ∑ k, b2 k * W3 k c') _ hX j c,
    ← EReal.coe_add]
  rfl

end Cert.KernelIdeal.Pay

end
-- ==== Proof.SpecG.lean ====
import proofs.«148651_g6150393168184_cont_sun_c4_511_5_alg».proof.Proof.Spec
import Idealize.ShloMosaic.Lib.ValueIdx
import Mathlib.Data.EReal.Basic

/-! The common value of both programs as one array of extended reals. -/

noncomputable section

namespace Cert.Gcn

open Idealize.ShloMosaic Idealize.ShloMosaic.ValueIdx

def outR (r0 : (⟨3, ![4, 512, 512]⟩ : Shape).Idx → ℝ) (r1 : (⟨2, ![512, 128]⟩ : Shape).Idx → ℝ) (r2 : (⟨1, ![128]⟩ : Shape).Idx → ℝ)
    (r3 : (⟨2, ![128, 256]⟩ : Shape).Idx → ℝ) (r4 : (⟨1, ![256]⟩ : Shape).Idx → ℝ) (r5 : (⟨2, ![256, 128]⟩ : Shape).Idx → ℝ)
    (r6 : (⟨1, ![128]⟩ : Shape).Idx → ℝ) (g : Fin 4) (j : Fin 512) (c : Fin 128) : ℝ :=
  refOut (fun a b => r0 (ix3 g a b)) (fun a b => r1 (ix2 a b)) (fun a => r2 (ix1 a)) (fun a b => r3 (ix2 a b))
    (fun a => r4 (ix1 a)) (fun a b => r5 (ix2 a b)) (fun a => r6 (ix1 a)) j c

def G (r0 : (⟨3, ![4, 512, 512]⟩ : Shape).Idx → ℝ) (r1 : (⟨2, ![512, 128]⟩ : Shape).Idx → ℝ) (r2 : (⟨1, ![128]⟩ : Shape).Idx → ℝ)
    (r3 : (⟨2, ![128, 256]⟩ : Shape).Idx → ℝ) (r4 : (⟨1, ![256]⟩ : Shape).Idx → ℝ) (r5 : (⟨2, ![256, 128]⟩ : Shape).Idx → ℝ)
    (r6 : (⟨1, ![128]⟩ : Shape).Idx → ℝ) : (⟨3, ![4, 512, 128]⟩ : Shape).Idx → EReal :=
  fun i => ((outR r0 r1 r2 r3 r4 r5 r6 (i 0) (i 1) (i 2) : ℝ) : EReal)

end Cert.Gcn

end
-- ==== Proof.KernelValue.lean ====
import proofs.«148651_g6150393168184_cont_sun_c4_511_5_alg».proof.Proof.Gen.KernelIdeal.Value
import proofs.«148651_g6150393168184_cont_sun_c4_511_5_alg».proof.Proof.KernelPay
import proofs.«148651_g6150393168184_cont_sun_c4_511_5_alg».proof.Proof.SpecG
import proofs.«148651_g6150393168184_cont_sun_c4_511_5_alg».proof.Proof.RealAlg

/-! The kernel's result array as one function of real argument arrays: grid point t stores graph t's block, and the four blocks tile the array. -/

noncomputable section

namespace Cert.KernelIdeal.Whole

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

private theorem zeros3 : (![0, 0, 0] : Fin 3 → Nat) = fun _ => 0 := funext fun a => by fin_cases a <;> rfl
private theorem zeros2 : (![0, 0] : Fin 2 → Nat) = fun _ => 0 := funext fun a => by fin_cases a <;> rfl
private theorem zeros1 : (![0] : Fin 1 → Nat) = fun _ => 0 := funext fun a => by fin_cases a <;> rfl

private theorem block_index : ∀ t : Fin cfg0.N,
    win0_7.index t (0 : Fin 3) = t.val ∧ win0_7.index t (1 : Fin 3) = 0 ∧ win0_7.index t (2 : Fin 3) = 0
    ∧ win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0 :=
  (by decide +kernel : ∀ t : Fin grid0.N, _)

private theorem graph_block (c : Dev nD) (t : Fin cfg0.N) (g : Fin 4) (hg : g.val = t.val) (i j : Fin 512) :
    (iblk m c 0 t : Vec Ideal S1x512x512 .f32) (ix3 (0 : Fin 1) i j)
      = (V m c main_arg0 : S4x512x512.Idx → EReal) (ix3 g i j) := by
  obtain ⟨-, -, -, e0, e1, e2, -⟩ := block_index t
  show V m c main_arg0 (((cfg0.win 0).blk t).view.emb (ix3 (0 : Fin 1) i j)) = V m c main_arg0 (ix3 g i j)
  congr 1
  funext a; apply Fin.ext
  match a with
  | ⟨0, _⟩ => show win0_0.index t (0 : Fin 3) * 1 + 1 * 0 = g.val; omega
  | ⟨1, _⟩ => show win0_0.index t (1 : Fin 3) * 512 + 1 * i.val = i.val; omega
  | ⟨2, _⟩ => show win0_0.index t (2 : Fin 3) * 512 + 1 * j.val = j.val; omega

private theorem weight1_block (c : Dev nD) (t : Fin cfg0.N) :
    (iblk m c 1 t : Vec Ideal S512x128 .f32) = (V m c main_arg1 : S512x128.Idx → EReal) := by
  obtain ⟨-, -, -, -, -, -, e0, e1, -⟩ := block_index t
  funext y
  show V m c main_arg1 (((cfg0.win 1).blk t).view.emb y) = V m c main_arg1 y
  congr 1
  funext a; apply Fin.ext
  match a with
  | ⟨0, _⟩ => show win0_1.index t (0 : Fin 2) * 512 + 1 * (y 0).val = (y 0).val; omega
  | ⟨1, _⟩ => show win0_1.index t (1 : Fin 2) * 128 + 1 * (y 1).val = (y 1).val; omega

private theorem bias1_block (c : Dev nD) (t : Fin cfg0.N) :
    (iblk m c 2 t : Vec Ideal S128 .f32) = (V m c main_arg2 : S128.Idx → EReal) := by
  obtain ⟨-, -, -, -, -, -, -, -, e0, -⟩ := block_index t
  funext y
  show V m c main_arg2 (((cfg0.win 2).blk t).view.emb y) = V m c main_arg2 y
  congr 1
  funext a; apply Fin.ext
  match a with
  | ⟨0, _⟩ => show win0_2.index t (0 : Fin 1) * 128 + 1 * (y 0).val = (y 0).val; omega

private theorem weight2_block (c : Dev nD) (t : Fin cfg0.N) :
    (iblk m c 3 t : Vec Ideal S128x256 .f32) = (V m c main_arg3 : S128x256.Idx → EReal) := by
  obtain ⟨-, -, -, -, -, -, -, -, -, e0, e1, -⟩ := block_index t
  funext y
  show V m c main_arg3 (((cfg0.win 3).blk t).view.emb y) = V m c main_arg3 y
  congr 1
  funext a; apply Fin.ext
  match a with
  | ⟨0, _⟩ => show win0_3.index t (0 : Fin 2) * 128 + 1 * (y 0).val = (y 0).val; omega
  | ⟨1, _⟩ => show win0_3.index t (1 : Fin 2) * 256 + 1 * (y 1).val = (y 1).val; omega

private theorem bias2_block (c : Dev nD) (t : Fin cfg0.N) :
    (iblk m c 4 t : Vec Ideal S256 .f32) = (V m c main_arg4 : S256.Idx → EReal) := by
  obtain ⟨-, -, -, -, -, -, -, -, -, -, -, e0, -⟩ := block_index t
  funext y
  show V m c main_arg4 (((cfg0.win 4).blk t).view.emb y) = V m c main_arg4 y
  congr 1
  funext a; apply Fin.ext
  match a with
  | ⟨0, _⟩ => show win0_4.index t (0 : Fin 1) * 256 + 1 * (y 0).val = (y 0).val; omega

private theorem weight3_block (c : Dev nD) (t : Fin cfg0.N) :
    (iblk m c 5 t : Vec Ideal S256x128 .f32) = (V m c main_arg5 : S256x128.Idx → EReal) := by
  obtain ⟨-, -, -, -, -, -, -, -, -, -, -, -, e0, e1, -⟩ := block_index t
  funext y
  show V m c main_arg5 (((cfg0.win 5).blk t).view.emb y) = V m c main_arg5 y
  congr 1
  funext a; apply Fin.ext
  match a with
  | ⟨0, _⟩ => show win0_5.index t (0 : Fin 2) * 256 + 1 * (y 0).val = (y 0).val; omega
  | ⟨1, _⟩ => show win0_5.index t (1 : Fin 2) * 128 + 1 * (y 1).val = (y 1).val; omega

private theorem bias3_block (c : Dev nD) (t : Fin cfg0.N) :
    (iblk m c 6 t : Vec Ideal S128 .f32) = (V m c main_arg6 : S128.Idx → EReal) := by
  obtain ⟨-, -, -, -, -, -, -, -, -, -, -, -, -, -, e0⟩ := block_index t
  funext y
  show V m c main_arg6 (((cfg0.win 6).blk t).view.emb y) = V m c main_arg6 y
  congr 1
  funext a; apply Fin.ext
  match a with
  | ⟨0, _⟩ => show win0_6.index t (0 : Fin 1) * 128 + 1 * (y 0).val = (y 0).val; omega

private theorem block_entry (g : Fin 4)
    (r0 : S4x512x512.Idx → ℝ) (r1 : S512x128.Idx → ℝ) (r2 : S128.Idx → ℝ) (r3 : S128x256.Idx → ℝ) (r4 : S256.Idx → ℝ)
    (r5 : S256x128.Idx → ℝ) (r6 : S128.Idx → ℝ)
    (x0 : Vec Ideal S1x512x512 .f32) (x1 : Vec Ideal S512x128 .f32) (x2 : Vec Ideal S128 .f32) (x3 : Vec Ideal S128x256 .f32)
    (x4 : Vec Ideal S256 .f32) (x5 : Vec Ideal S256x128 .f32) (x6 : Vec Ideal S128 .f32)
    (e0 : ∀ (i : Fin 512) (j : Fin 512), x0 (ix3 (0 : Fin 1) i j) = ((r0 (ix3 g i j) : ℝ) : EReal))
    (e1 : x1 = fun i => ((r1 i : ℝ) : EReal)) (e2 : x2 = fun i => ((r2 i : ℝ) : EReal))
    (e3 : x3 = fun i => ((r3 i : ℝ) : EReal)) (e4 : x4 = fun i => ((r4 i : ℝ) : EReal))
    (e5 : x5 = fun i => ((r5 i : ℝ) : EReal)) (e6 : x6 = fun i => ((r6 i : ℝ) : EReal))
    (j : Fin 512) (k : Fin 128) :
    k0_pay1 (F := Ideal) (k0_pay2 x0) (k0_pay3 x0) (k0_pay4 x3 x5) (k0_pay5 x4 x5) (k0_pay6 x0 x1 x2)
        (constant S512x128 .f32 0x00000000#32) x6 (ix3 (0 : Fin 1) j k)
      = ((Cert.Gcn.outR r0 r1 r2 r3 r4 r5 r6 g j k : ℝ) : EReal) := by
  rw [Cert.KernelIdeal.Pay.pay_real (fun a b => r0 (ix3 g a b)) (fun a b => r1 (ix2 a b)) (fun a => r2 (ix1 a))
    (fun a b => r3 (ix2 a b)) (fun a => r4 (ix1 a)) (fun a b => r5 (ix2 a b)) (fun a => r6 (ix1 a))
    x0 x1 x2 x3 x4 x5 x6 e0 (fun i k => by rw [e1]) (fun k => by rw [e2]) (fun i k => by rw [e3]) (fun k => by rw [e4])
    (fun i k => by rw [e5]) (fun k => by rw [e6]) j k,
    Cert.Gcn.kerOut_eq_refOut]
  rfl

private theorem flushed_eq (c : Dev nD) (t : Fin cfg0.N)
    (r0 : S4x512x512.Idx → ℝ) (r1 : S512x128.Idx → ℝ) (r2 : S128.Idx → ℝ) (r3 : S128x256.Idx → ℝ) (r4 : S256.Idx → ℝ)
    (r5 : S256x128.Idx → ℝ) (r6 : S128.Idx → ℝ)
    (h0 : m ((c : Thread nD τ).loc main_arg0) = fun i => ((r0 i : ℝ) : EReal))
    (h1 : m ((c : Thread nD τ).loc main_arg1) = fun i => ((r1 i : ℝ) : EReal))
    (h2 : m ((c : Thread nD τ).loc main_arg2) = fun i => ((r2 i : ℝ) : EReal))
    (h3 : m ((c : Thread nD τ).loc main_arg3) = fun i => ((r3 i : ℝ) : EReal))
    (h4 : m ((c : Thread nD τ).loc main_arg4) = fun i => ((r4 i : ℝ) : EReal))
    (h5 : m ((c : Thread nD τ).loc main_arg5) = fun i => ((r5 i : ℝ) : EReal))
    (h6 : m ((c : Thread nD τ).loc main_arg6) = fun i => ((r6 i : ℝ) : EReal)) :
    (dats (F := Ideal) m 0 c).flushed 7 t
      = ((cfg0.win 7).blk t).view.read (Elt Ideal) (Cert.Gcn.G r0 r1 r2 r3 r4 r5 r6) := by
  rw [Value.flushed7]
  unfold out0_7
  rw [View.canon_unit_zero zeros3]
  simp only [View.ld_unit_zero (S := S1x512x512) zeros3, View.ld_unit_zero (S := S128x256) zeros2,
    View.ld_unit_zero (S := S256x128) zeros2, View.ld_unit_zero (S := S256) zeros1,
    View.ld_unit_zero (S := S512x128) zeros2, View.ld_unit_zero (S := S128) zeros1]
  have ht : t.val < 4 := t.isLt
  obtain ⟨g, hg⟩ : ∃ g : Fin 4, g.val = t.val := ⟨⟨t.val, ht⟩, rfl⟩
  obtain ⟨o0, o1, o2, -⟩ := block_index t
  show (fun y : S1x512x128.Idx =>
      k0_pay1 (F := Ideal) (k0_pay2 (iblk m c 0 t)) (k0_pay3 (iblk m c 0 t)) (k0_pay4 (iblk m c 3 t) (iblk m c 5 t))
        (k0_pay5 (iblk m c 4 t) (iblk m c 5 t)) (k0_pay6 (iblk m c 0 t) (iblk m c 1 t) (iblk m c 2 t))
        (constant S512x128 .f32 0x00000000#32) (iblk m c 6 t) y)
    = fun y : S1x512x128.Idx => Cert.Gcn.G r0 r1 r2 r3 r4 r5 r6 (((cfg0.win 7).blk t).view.emb y)
  funext y
  obtain ⟨a, j, k, rfl⟩ : ∃ (a : Fin 1) (j : Fin 512) (k : Fin 128), y = ix3 a j k := ⟨y 0, y 1, y 2, eq_ix3 y⟩
  obtain rfl : a = 0 := Subsingleton.elim _ _
  rw [block_entry g r0 r1 r2 r3 r4 r5 r6 (iblk m c 0 t) (iblk m c 1 t) (iblk m c 2 t) (iblk m c 3 t) (iblk m c 4 t)
    (iblk m c 5 t) (iblk m c 6 t)
    (fun i j => by rw [graph_block m c t g hg i j, V_main_arg0, h0])
    (by rw [weight1_block m c t, V_main_arg1, h1]) (by rw [bias1_block m c t, V_main_arg2, h2])
    (by rw [weight2_block m c t, V_main_arg3, h3]) (by rw [bias2_block m c t, V_main_arg4, h4])
    (by rw [weight3_block m c t, V_main_arg5, h5]) (by rw [bias3_block m c t, V_main_arg6, h6]) j k]
  show ((Cert.Gcn.outR r0 r1 r2 r3 r4 r5 r6 g j k : ℝ) : EReal)
    = ((Cert.Gcn.outR r0 r1 r2 r3 r4 r5 r6 ((((cfg0.win 7).blk t).view.emb (ix3 (0 : Fin 1) j k)) 0)
        ((((cfg0.win 7).blk t).view.emb (ix3 (0 : Fin 1) j k)) 1) ((((cfg0.win 7).blk t).view.emb (ix3 (0 : Fin 1) j k)) 2) : ℝ) : EReal)
  have c0 : (((cfg0.win 7).blk t).view.emb (ix3 (0 : Fin 1) j k)) 0 = g :=
    Fin.ext (by show win0_7.index t (0 : Fin 3) * 1 + 1 * 0 = g.val; omega)
  have c1 : (((cfg0.win 7).blk t).view.emb (ix3 (0 : Fin 1) j k)) 1 = j :=
    Fin.ext (by show win0_7.index t (1 : Fin 3) * 512 + 1 * j.val = j.val; omega)
  have c2 : (((cfg0.win 7).blk t).view.emb (ix3 (0 : Fin 1) j k)) 2 = k :=
    Fin.ext (by show win0_7.index t (2 : Fin 3) * 128 + 1 * k.val = k.val; omega)
  rw [c0, c1, c2]

private theorem mem_blk (t : Fin cfg0.N) (i : S4x512x128.Idx) :
    i ∈ ((cfg0.win 7).blk t).view.set ↔ ∀ a : Fin 3, win0_7.index t a * S1x512x128.size a ≤ (i a).val
      ∧ (i a).val < win0_7.index t a * S1x512x128.size a + S1x512x128.size a := by
  show i ∈ ((View.whole main_v0).slice (win0_7.rect t)).set ↔ _
  rw [View.set_slice_whole, Rect.mem_set_unit]
  exact Iff.rfl

private theorem cover (i : S4x512x128.Idx) :
    ∃ t : Fin cfg0.N, (cfg0.win 7).flush t = true ∧ i ∈ ((cfg0.win 7).blk t).view.set := by
  have hi0 : (i 0).val < 4 := (i 0).isLt
  have hi1 : (i 1).val < 512 := (i 1).isLt
  have hi2 : (i 2).val < 128 := (i 2).isLt
  have hlt : (i 0).val < cfg0.N := by rw [show cfg0.N = 4 from N_0]; exact hi0
  refine ⟨⟨(i 0).val, hlt⟩, flush0_7 _, ?_⟩
  rw [mem_blk]
  obtain ⟨o0, o1, o2, -⟩ := block_index ⟨(i 0).val, hlt⟩
  have o0' : win0_7.index ⟨(i 0).val, hlt⟩ (0 : Fin 3) = (i 0).val := o0
  intro a
  match a with
  | ⟨0, _⟩ => show win0_7.index ⟨(i 0).val, _⟩ (0 : Fin 3) * 1 ≤ (i 0).val ∧ (i 0).val < win0_7.index ⟨(i 0).val, _⟩ (0 : Fin 3) * 1 + 1
              omega
  | ⟨1, _⟩ => show win0_7.index ⟨(i 0).val, _⟩ (1 : Fin 3) * 512 ≤ (i 1).val ∧ (i 1).val < win0_7.index ⟨(i 0).val, _⟩ (1 : Fin 3) * 512 + 512
              omega
  | ⟨2, _⟩ => show win0_7.index ⟨(i 0).val, _⟩ (2 : Fin 3) * 128 ≤ (i 2).val ∧ (i 2).val < win0_7.index ⟨(i 0).val, _⟩ (2 : Fin 3) * 128 + 128
              omega

theorem final (c : Dev nD)
    (r0 : S4x512x512.Idx → ℝ) (r1 : S512x128.Idx → ℝ) (r2 : S128.Idx → ℝ) (r3 : S128x256.Idx → ℝ) (r4 : S256.Idx → ℝ)
    (r5 : S256x128.Idx → ℝ) (r6 : S128.Idx → ℝ)
    (h0 : m ((c : Thread nD τ).loc main_arg0) = fun i => ((r0 i : ℝ) : EReal))
    (h1 : m ((c : Thread nD τ).loc main_arg1) = fun i => ((r1 i : ℝ) : EReal))
    (h2 : m ((c : Thread nD τ).loc main_arg2) = fun i => ((r2 i : ℝ) : EReal))
    (h3 : m ((c : Thread nD τ).loc main_arg3) = fun i => ((r3 i : ℝ) : EReal))
    (h4 : m ((c : Thread nD τ).loc main_arg4) = fun i => ((r4 i : ℝ) : EReal))
    (h5 : m ((c : Thread nD τ).loc main_arg5) = fun i => ((r5 i : ℝ) : EReal))
    (h6 : m ((c : Thread nD τ).loc main_arg6) = fun i => ((r6 i : ℝ) : EReal)) :
    (dats (F := Ideal) m 0 c).arrAt 7 cfg0.N = Cert.Gcn.G r0 r1 r2 r3 r4 r5 r6 := by
  exact (dats (F := Ideal) m 0 c).arrAt_eq_of_cover 7 (Cert.Gcn.G r0 r1 r2 r3 r4 r5 r6)
    (fun t _ => flushed_eq m c t r0 r1 r2 r3 r4 r5 r6 h0 h1 h2 h3 h4 h5 h6) cover

end Cert.KernelIdeal.Whole

end
-- ==== Proof.RefOps.lean ====
/-
  The reference program's host operations, joint by joint: for each of the four graphs the preamble that builds the
  list of all node pairs and the three layers over it, and the final stacking; with the references each list writes.
-/
import proofs.«148651_g6150393168184_cont_sun_c4_511_5_alg».proof.Proof.Gen.ReferenceIdeal
import Idealize.ShloMosaic.Lib.StableHlo.Run

noncomputable section

namespace Cert.ReferenceIdeal.RefOps

open Cert.ReferenceIdeal Cert.ReferenceIdeal.Gen Idealize.ShloMosaic Idealize.ShloMosaic.TcCoe Idealize.SL.Sem Idealize.ShloMosaic.StableHlo

variable {F : FTy → Type} [FloatOps F]

def Ok (W : List (Ref sig .tc)) (op : HloOp τ sig (Elt F)) : Prop :=
  (op.bufs ⊆ tcRefs τ sig ∧ op.fresh = ∅) ∧ op.writes ⊆ (W.map (Proc.devRef (τ := τ) .tc)).toFinset

/-- An operation that writes one reference of `W` writes inside `W`. -/
theorem ok_of {W : List (Ref sig .tc)} {y : Ref sig .tc} {op : HloOp τ sig (Elt F)} (hb : op.bufs ⊆ tcRefs τ sig)
    (hf : op.fresh = ∅) (hw : op.writes = {Proc.devRef .tc y}) (hy : y ∈ W) : Ok W op :=
  ⟨⟨hb, hf⟩, hw ▸ Finset.singleton_subset_iff.mpr (List.mem_toFinset.mpr (List.mem_map_of_mem hy))⟩

theorem ok_mem {l : List (HloOp τ sig (Elt F))} {W : List (Ref sig .tc)} (h : l.Forall (Ok W)) {op : HloOp τ sig (Elt F)}
    (ho : op ∈ l) : op.bufs ⊆ tcRefs τ sig ∧ op.fresh = ∅ :=
  (List.forall_iff_forall_mem.mp h op ho).1

theorem writes_of {l : List (HloOp τ sig (Elt F))} {W : List (Ref sig .tc)} (h : l.Forall (Ok W)) :
    l.Forall fun op => op.writes ⊆ (W.map (Proc.devRef (τ := τ) .tc)).toFinset :=
  List.Forall.imp (fun _ h => h.2) h

/-- A reference outside the list a line writes inside keeps its contents. -/
theorem keep {l : List (HloOp τ sig (Elt F))} {W : List (Ref sig .tc)}
    (hW : l.Forall fun op => op.writes ⊆ (W.map (Proc.devRef (τ := τ) .tc)).toFinset) (V : Valuation τ sig (Elt F))
    {r : Ref sig .tc} (hr : r ∉ W) : after l V (no_index (Proc.devRef .tc r)) = V (Proc.devRef .tc r) :=
  after_of_writes_sub l V hW hr

noncomputable def pre0 : List (HloOp τ sig (Elt F)) :=
  [ unary main_arg0 main_v0 (extractStridedSlice S1x512x512 ![0, 0, 0] · slices_S4x512x512_S1x512x512_0_0_0),
    reshape main_v0 main_v1 rfl shapeCasts_S1x512x512_S512x512,
    nullary main_v2 (iotaInDim S512 32 0),
    unary main_v2 main_v3 (broadcastInDim S512x512 ![0] bcast_S512_S512x512_0),
    reshape main_v3 main_v4 rfl shapeCasts_S512x512_S262144,
    reshape main_v2 main_v5 rfl shapeCasts_S512_S1x512,
    unary main_v5 main_v6 (broadcastInDim S512x512 ![0, 1] bcast_S1x512_S512x512_0_1),
    reshape main_v6 main_v7 rfl shapeCasts_S512x512_S262144,
    unary main_v4 main_v8 (broadcastInDim S1x262144 ![1] bcast_S262144_S1x262144_1),
    unary main_v7 main_v9 (broadcastInDim S1x262144 ![1] bcast_S262144_S1x262144_1),
    binary main_v8 main_v9 main_v10 (fun a b => concatenate S2x262144 0 [⟨S1x262144, a⟩, ⟨S1x262144, b⟩] concatenates_S1x262144_S1x262144_S2x262144_d0),
    reshape main_v1 main_v11 rfl shapeCasts_S512x512_S262144 ]

abbrev pre0_W : List (Ref sig .tc) := [main_v0, main_v1, main_v2, main_v3, main_v4, main_v5, main_v6, main_v7, main_v8, main_v9, main_v10, main_v11]

theorem pre0_ok : (pre0 : List (HloOp τ sig (Elt F))).Forall (Ok pre0_W) := by
  unfold pre0
  repeat' (first
    | exact ok_of (by simp only [nullary_bufs_sub, unary_bufs_sub, binary_bufs_sub, ternary_bufs_sub, quaternary_bufs_sub, reshape_bufs_sub,
        binaryIndexed_bufs_sub, nary_bufs_sub, unaryIndexed_bufs_sub]) rfl rfl (by decide)
    | refine ⟨?_, ?_⟩)

theorem pre0_writes : (pre0 : List (HloOp τ sig (Elt F))).Forall fun op => op.writes ⊆ (pre0_W.map (Proc.devRef (τ := τ) .tc)).toFinset :=
  writes_of pre0_ok

noncomputable def layA0 : List (HloOp τ sig (Elt F)) :=
  [ nullary main_v12 (iotaInDim S512 32 0),
    unary main_v10 main_v13 (extractStridedSlice S1x262144 ![0, 0] · slices_S2x262144_S1x262144_0_0),
    reshape main_v13 main_v14 rfl shapeCasts_S1x262144_S262144,
    binary main_v14 main_v12 main_v15 (fun a b => concatenate S262656 0 [⟨S262144, a⟩, ⟨S512, b⟩] concatenates_S262144_S512_S262656_d0),
    unary main_v10 main_v16 (extractStridedSlice S1x262144 ![1, 0] · slices_S2x262144_S1x262144_1_0),
    reshape main_v16 main_v17 rfl shapeCasts_S1x262144_S262144,
    binary main_v17 main_v12 main_v18 (fun a b => concatenate S262656 0 [⟨S262144, a⟩, ⟨S512, b⟩] concatenates_S262144_S512_S262656_d0),
    nullary main_cst (constant S_ .f32 0x3F800000#32),
    unary main_cst main_v19 (broadcastInDim S512 ![] bcast_S_S512),
    binary main_v11 main_v19 main_v20 (fun a b => concatenate S262656 0 [⟨S262144, a⟩, ⟨S512, b⟩] concatenates_S262144_S512_S262656_d0),
    nullary main_cst_0 (constant S_ .f32 0x00000000#32),
    unary main_cst_0 main_v21 (broadcastInDim S512 ![] bcast_S_S512),
    nullary main_c (constantI S_ 32 0#32),
    unary main_c main_v22 (broadcastInDim S262656 ![] bcast_S_S262656),
    binary main_v18 main_v22 main_v23 (cmpi .slt),
    nullary main_c_1 (constantI S_ 32 512#32),
    unary main_c_1 main_v24 (broadcastInDim S262656 ![] bcast_S_S262656),
    binary main_v18 main_v24 main_v25 addi,
    ternary main_v23 main_v25 main_v18 main_v26 select,
    unary main_v26 main_v27 (broadcastInDim S262656x1 ![0] bcast_S262656_S262656x1_0),
    ternary main_v21 main_v27 main_v20 main_v28 (fun x i u => Host.scatterAdd scatter_S512_S262656x1_S262656_n_0_0_1 x i u),
    nullary main_cst_2 (constant S_ .f32 0x00000000#32),
    unary main_cst_2 main_v29 (broadcastInDim S512 ![] bcast_S_S512),
    binary main_v28 main_v29 main_v30 (cmpf .ogt),
    nullary main_cst_3 (constant S_ .f32 0xBF000000#32),
    unary main_cst_3 main_v31 (broadcastInDim S512 ![] bcast_S_S512),
    binary main_v28 main_v31 main_v32 Host.powf,
    nullary main_cst_4 (constant S_ .f32 0x00000000#32),
    TRef.unary (TRef.of (T := ⟨S_, .f32⟩) main_cst_4) (TRef.of (T := ⟨S_, .f32⟩) main_call0_v0) id,
    TRef.unary (TRef.of (T := ⟨S_, .f32⟩) main_call0_v0) (TRef.of (T := ⟨S512, .f32⟩) main_call0_v1) (broadcastInDim S512 ![] bcast_S_S512),
    TRef.ternary (TRef.of (T := ⟨S512, .i1⟩) main_v30) (TRef.of (T := ⟨S512, .f32⟩) main_v32) (TRef.of (T := ⟨S512, .f32⟩) main_call0_v1) (TRef.of (T := ⟨S512, .f32⟩) main_v33) select,
    nullary main_c_5 (constantI S_ 32 0#32),
    unary main_c_5 main_v34 (broadcastInDim S262656 ![] bcast_S_S262656),
    binary main_v15 main_v34 main_v35 (cmpi .slt),
    nullary main_c_6 (constantI S_ 32 512#32),
    unary main_c_6 main_v36 (broadcastInDim S262656 ![] bcast_S_S262656),
    binary main_v15 main_v36 main_v37 addi,
    ternary main_v35 main_v37 main_v15 main_v38 select,
    unary main_v38 main_v39 (broadcastInDim S262656x1 ![0] bcast_S262656_S262656x1_0),
    binary main_v33 main_v39 main_v40 (fun x i => Host.gather gather_S512_S262656x1_S262656_n_0_n_n_0_1_1 x i),
    binary main_v40 main_v20 main_v41 mulf,
    nullary main_c_7 (constantI S_ 32 0#32),
    unary main_c_7 main_v42 (broadcastInDim S262656 ![] bcast_S_S262656),
    binary main_v18 main_v42 main_v43 (cmpi .slt),
    nullary main_c_8 (constantI S_ 32 512#32),
    unary main_c_8 main_v44 (broadcastInDim S262656 ![] bcast_S_S262656),
    binary main_v18 main_v44 main_v45 addi,
    ternary main_v43 main_v45 main_v18 main_v46 select,
    unary main_v46 main_v47 (broadcastInDim S262656x1 ![0] bcast_S262656_S262656x1_0),
    binary main_v33 main_v47 main_v48 (fun x i => Host.gather gather_S512_S262656x1_S262656_n_0_n_n_0_1_1 x i),
    binary main_v41 main_v48 main_v49 mulf,
    binary main_v1 main_arg1 main_v50 (fun l r => Host.dotGeneral dot_S512x512_S512x128_S512x128_1_0_0_1_n_n none l r),
    nullary main_cst_9 (constant S_ .f32 0x00000000#32),
    unary main_cst_9 main_v51 (broadcastInDim S512x128 ![] bcast_S_S512x128),
    nullary main_c_10 (constantI S_ 32 0#32),
    unary main_c_10 main_v52 (broadcastInDim S262656 ![] bcast_S_S262656),
    binary main_v15 main_v52 main_v53 (cmpi .slt),
    nullary main_c_11 (constantI S_ 32 512#32),
    unary main_c_11 main_v54 (broadcastInDim S262656 ![] bcast_S_S262656),
    binary main_v15 main_v54 main_v55 addi,
    ternary main_v53 main_v55 main_v15 main_v56 select,
    unary main_v56 main_v57 (broadcastInDim S262656x1 ![0] bcast_S262656_S262656x1_0),
    binary main_v50 main_v57 main_v58 (fun x i => Host.gather gather_S512x128_S262656x1_S262656x128_1_0_n_n_0_1_1128 x i),
    unary main_v49 main_v59 (broadcastInDim S262656x1 ![0] bcast_S262656_S262656x1_0),
    unary main_v59 main_v60 (broadcastInDim S262656x128 ![0, 1] bcast_S262656x1_S262656x128_0_1),
    binary main_v58 main_v60 main_v61 mulf,
    nullary main_c_12 (constantI S_ 32 0#32),
    unary main_c_12 main_v62 (broadcastInDim S262656 ![] bcast_S_S262656),
    binary main_v18 main_v62 main_v63 (cmpi .slt),
    nullary main_c_13 (constantI S_ 32 512#32),
    unary main_c_13 main_v64 (broadcastInDim S262656 ![] bcast_S_S262656),
    binary main_v18 main_v64 main_v65 addi,
    ternary main_v63 main_v65 main_v18 main_v66 select,
    unary main_v66 main_v67 (broadcastInDim S262656x1 ![0] bcast_S262656_S262656x1_0),
    ternary main_v51 main_v67 main_v61 main_v68 (fun x i u => Host.scatterAdd scatter_S512x128_S262656x1_S262656x128_1_0_0_1 x i u),
    unary main_arg2 main_v69 (broadcastInDim S1x128 ![1] bcast_S128_S1x128_1),
    unary main_v69 main_v70 (broadcastInDim S512x128 ![0, 1] bcast_S1x128_S512x128_0_1),
    binary main_v68 main_v70 main_v71 addf ]

abbrev layA0_W : List (Ref sig .tc) := [main_v12, main_v13, main_v14, main_v15, main_v16, main_v17, main_v18, main_cst, main_v19, main_v20, main_cst_0, main_v21, main_c, main_v22, main_v23, main_c_1, main_v24, main_v25, main_v26, main_v27, main_v28, main_cst_2, main_v29, main_v30, main_cst_3, main_v31, main_v32, main_cst_4, main_call0_v0, main_call0_v1, main_v33, main_c_5, main_v34, main_v35, main_c_6, main_v36, main_v37, main_v38, main_v39, main_v40, main_v41, main_c_7, main_v42, main_v43, main_c_8, main_v44, main_v45, main_v46, main_v47, main_v48, main_v49, main_v50, main_cst_9, main_v51, main_c_10, main_v52, main_v53, main_c_11, main_v54, main_v55, main_v56, main_v57, main_v58, main_v59, main_v60, main_v61, main_c_12, main_v62, main_v63, main_c_13, main_v64, main_v65, main_v66, main_v67, main_v68, main_v69, main_v70, main_v71]

theorem layA0_ok : (layA0 : List (HloOp τ sig (Elt F))).Forall (Ok layA0_W) := by
  unfold layA0
  repeat' (first
    | exact ok_of (by simp only [nullary_bufs_sub, unary_bufs_sub, binary_bufs_sub, ternary_bufs_sub, quaternary_bufs_sub, reshape_bufs_sub,
        binaryIndexed_bufs_sub, nary_bufs_sub, unaryIndexed_bufs_sub]) rfl rfl (by decide)
    | refine ⟨?_, ?_⟩)

theorem layA0_writes : (layA0 : List (HloOp τ sig (Elt F))).Forall fun op => op.writes ⊆ (layA0_W.map (Proc.devRef (τ := τ) .tc)).toFinset :=
  writes_of layA0_ok

noncomputable def layB0 : List (HloOp τ sig (Elt F)) :=
  [ nullary main_v72 (iotaInDim S512 32 0),
    unary main_v10 main_v73 (extractStridedSlice S1x262144 ![0, 0] · slices_S2x262144_S1x262144_0_0),
    reshape main_v73 main_v74 rfl shapeCasts_S1x262144_S262144,
    binary main_v74 main_v72 main_v75 (fun a b => concatenate S262656 0 [⟨S262144, a⟩, ⟨S512, b⟩] concatenates_S262144_S512_S262656_d0),
    unary main_v10 main_v76 (extractStridedSlice S1x262144 ![1, 0] · slices_S2x262144_S1x262144_1_0),
    reshape main_v76 main_v77 rfl shapeCasts_S1x262144_S262144,
    binary main_v77 main_v72 main_v78 (fun a b => concatenate S262656 0 [⟨S262144, a⟩, ⟨S512, b⟩] concatenates_S262144_S512_S262656_d0),
    nullary main_cst_14 (constant S_ .f32 0x3F800000#32),
    unary main_cst_14 main_v79 (broadcastInDim S512 ![] bcast_S_S512),
    binary main_v11 main_v79 main_v80 (fun a b => concatenate S262656 0 [⟨S262144, a⟩, ⟨S512, b⟩] concatenates_S262144_S512_S262656_d0),
    nullary main_cst_15 (constant S_ .f32 0x00000000#32),
    unary main_cst_15 main_v81 (broadcastInDim S512 ![] bcast_S_S512),
    nullary main_c_16 (constantI S_ 32 0#32),
    unary main_c_16 main_v82 (broadcastInDim S262656 ![] bcast_S_S262656),
    binary main_v78 main_v82 main_v83 (cmpi .slt),
    nullary main_c_17 (constantI S_ 32 512#32),
    unary main_c_17 main_v84 (broadcastInDim S262656 ![] bcast_S_S262656),
    binary main_v78 main_v84 main_v85 addi,
    ternary main_v83 main_v85 main_v78 main_v86 select,
    unary main_v86 main_v87 (broadcastInDim S262656x1 ![0] bcast_S262656_S262656x1_0),
    ternary main_v81 main_v87 main_v80 main_v88 (fun x i u => Host.scatterAdd scatter_S512_S262656x1_S262656_n_0_0_1 x i u),
    nullary main_cst_18 (constant S_ .f32 0x00000000#32),
    unary main_cst_18 main_v89 (broadcastInDim S512 ![] bcast_S_S512),
    binary main_v88 main_v89 main_v90 (cmpf .ogt),
    nullary main_cst_19 (constant S_ .f32 0xBF000000#32),
    unary main_cst_19 main_v91 (broadcastInDim S512 ![] bcast_S_S512),
    binary main_v88 main_v91 main_v92 Host.powf,
    nullary main_cst_20 (constant S_ .f32 0x00000000#32),
    TRef.unary (TRef.of (T := ⟨S_, .f32⟩) main_cst_20) (TRef.of (T := ⟨S_, .f32⟩) main_call1_v0) id,
    TRef.unary (TRef.of (T := ⟨S_, .f32⟩) main_call1_v0) (TRef.of (T := ⟨S512, .f32⟩) main_call1_v1) (broadcastInDim S512 ![] bcast_S_S512),
    TRef.ternary (TRef.of (T := ⟨S512, .i1⟩) main_v90) (TRef.of (T := ⟨S512, .f32⟩) main_v92) (TRef.of (T := ⟨S512, .f32⟩) main_call1_v1) (TRef.of (T := ⟨S512, .f32⟩) main_v93) select,
    nullary main_c_21 (constantI S_ 32 0#32),
    unary main_c_21 main_v94 (broadcastInDim S262656 ![] bcast_S_S262656),
    binary main_v75 main_v94 main_v95 (cmpi .slt),
    nullary main_c_22 (constantI S_ 32 512#32),
    unary main_c_22 main_v96 (broadcastInDim S262656 ![] bcast_S_S262656),
    binary main_v75 main_v96 main_v97 addi,
    ternary main_v95 main_v97 main_v75 main_v98 select,
    unary main_v98 main_v99 (broadcastInDim S262656x1 ![0] bcast_S262656_S262656x1_0),
    binary main_v93 main_v99 main_v100 (fun x i => Host.gather gather_S512_S262656x1_S262656_n_0_n_n_0_1_1 x i),
    binary main_v100 main_v80 main_v101 mulf,
    nullary main_c_23 (constantI S_ 32 0#32),
    unary main_c_23 main_v102 (broadcastInDim S262656 ![] bcast_S_S262656),
    binary main_v78 main_v102 main_v103 (cmpi .slt),
    nullary main_c_24 (constantI S_ 32 512#32),
    unary main_c_24 main_v104 (broadcastInDim S262656 ![] bcast_S_S262656),
    binary main_v78 main_v104 main_v105 addi,
    ternary main_v103 main_v105 main_v78 main_v106 select,
    unary main_v106 main_v107 (broadcastInDim S262656x1 ![0] bcast_S262656_S262656x1_0),
    binary main_v93 main_v107 main_v108 (fun x i => Host.gather gather_S512_S262656x1_S262656_n_0_n_n_0_1_1 x i),
    binary main_v101 main_v108 main_v109 mulf,
    binary main_v71 main_arg3 main_v110 (fun l r => Host.dotGeneral dot_S512x128_S128x256_S512x256_1_0_0_1_n_n none l r),
    nullary main_cst_25 (constant S_ .f32 0x00000000#32),
    unary main_cst_25 main_v111 (broadcastInDim S512x256 ![] bcast_S_S512x256),
    nullary main_c_26 (constantI S_ 32 0#32),
    unary main_c_26 main_v112 (broadcastInDim S262656 ![] bcast_S_S262656),
    binary main_v75 main_v112 main_v113 (cmpi .slt),
    nullary main_c_27 (constantI S_ 32 512#32),
    unary main_c_27 main_v114 (broadcastInDim S262656 ![] bcast_S_S262656),
    binary main_v75 main_v114 main_v115 addi,
    ternary main_v113 main_v115 main_v75 main_v116 select,
    unary main_v116 main_v117 (broadcastInDim S262656x1 ![0] bcast_S262656_S262656x1_0),
    binary main_v110 main_v117 main_v118 (fun x i => Host.gather gather_S512x256_S262656x1_S262656x256_1_0_n_n_0_1_1256 x i),
    unary main_v109 main_v119 (broadcastInDim S262656x1 ![0] bcast_S262656_S262656x1_0),
    unary main_v119 main_v120 (broadcastInDim S262656x256 ![0, 1] bcast_S262656x1_S262656x256_0_1),
    binary main_v118 main_v120 main_v121 mulf,
    nullary main_c_28 (constantI S_ 32 0#32),
    unary main_c_28 main_v122 (broadcastInDim S262656 ![] bcast_S_S262656),
    binary main_v78 main_v122 main_v123 (cmpi .slt),
    nullary main_c_29 (constantI S_ 32 512#32),
    unary main_c_29 main_v124 (broadcastInDim S262656 ![] bcast_S_S262656),
    binary main_v78 main_v124 main_v125 addi,
    ternary main_v123 main_v125 main_v78 main_v126 select,
    unary main_v126 main_v127 (broadcastInDim S262656x1 ![0] bcast_S262656_S262656x1_0),
    ternary main_v111 main_v127 main_v121 main_v128 (fun x i u => Host.scatterAdd scatter_S512x256_S262656x1_S262656x256_1_0_0_1 x i u),
    unary main_arg4 main_v129 (broadcastInDim S1x256 ![1] bcast_S256_S1x256_1),
    unary main_v129 main_v130 (broadcastInDim S512x256 ![0, 1] bcast_S1x256_S512x256_0_1),
    binary main_v128 main_v130 main_v131 addf ]

abbrev layB0_W : List (Ref sig .tc) := [main_v72, main_v73, main_v74, main_v75, main_v76, main_v77, main_v78, main_cst_14, main_v79, main_v80, main_cst_15, main_v81, main_c_16, main_v82, main_v83, main_c_17, main_v84, main_v85, main_v86, main_v87, main_v88, main_cst_18, main_v89, main_v90, main_cst_19, main_v91, main_v92, main_cst_20, main_call1_v0, main_call1_v1, main_v93, main_c_21, main_v94, main_v95, main_c_22, main_v96, main_v97, main_v98, main_v99, main_v100, main_v101, main_c_23, main_v102, main_v103, main_c_24, main_v104, main_v105, main_v106, main_v107, main_v108, main_v109, main_v110, main_cst_25, main_v111, main_c_26, main_v112, main_v113, main_c_27, main_v114, main_v115, main_v116, main_v117, main_v118, main_v119, main_v120, main_v121, main_c_28, main_v122, main_v123, main_c_29, main_v124, main_v125, main_v126, main_v127, main_v128, main_v129, main_v130, main_v131]

theorem layB0_ok : (layB0 : List (HloOp τ sig (Elt F))).Forall (Ok layB0_W) := by
  unfold layB0
  repeat' (first
    | exact ok_of (by simp only [nullary_bufs_sub, unary_bufs_sub, binary_bufs_sub, ternary_bufs_sub, quaternary_bufs_sub, reshape_bufs_sub,
        binaryIndexed_bufs_sub, nary_bufs_sub, unaryIndexed_bufs_sub]) rfl rfl (by decide)
    | refine ⟨?_, ?_⟩)

theorem layB0_writes : (layB0 : List (HloOp τ sig (Elt F))).Forall fun op => op.writes ⊆ (layB0_W.map (Proc.devRef (τ := τ) .tc)).toFinset :=
  writes_of layB0_ok

noncomputable def layC0 : List (HloOp τ sig (Elt F)) :=
  [ nullary main_v132 (iotaInDim S512 32 0),
    unary main_v10 main_v133 (extractStridedSlice S1x262144 ![0, 0] · slices_S2x262144_S1x262144_0_0),
    reshape main_v133 main_v134 rfl shapeCasts_S1x262144_S262144,
    binary main_v134 main_v132 main_v135 (fun a b => concatenate S262656 0 [⟨S262144, a⟩, ⟨S512, b⟩] concatenates_S262144_S512_S262656_d0),
    unary main_v10 main_v136 (extractStridedSlice S1x262144 ![1, 0] · slices_S2x262144_S1x262144_1_0),
    reshape main_v136 main_v137 rfl shapeCasts_S1x262144_S262144,
    binary main_v137 main_v132 main_v138 (fun a b => concatenate S262656 0 [⟨S262144, a⟩, ⟨S512, b⟩] concatenates_S262144_S512_S262656_d0),
    nullary main_cst_30 (constant S_ .f32 0x3F800000#32),
    unary main_cst_30 main_v139 (broadcastInDim S512 ![] bcast_S_S512),
    binary main_v11 main_v139 main_v140 (fun a b => concatenate S262656 0 [⟨S262144, a⟩, ⟨S512, b⟩] concatenates_S262144_S512_S262656_d0),
    nullary main_cst_31 (constant S_ .f32 0x00000000#32),
    unary main_cst_31 main_v141 (broadcastInDim S512 ![] bcast_S_S512),
    nullary main_c_32 (constantI S_ 32 0#32),
    unary main_c_32 main_v142 (broadcastInDim S262656 ![] bcast_S_S262656),
    binary main_v138 main_v142 main_v143 (cmpi .slt),
    nullary main_c_33 (constantI S_ 32 512#32),
    unary main_c_33 main_v144 (broadcastInDim S262656 ![] bcast_S_S262656),
    binary main_v138 main_v144 main_v145 addi,
    ternary main_v143 main_v145 main_v138 main_v146 select,
    unary main_v146 main_v147 (broadcastInDim S262656x1 ![0] bcast_S262656_S262656x1_0),
    ternary main_v141 main_v147 main_v140 main_v148 (fun x i u => Host.scatterAdd scatter_S512_S262656x1_S262656_n_0_0_1 x i u),
    nullary main_cst_34 (constant S_ .f32 0x00000000#32),
    unary main_cst_34 main_v149 (broadcastInDim S512 ![] bcast_S_S512),
    binary main_v148 main_v149 main_v150 (cmpf .ogt),
    nullary main_cst_35 (constant S_ .f32 0xBF000000#32),
    unary main_cst_35 main_v151 (broadcastInDim S512 ![] bcast_S_S512),
    binary main_v148 main_v151 main_v152 Host.powf,
    nullary main_cst_36 (constant S_ .f32 0x00000000#32),
    TRef.unary (TRef.of (T := ⟨S_, .f32⟩) main_cst_36) (TRef.of (T := ⟨S_, .f32⟩) main_call2_v0) id,
    TRef.unary (TRef.of (T := ⟨S_, .f32⟩) main_call2_v0) (TRef.of (T := ⟨S512, .f32⟩) main_call2_v1) (broadcastInDim S512 ![] bcast_S_S512),
    TRef.ternary (TRef.of (T := ⟨S512, .i1⟩) main_v150) (TRef.of (T := ⟨S512, .f32⟩) main_v152) (TRef.of (T := ⟨S512, .f32⟩) main_call2_v1) (TRef.of (T := ⟨S512, .f32⟩) main_v153) select,
    nullary main_c_37 (constantI S_ 32 0#32),
    unary main_c_37 main_v154 (broadcastInDim S262656 ![] bcast_S_S262656),
    binary main_v135 main_v154 main_v155 (cmpi .slt),
    nullary main_c_38 (constantI S_ 32 512#32),
    unary main_c_38 main_v156 (broadcastInDim S262656 ![] bcast_S_S262656),
    binary main_v135 main_v156 main_v157 addi,
    ternary main_v155 main_v157 main_v135 main_v158 select,
    unary main_v158 main_v159 (broadcastInDim S262656x1 ![0] bcast_S262656_S262656x1_0),
    binary main_v153 main_v159 main_v160 (fun x i => Host.gather gather_S512_S262656x1_S262656_n_0_n_n_0_1_1 x i),
    binary main_v160 main_v140 main_v161 mulf,
    nullary main_c_39 (constantI S_ 32 0#32),
    unary main_c_39 main_v162 (broadcastInDim S262656 ![] bcast_S_S262656),
    binary main_v138 main_v162 main_v163 (cmpi .slt),
    nullary main_c_40 (constantI S_ 32 512#32),
    unary main_c_40 main_v164 (broadcastInDim S262656 ![] bcast_S_S262656),
    binary main_v138 main_v164 main_v165 addi,
    ternary main_v163 main_v165 main_v138 main_v166 select,
    unary main_v166 main_v167 (broadcastInDim S262656x1 ![0] bcast_S262656_S262656x1_0),
    binary main_v153 main_v167 main_v168 (fun x i => Host.gather gather_S512_S262656x1_S262656_n_0_n_n_0_1_1 x i),
    binary main_v161 main_v168 main_v169 mulf,
    binary main_v131 main_arg5 main_v170 (fun l r => Host.dotGeneral dot_S512x256_S256x128_S512x128_1_0_0_1_n_n none l r),
    nullary main_cst_41 (constant S_ .f32 0x00000000#32),
    unary main_cst_41 main_v171 (broadcastInDim S512x128 ![] bcast_S_S512x128),
    nullary main_c_42 (constantI S_ 32 0#32),
    unary main_c_42 main_v172 (broadcastInDim S262656 ![] bcast_S_S262656),
    binary main_v135 main_v172 main_v173 (cmpi .slt),
    nullary main_c_43 (constantI S_ 32 512#32),
    unary main_c_43 main_v174 (broadcastInDim S262656 ![] bcast_S_S262656),
    binary main_v135 main_v174 main_v175 addi,
    ternary main_v173 main_v175 main_v135 main_v176 select,
    unary main_v176 main_v177 (broadcastInDim S262656x1 ![0] bcast_S262656_S262656x1_0),
    binary main_v170 main_v177 main_v178 (fun x i => Host.gather gather_S512x128_S262656x1_S262656x128_1_0_n_n_0_1_1128 x i),
    unary main_v169 main_v179 (broadcastInDim S262656x1 ![0] bcast_S262656_S262656x1_0),
    unary main_v179 main_v180 (broadcastInDim S262656x128 ![0, 1] bcast_S262656x1_S262656x128_0_1),
    binary main_v178 main_v180 main_v181 mulf,
    nullary main_c_44 (constantI S_ 32 0#32),
    unary main_c_44 main_v182 (broadcastInDim S262656 ![] bcast_S_S262656),
    binary main_v138 main_v182 main_v183 (cmpi .slt),
    nullary main_c_45 (constantI S_ 32 512#32),
    unary main_c_45 main_v184 (broadcastInDim S262656 ![] bcast_S_S262656),
    binary main_v138 main_v184 main_v185 addi,
    ternary main_v183 main_v185 main_v138 main_v186 select,
    unary main_v186 main_v187 (broadcastInDim S262656x1 ![0] bcast_S262656_S262656x1_0),
    ternary main_v171 main_v187 main_v181 main_v188 (fun x i u => Host.scatterAdd scatter_S512x128_S262656x1_S262656x128_1_0_0_1 x i u),
    unary main_arg6 main_v189 (broadcastInDim S1x128 ![1] bcast_S128_S1x128_1),
    unary main_v189 main_v190 (broadcastInDim S512x128 ![0, 1] bcast_S1x128_S512x128_0_1),
    binary main_v188 main_v190 main_v191 addf ]

abbrev layC0_W : List (Ref sig .tc) := [main_v132, main_v133, main_v134, main_v135, main_v136, main_v137, main_v138, main_cst_30, main_v139, main_v140, main_cst_31, main_v141, main_c_32, main_v142, main_v143, main_c_33, main_v144, main_v145, main_v146, main_v147, main_v148, main_cst_34, main_v149, main_v150, main_cst_35, main_v151, main_v152, main_cst_36, main_call2_v0, main_call2_v1, main_v153, main_c_37, main_v154, main_v155, main_c_38, main_v156, main_v157, main_v158, main_v159, main_v160, main_v161, main_c_39, main_v162, main_v163, main_c_40, main_v164, main_v165, main_v166, main_v167, main_v168, main_v169, main_v170, main_cst_41, main_v171, main_c_42, main_v172, main_v173, main_c_43, main_v174, main_v175, main_v176, main_v177, main_v178, main_v179, main_v180, main_v181, main_c_44, main_v182, main_v183, main_c_45, main_v184, main_v185, main_v186, main_v187, main_v188, main_v189, main_v190, main_v191]

theorem layC0_ok : (layC0 : List (HloOp τ sig (Elt F))).Forall (Ok layC0_W) := by
  unfold layC0
  repeat' (first
    | exact ok_of (by simp only [nullary_bufs_sub, unary_bufs_sub, binary_bufs_sub, ternary_bufs_sub, quaternary_bufs_sub, reshape_bufs_sub,
        binaryIndexed_bufs_sub, nary_bufs_sub, unaryIndexed_bufs_sub]) rfl rfl (by decide)
    | refine ⟨?_, ?_⟩)

theorem layC0_writes : (layC0 : List (HloOp τ sig (Elt F))).Forall fun op => op.writes ⊆ (layC0_W.map (Proc.devRef (τ := τ) .tc)).toFinset :=
  writes_of layC0_ok

noncomputable def pre1 : List (HloOp τ sig (Elt F)) :=
  [ unary main_arg0 main_v192 (extractStridedSlice S1x512x512 ![1, 0, 0] · slices_S4x512x512_S1x512x512_1_0_0),
    reshape main_v192 main_v193 rfl shapeCasts_S1x512x512_S512x512,
    nullary main_v194 (iotaInDim S512 32 0),
    unary main_v194 main_v195 (broadcastInDim S512x512 ![0] bcast_S512_S512x512_0),
    reshape main_v195 main_v196 rfl shapeCasts_S512x512_S262144,
    reshape main_v194 main_v197 rfl shapeCasts_S512_S1x512,
    unary main_v197 main_v198 (broadcastInDim S512x512 ![0, 1] bcast_S1x512_S512x512_0_1),
    reshape main_v198 main_v199 rfl shapeCasts_S512x512_S262144,
    unary main_v196 main_v200 (broadcastInDim S1x262144 ![1] bcast_S262144_S1x262144_1),
    unary main_v199 main_v201 (broadcastInDim S1x262144 ![1] bcast_S262144_S1x262144_1),
    binary main_v200 main_v201 main_v202 (fun a b => concatenate S2x262144 0 [⟨S1x262144, a⟩, ⟨S1x262144, b⟩] concatenates_S1x262144_S1x262144_S2x262144_d0),
    reshape main_v193 main_v203 rfl shapeCasts_S512x512_S262144 ]

abbrev pre1_W : List (Ref sig .tc) := [main_v192, main_v193, main_v194, main_v195, main_v196, main_v197, main_v198, main_v199, main_v200, main_v201, main_v202, main_v203]

theorem pre1_ok : (pre1 : List (HloOp τ sig (Elt F))).Forall (Ok pre1_W) := by
  unfold pre1
  repeat' (first
    | exact ok_of (by simp only [nullary_bufs_sub, unary_bufs_sub, binary_bufs_sub, ternary_bufs_sub, quaternary_bufs_sub, reshape_bufs_sub,
        binaryIndexed_bufs_sub, nary_bufs_sub, unaryIndexed_bufs_sub]) rfl rfl (by decide)
    | refine ⟨?_, ?_⟩)

theorem pre1_writes : (pre1 : List (HloOp τ sig (Elt F))).Forall fun op => op.writes ⊆ (pre1_W.map (Proc.devRef (τ := τ) .tc)).toFinset :=
  writes_of pre1_ok

noncomputable def layA1 : List (HloOp τ sig (Elt F)) :=
  [ nullary main_v204 (iotaInDim S512 32 0),
    unary main_v202 main_v205 (extractStridedSlice S1x262144 ![0, 0] · slices_S2x262144_S1x262144_0_0),
    reshape main_v205 main_v206 rfl shapeCasts_S1x262144_S262144,
    binary main_v206 main_v204 main_v207 (fun a b => concatenate S262656 0 [⟨S262144, a⟩, ⟨S512, b⟩] concatenates_S262144_S512_S262656_d0),
    unary main_v202 main_v208 (extractStridedSlice S1x262144 ![1, 0] · slices_S2x262144_S1x262144_1_0),
    reshape main_v208 main_v209 rfl shapeCasts_S1x262144_S262144,
    binary main_v209 main_v204 main_v210 (fun a b => concatenate S262656 0 [⟨S262144, a⟩, ⟨S512, b⟩] concatenates_S262144_S512_S262656_d0),
    nullary main_cst_46 (constant S_ .f32 0x3F800000#32),
    unary main_cst_46 main_v211 (broadcastInDim S512 ![] bcast_S_S512),
    binary main_v203 main_v211 main_v212 (fun a b => concatenate S262656 0 [⟨S262144, a⟩, ⟨S512, b⟩] concatenates_S262144_S512_S262656_d0),
    nullary main_cst_47 (constant S_ .f32 0x00000000#32),
    unary main_cst_47 main_v213 (broadcastInDim S512 ![] bcast_S_S512),
    nullary main_c_48 (constantI S_ 32 0#32),
    unary main_c_48 main_v214 (broadcastInDim S262656 ![] bcast_S_S262656),
    binary main_v210 main_v214 main_v215 (cmpi .slt),
    nullary main_c_49 (constantI S_ 32 512#32),
    unary main_c_49 main_v216 (broadcastInDim S262656 ![] bcast_S_S262656),
    binary main_v210 main_v216 main_v217 addi,
    ternary main_v215 main_v217 main_v210 main_v218 select,
    unary main_v218 main_v219 (broadcastInDim S262656x1 ![0] bcast_S262656_S262656x1_0),
    ternary main_v213 main_v219 main_v212 main_v220 (fun x i u => Host.scatterAdd scatter_S512_S262656x1_S262656_n_0_0_1 x i u),
    nullary main_cst_50 (constant S_ .f32 0x00000000#32),
    unary main_cst_50 main_v221 (broadcastInDim S512 ![] bcast_S_S512),
    binary main_v220 main_v221 main_v222 (cmpf .ogt),
    nullary main_cst_51 (constant S_ .f32 0xBF000000#32),
    unary main_cst_51 main_v223 (broadcastInDim S512 ![] bcast_S_S512),
    binary main_v220 main_v223 main_v224 Host.powf,
    nullary main_cst_52 (constant S_ .f32 0x00000000#32),
    TRef.unary (TRef.of (T := ⟨S_, .f32⟩) main_cst_52) (TRef.of (T := ⟨S_, .f32⟩) main_call3_v0) id,
    TRef.unary (TRef.of (T := ⟨S_, .f32⟩) main_call3_v0) (TRef.of (T := ⟨S512, .f32⟩) main_call3_v1) (broadcastInDim S512 ![] bcast_S_S512),
    TRef.ternary (TRef.of (T := ⟨S512, .i1⟩) main_v222) (TRef.of (T := ⟨S512, .f32⟩) main_v224) (TRef.of (T := ⟨S512, .f32⟩) main_call3_v1) (TRef.of (T := ⟨S512, .f32⟩) main_v225) select,
    nullary main_c_53 (constantI S_ 32 0#32),
    unary main_c_53 main_v226 (broadcastInDim S262656 ![] bcast_S_S262656),
    binary main_v207 main_v226 main_v227 (cmpi .slt),
    nullary main_c_54 (constantI S_ 32 512#32),
    unary main_c_54 main_v228 (broadcastInDim S262656 ![] bcast_S_S262656),
    binary main_v207 main_v228 main_v229 addi,
    ternary main_v227 main_v229 main_v207 main_v230 select,
    unary main_v230 main_v231 (broadcastInDim S262656x1 ![0] bcast_S262656_S262656x1_0),
    binary main_v225 main_v231 main_v232 (fun x i => Host.gather gather_S512_S262656x1_S262656_n_0_n_n_0_1_1 x i),
    binary main_v232 main_v212 main_v233 mulf,
    nullary main_c_55 (constantI S_ 32 0#32),
    unary main_c_55 main_v234 (broadcastInDim S262656 ![] bcast_S_S262656),
    binary main_v210 main_v234 main_v235 (cmpi .slt),
    nullary main_c_56 (constantI S_ 32 512#32),
    unary main_c_56 main_v236 (broadcastInDim S262656 ![] bcast_S_S262656),
    binary main_v210 main_v236 main_v237 addi,
    ternary main_v235 main_v237 main_v210 main_v238 select,
    unary main_v238 main_v239 (broadcastInDim S262656x1 ![0] bcast_S262656_S262656x1_0),
    binary main_v225 main_v239 main_v240 (fun x i => Host.gather gather_S512_S262656x1_S262656_n_0_n_n_0_1_1 x i),
    binary main_v233 main_v240 main_v241 mulf,
    binary main_v193 main_arg1 main_v242 (fun l r => Host.dotGeneral dot_S512x512_S512x128_S512x128_1_0_0_1_n_n none l r),
    nullary main_cst_57 (constant S_ .f32 0x00000000#32),
    unary main_cst_57 main_v243 (broadcastInDim S512x128 ![] bcast_S_S512x128),
    nullary main_c_58 (constantI S_ 32 0#32),
    unary main_c_58 main_v244 (broadcastInDim S262656 ![] bcast_S_S262656),
    binary main_v207 main_v244 main_v245 (cmpi .slt),
    nullary main_c_59 (constantI S_ 32 512#32),
    unary main_c_59 main_v246 (broadcastInDim S262656 ![] bcast_S_S262656),
    binary main_v207 main_v246 main_v247 addi,
    ternary main_v245 main_v247 main_v207 main_v248 select,
    unary main_v248 main_v249 (broadcastInDim S262656x1 ![0] bcast_S262656_S262656x1_0),
    binary main_v242 main_v249 main_v250 (fun x i => Host.gather gather_S512x128_S262656x1_S262656x128_1_0_n_n_0_1_1128 x i),
    unary main_v241 main_v251 (broadcastInDim S262656x1 ![0] bcast_S262656_S262656x1_0),
    unary main_v251 main_v252 (broadcastInDim S262656x128 ![0, 1] bcast_S262656x1_S262656x128_0_1),
    binary main_v250 main_v252 main_v253 mulf,
    nullary main_c_60 (constantI S_ 32 0#32),
    unary main_c_60 main_v254 (broadcastInDim S262656 ![] bcast_S_S262656),
    binary main_v210 main_v254 main_v255 (cmpi .slt),
    nullary main_c_61 (constantI S_ 32 512#32),
    unary main_c_61 main_v256 (broadcastInDim S262656 ![] bcast_S_S262656),
    binary main_v210 main_v256 main_v257 addi,
    ternary main_v255 main_v257 main_v210 main_v258 select,
    unary main_v258 main_v259 (broadcastInDim S262656x1 ![0] bcast_S262656_S262656x1_0),
    ternary main_v243 main_v259 main_v253 main_v260 (fun x i u => Host.scatterAdd scatter_S512x128_S262656x1_S262656x128_1_0_0_1 x i u),
    unary main_arg2 main_v261 (broadcastInDim S1x128 ![1] bcast_S128_S1x128_1),
    unary main_v261 main_v262 (broadcastInDim S512x128 ![0, 1] bcast_S1x128_S512x128_0_1),
    binary main_v260 main_v262 main_v263 addf ]

abbrev layA1_W : List (Ref sig .tc) := [main_v204, main_v205, main_v206, main_v207, main_v208, main_v209, main_v210, main_cst_46, main_v211, main_v212, main_cst_47, main_v213, main_c_48, main_v214, main_v215, main_c_49, main_v216, main_v217, main_v218, main_v219, main_v220, main_cst_50, main_v221, main_v222, main_cst_51, main_v223, main_v224, main_cst_52, main_call3_v0, main_call3_v1, main_v225, main_c_53, main_v226, main_v227, main_c_54, main_v228, main_v229, main_v230, main_v231, main_v232, main_v233, main_c_55, main_v234, main_v235, main_c_56, main_v236, main_v237, main_v238, main_v239, main_v240, main_v241, main_v242, main_cst_57, main_v243, main_c_58, main_v244, main_v245, main_c_59, main_v246, main_v247, main_v248, main_v249, main_v250, main_v251, main_v252, main_v253, main_c_60, main_v254, main_v255, main_c_61, main_v256, main_v257, main_v258, main_v259, main_v260, main_v261, main_v262, main_v263]

theorem layA1_ok : (layA1 : List (HloOp τ sig (Elt F))).Forall (Ok layA1_W) := by
  unfold layA1
  repeat' (first
    | exact ok_of (by simp only [nullary_bufs_sub, unary_bufs_sub, binary_bufs_sub, ternary_bufs_sub, quaternary_bufs_sub, reshape_bufs_sub,
        binaryIndexed_bufs_sub, nary_bufs_sub, unaryIndexed_bufs_sub]) rfl rfl (by decide)
    | refine ⟨?_, ?_⟩)

theorem layA1_writes : (layA1 : List (HloOp τ sig (Elt F))).Forall fun op => op.writes ⊆ (layA1_W.map (Proc.devRef (τ := τ) .tc)).toFinset :=
  writes_of layA1_ok

noncomputable def layB1 : List (HloOp τ sig (Elt F)) :=
  [ nullary main_v264 (iotaInDim S512 32 0),
    unary main_v202 main_v265 (extractStridedSlice S1x262144 ![0, 0] · slices_S2x262144_S1x262144_0_0),
    reshape main_v265 main_v266 rfl shapeCasts_S1x262144_S262144,
    binary main_v266 main_v264 main_v267 (fun a b => concatenate S262656 0 [⟨S262144, a⟩, ⟨S512, b⟩] concatenates_S262144_S512_S262656_d0),
    unary main_v202 main_v268 (extractStridedSlice S1x262144 ![1, 0] · slices_S2x262144_S1x262144_1_0),
    reshape main_v268 main_v269 rfl shapeCasts_S1x262144_S262144,
    binary main_v269 main_v264 main_v270 (fun a b => concatenate S262656 0 [⟨S262144, a⟩, ⟨S512, b⟩] concatenates_S262144_S512_S262656_d0),
    nullary main_cst_62 (constant S_ .f32 0x3F800000#32),
    unary main_cst_62 main_v271 (broadcastInDim S512 ![] bcast_S_S512),
    binary main_v203 main_v271 main_v272 (fun a b => concatenate S262656 0 [⟨S262144, a⟩, ⟨S512, b⟩] concatenates_S262144_S512_S262656_d0),
    nullary main_cst_63 (constant S_ .f32 0x00000000#32),
    unary main_cst_63 main_v273 (broadcastInDim S512 ![] bcast_S_S512),
    nullary main_c_64 (constantI S_ 32 0#32),
    unary main_c_64 main_v274 (broadcastInDim S262656 ![] bcast_S_S262656),
    binary main_v270 main_v274 main_v275 (cmpi .slt),
    nullary main_c_65 (constantI S_ 32 512#32),
    unary main_c_65 main_v276 (broadcastInDim S262656 ![] bcast_S_S262656),
    binary main_v270 main_v276 main_v277 addi,
    ternary main_v275 main_v277 main_v270 main_v278 select,
    unary main_v278 main_v279 (broadcastInDim S262656x1 ![0] bcast_S262656_S262656x1_0),
    ternary main_v273 main_v279 main_v272 main_v280 (fun x i u => Host.scatterAdd scatter_S512_S262656x1_S262656_n_0_0_1 x i u),
    nullary main_cst_66 (constant S_ .f32 0x00000000#32),
    unary main_cst_66 main_v281 (broadcastInDim S512 ![] bcast_S_S512),
    binary main_v280 main_v281 main_v282 (cmpf .ogt),
    nullary main_cst_67 (constant S_ .f32 0xBF000000#32),
    unary main_cst_67 main_v283 (broadcastInDim S512 ![] bcast_S_S512),
    binary main_v280 main_v283 main_v284 Host.powf,
    nullary main_cst_68 (constant S_ .f32 0x00000000#32),
    TRef.unary (TRef.of (T := ⟨S_, .f32⟩) main_cst_68) (TRef.of (T := ⟨S_, .f32⟩) main_call4_v0) id,
    TRef.unary (TRef.of (T := ⟨S_, .f32⟩) main_call4_v0) (TRef.of (T := ⟨S512, .f32⟩) main_call4_v1) (broadcastInDim S512 ![] bcast_S_S512),
    TRef.ternary (TRef.of (T := ⟨S512, .i1⟩) main_v282) (TRef.of (T := ⟨S512, .f32⟩) main_v284) (TRef.of (T := ⟨S512, .f32⟩) main_call4_v1) (TRef.of (T := ⟨S512, .f32⟩) main_v285) select,
    nullary main_c_69 (constantI S_ 32 0#32),
    unary main_c_69 main_v286 (broadcastInDim S262656 ![] bcast_S_S262656),
    binary main_v267 main_v286 main_v287 (cmpi .slt),
    nullary main_c_70 (constantI S_ 32 512#32),
    unary main_c_70 main_v288 (broadcastInDim S262656 ![] bcast_S_S262656),
    binary main_v267 main_v288 main_v289 addi,
    ternary main_v287 main_v289 main_v267 main_v290 select,
    unary main_v290 main_v291 (broadcastInDim S262656x1 ![0] bcast_S262656_S262656x1_0),
    binary main_v285 main_v291 main_v292 (fun x i => Host.gather gather_S512_S262656x1_S262656_n_0_n_n_0_1_1 x i),
    binary main_v292 main_v272 main_v293 mulf,
    nullary main_c_71 (constantI S_ 32 0#32),
    unary main_c_71 main_v294 (broadcastInDim S262656 ![] bcast_S_S262656),
    binary main_v270 main_v294 main_v295 (cmpi .slt),
    nullary main_c_72 (constantI S_ 32 512#32),
    unary main_c_72 main_v296 (broadcastInDim S262656 ![] bcast_S_S262656),
    binary main_v270 main_v296 main_v297 addi,
    ternary main_v295 main_v297 main_v270 main_v298 select,
    unary main_v298 main_v299 (broadcastInDim S262656x1 ![0] bcast_S262656_S262656x1_0),
    binary main_v285 main_v299 main_v300 (fun x i => Host.gather gather_S512_S262656x1_S262656_n_0_n_n_0_1_1 x i),
    binary main_v293 main_v300 main_v301 mulf,
    binary main_v263 main_arg3 main_v302 (fun l r => Host.dotGeneral dot_S512x128_S128x256_S512x256_1_0_0_1_n_n none l r),
    nullary main_cst_73 (constant S_ .f32 0x00000000#32),
    unary main_cst_73 main_v303 (broadcastInDim S512x256 ![] bcast_S_S512x256),
    nullary main_c_74 (constantI S_ 32 0#32),
    unary main_c_74 main_v304 (broadcastInDim S262656 ![] bcast_S_S262656),
    binary main_v267 main_v304 main_v305 (cmpi .slt),
    nullary main_c_75 (constantI S_ 32 512#32),
    unary main_c_75 main_v306 (broadcastInDim S262656 ![] bcast_S_S262656),
    binary main_v267 main_v306 main_v307 addi,
    ternary main_v305 main_v307 main_v267 main_v308 select,
    unary main_v308 main_v309 (broadcastInDim S262656x1 ![0] bcast_S262656_S262656x1_0),
    binary main_v302 main_v309 main_v310 (fun x i => Host.gather gather_S512x256_S262656x1_S262656x256_1_0_n_n_0_1_1256 x i),
    unary main_v301 main_v311 (broadcastInDim S262656x1 ![0] bcast_S262656_S262656x1_0),
    unary main_v311 main_v312 (broadcastInDim S262656x256 ![0, 1] bcast_S262656x1_S262656x256_0_1),
    binary main_v310 main_v312 main_v313 mulf,
    nullary main_c_76 (constantI S_ 32 0#32),
    unary main_c_76 main_v314 (broadcastInDim S262656 ![] bcast_S_S262656),
    binary main_v270 main_v314 main_v315 (cmpi .slt),
    nullary main_c_77 (constantI S_ 32 512#32),
    unary main_c_77 main_v316 (broadcastInDim S262656 ![] bcast_S_S262656),
    binary main_v270 main_v316 main_v317 addi,
    ternary main_v315 main_v317 main_v270 main_v318 select,
    unary main_v318 main_v319 (broadcastInDim S262656x1 ![0] bcast_S262656_S262656x1_0),
    ternary main_v303 main_v319 main_v313 main_v320 (fun x i u => Host.scatterAdd scatter_S512x256_S262656x1_S262656x256_1_0_0_1 x i u),
    unary main_arg4 main_v321 (broadcastInDim S1x256 ![1] bcast_S256_S1x256_1),
    unary main_v321 main_v322 (broadcastInDim S512x256 ![0, 1] bcast_S1x256_S512x256_0_1),
    binary main_v320 main_v322 main_v323 addf ]

abbrev layB1_W : List (Ref sig .tc) := [main_v264, main_v265, main_v266, main_v267, main_v268, main_v269, main_v270, main_cst_62, main_v271, main_v272, main_cst_63, main_v273, main_c_64, main_v274, main_v275, main_c_65, main_v276, main_v277, main_v278, main_v279, main_v280, main_cst_66, main_v281, main_v282, main_cst_67, main_v283, main_v284, main_cst_68, main_call4_v0, main_call4_v1, main_v285, main_c_69, main_v286, main_v287, main_c_70, main_v288, main_v289, main_v290, main_v291, main_v292, main_v293, main_c_71, main_v294, main_v295, main_c_72, main_v296, main_v297, main_v298, main_v299, main_v300, main_v301, main_v302, main_cst_73, main_v303, main_c_74, main_v304, main_v305, main_c_75, main_v306, main_v307, main_v308, main_v309, main_v310, main_v311, main_v312, main_v313, main_c_76, main_v314, main_v315, main_c_77, main_v316, main_v317, main_v318, main_v319, main_v320, main_v321, main_v322, main_v323]

theorem layB1_ok : (layB1 : List (HloOp τ sig (Elt F))).Forall (Ok layB1_W) := by
  unfold layB1
  repeat' (first
    | exact ok_of (by simp only [nullary_bufs_sub, unary_bufs_sub, binary_bufs_sub, ternary_bufs_sub, quaternary_bufs_sub, reshape_bufs_sub,
        binaryIndexed_bufs_sub, nary_bufs_sub, unaryIndexed_bufs_sub]) rfl rfl (by decide)
    | refine ⟨?_, ?_⟩)

theorem layB1_writes : (layB1 : List (HloOp τ sig (Elt F))).Forall fun op => op.writes ⊆ (layB1_W.map (Proc.devRef (τ := τ) .tc)).toFinset :=
  writes_of layB1_ok

noncomputable def layC1 : List (HloOp τ sig (Elt F)) :=
  [ nullary main_v324 (iotaInDim S512 32 0),
    unary main_v202 main_v325 (extractStridedSlice S1x262144 ![0, 0] · slices_S2x262144_S1x262144_0_0),
    reshape main_v325 main_v326 rfl shapeCasts_S1x262144_S262144,
    binary main_v326 main_v324 main_v327 (fun a b => concatenate S262656 0 [⟨S262144, a⟩, ⟨S512, b⟩] concatenates_S262144_S512_S262656_d0),
    unary main_v202 main_v328 (extractStridedSlice S1x262144 ![1, 0] · slices_S2x262144_S1x262144_1_0),
    reshape main_v328 main_v329 rfl shapeCasts_S1x262144_S262144,
    binary main_v329 main_v324 main_v330 (fun a b => concatenate S262656 0 [⟨S262144, a⟩, ⟨S512, b⟩] concatenates_S262144_S512_S262656_d0),
    nullary main_cst_78 (constant S_ .f32 0x3F800000#32),
    unary main_cst_78 main_v331 (broadcastInDim S512 ![] bcast_S_S512),
    binary main_v203 main_v331 main_v332 (fun a b => concatenate S262656 0 [⟨S262144, a⟩, ⟨S512, b⟩] concatenates_S262144_S512_S262656_d0),
    nullary main_cst_79 (constant S_ .f32 0x00000000#32),
    unary main_cst_79 main_v333 (broadcastInDim S512 ![] bcast_S_S512),
    nullary main_c_80 (constantI S_ 32 0#32),
    unary main_c_80 main_v334 (broadcastInDim S262656 ![] bcast_S_S262656),
    binary main_v330 main_v334 main_v335 (cmpi .slt),
    nullary main_c_81 (constantI S_ 32 512#32),
    unary main_c_81 main_v336 (broadcastInDim S262656 ![] bcast_S_S262656),
    binary main_v330 main_v336 main_v337 addi,
    ternary main_v335 main_v337 main_v330 main_v338 select,
    unary main_v338 main_v339 (broadcastInDim S262656x1 ![0] bcast_S262656_S262656x1_0),
    ternary main_v333 main_v339 main_v332 main_v340 (fun x i u => Host.scatterAdd scatter_S512_S262656x1_S262656_n_0_0_1 x i u),
    nullary main_cst_82 (constant S_ .f32 0x00000000#32),
    unary main_cst_82 main_v341 (broadcastInDim S512 ![] bcast_S_S512),
    binary main_v340 main_v341 main_v342 (cmpf .ogt),
    nullary main_cst_83 (constant S_ .f32 0xBF000000#32),
    unary main_cst_83 main_v343 (broadcastInDim S512 ![] bcast_S_S512),
    binary main_v340 main_v343 main_v344 Host.powf,
    nullary main_cst_84 (constant S_ .f32 0x00000000#32),
    TRef.unary (TRef.of (T := ⟨S_, .f32⟩) main_cst_84) (TRef.of (T := ⟨S_, .f32⟩) main_call5_v0) id,
    TRef.unary (TRef.of (T := ⟨S_, .f32⟩) main_call5_v0) (TRef.of (T := ⟨S512, .f32⟩) main_call5_v1) (broadcastInDim S512 ![] bcast_S_S512),
    TRef.ternary (TRef.of (T := ⟨S512, .i1⟩) main_v342) (TRef.of (T := ⟨S512, .f32⟩) main_v344) (TRef.of (T := ⟨S512, .f32⟩) main_call5_v1) (TRef.of (T := ⟨S512, .f32⟩) main_v345) select,
    nullary main_c_85 (constantI S_ 32 0#32),
    unary main_c_85 main_v346 (broadcastInDim S262656 ![] bcast_S_S262656),
    binary main_v327 main_v346 main_v347 (cmpi .slt),
    nullary main_c_86 (constantI S_ 32 512#32),
    unary main_c_86 main_v348 (broadcastInDim S262656 ![] bcast_S_S262656),
    binary main_v327 main_v348 main_v349 addi,
    ternary main_v347 main_v349 main_v327 main_v350 select,
    unary main_v350 main_v351 (broadcastInDim S262656x1 ![0] bcast_S262656_S262656x1_0),
    binary main_v345 main_v351 main_v352 (fun x i => Host.gather gather_S512_S262656x1_S262656_n_0_n_n_0_1_1 x i),
    binary main_v352 main_v332 main_v353 mulf,
    nullary main_c_87 (constantI S_ 32 0#32),
    unary main_c_87 main_v354 (broadcastInDim S262656 ![] bcast_S_S262656),
    binary main_v330 main_v354 main_v355 (cmpi .slt),
    nullary main_c_88 (constantI S_ 32 512#32),
    unary main_c_88 main_v356 (broadcastInDim S262656 ![] bcast_S_S262656),
    binary main_v330 main_v356 main_v357 addi,
    ternary main_v355 main_v357 main_v330 main_v358 select,
    unary main_v358 main_v359 (broadcastInDim S262656x1 ![0] bcast_S262656_S262656x1_0),
    binary main_v345 main_v359 main_v360 (fun x i => Host.gather gather_S512_S262656x1_S262656_n_0_n_n_0_1_1 x i),
    binary main_v353 main_v360 main_v361 mulf,
    binary main_v323 main_arg5 main_v362 (fun l r => Host.dotGeneral dot_S512x256_S256x128_S512x128_1_0_0_1_n_n none l r),
    nullary main_cst_89 (constant S_ .f32 0x00000000#32),
    unary main_cst_89 main_v363 (broadcastInDim S512x128 ![] bcast_S_S512x128),
    nullary main_c_90 (constantI S_ 32 0#32),
    unary main_c_90 main_v364 (broadcastInDim S262656 ![] bcast_S_S262656),
    binary main_v327 main_v364 main_v365 (cmpi .slt),
    nullary main_c_91 (constantI S_ 32 512#32),
    unary main_c_91 main_v366 (broadcastInDim S262656 ![] bcast_S_S262656),
    binary main_v327 main_v366 main_v367 addi,
    ternary main_v365 main_v367 main_v327 main_v368 select,
    unary main_v368 main_v369 (broadcastInDim S262656x1 ![0] bcast_S262656_S262656x1_0),
    binary main_v362 main_v369 main_v370 (fun x i => Host.gather gather_S512x128_S262656x1_S262656x128_1_0_n_n_0_1_1128 x i),
    unary main_v361 main_v371 (broadcastInDim S262656x1 ![0] bcast_S262656_S262656x1_0),
    unary main_v371 main_v372 (broadcastInDim S262656x128 ![0, 1] bcast_S262656x1_S262656x128_0_1),
    binary main_v370 main_v372 main_v373 mulf,
    nullary main_c_92 (constantI S_ 32 0#32),
    unary main_c_92 main_v374 (broadcastInDim S262656 ![] bcast_S_S262656),
    binary main_v330 main_v374 main_v375 (cmpi .slt),
    nullary main_c_93 (constantI S_ 32 512#32),
    unary main_c_93 main_v376 (broadcastInDim S262656 ![] bcast_S_S262656),
    binary main_v330 main_v376 main_v377 addi,
    ternary main_v375 main_v377 main_v330 main_v378 select,
    unary main_v378 main_v379 (broadcastInDim S262656x1 ![0] bcast_S262656_S262656x1_0),
    ternary main_v363 main_v379 main_v373 main_v380 (fun x i u => Host.scatterAdd scatter_S512x128_S262656x1_S262656x128_1_0_0_1 x i u),
    unary main_arg6 main_v381 (broadcastInDim S1x128 ![1] bcast_S128_S1x128_1),
    unary main_v381 main_v382 (broadcastInDim S512x128 ![0, 1] bcast_S1x128_S512x128_0_1),
    binary main_v380 main_v382 main_v383 addf ]

abbrev layC1_W : List (Ref sig .tc) := [main_v324, main_v325, main_v326, main_v327, main_v328, main_v329, main_v330, main_cst_78, main_v331, main_v332, main_cst_79, main_v333, main_c_80, main_v334, main_v335, main_c_81, main_v336, main_v337, main_v338, main_v339, main_v340, main_cst_82, main_v341, main_v342, main_cst_83, main_v343, main_v344, main_cst_84, main_call5_v0, main_call5_v1, main_v345, main_c_85, main_v346, main_v347, main_c_86, main_v348, main_v349, main_v350, main_v351, main_v352, main_v353, main_c_87, main_v354, main_v355, main_c_88, main_v356, main_v357, main_v358, main_v359, main_v360, main_v361, main_v362, main_cst_89, main_v363, main_c_90, main_v364, main_v365, main_c_91, main_v366, main_v367, main_v368, main_v369, main_v370, main_v371, main_v372, main_v373, main_c_92, main_v374, main_v375, main_c_93, main_v376, main_v377, main_v378, main_v379, main_v380, main_v381, main_v382, main_v383]

theorem layC1_ok : (layC1 : List (HloOp τ sig (Elt F))).Forall (Ok layC1_W) := by
  unfold layC1
  repeat' (first
    | exact ok_of (by simp only [nullary_bufs_sub, unary_bufs_sub, binary_bufs_sub, ternary_bufs_sub, quaternary_bufs_sub, reshape_bufs_sub,
        binaryIndexed_bufs_sub, nary_bufs_sub, unaryIndexed_bufs_sub]) rfl rfl (by decide)
    | refine ⟨?_, ?_⟩)

theorem layC1_writes : (layC1 : List (HloOp τ sig (Elt F))).Forall fun op => op.writes ⊆ (layC1_W.map (Proc.devRef (τ := τ) .tc)).toFinset :=
  writes_of layC1_ok

noncomputable def pre2 : List (HloOp τ sig (Elt F)) :=
  [ unary main_arg0 main_v384 (extractStridedSlice S1x512x512 ![2, 0, 0] · slices_S4x512x512_S1x512x512_2_0_0),
    reshape main_v384 main_v385 rfl shapeCasts_S1x512x512_S512x512,
    nullary main_v386 (iotaInDim S512 32 0),
    unary main_v386 main_v387 (broadcastInDim S512x512 ![0] bcast_S512_S512x512_0),
    reshape main_v387 main_v388 rfl shapeCasts_S512x512_S262144,
    reshape main_v386 main_v389 rfl shapeCasts_S512_S1x512,
    unary main_v389 main_v390 (broadcastInDim S512x512 ![0, 1] bcast_S1x512_S512x512_0_1),
    reshape main_v390 main_v391 rfl shapeCasts_S512x512_S262144,
    unary main_v388 main_v392 (broadcastInDim S1x262144 ![1] bcast_S262144_S1x262144_1),
    unary main_v391 main_v393 (broadcastInDim S1x262144 ![1] bcast_S262144_S1x262144_1),
    binary main_v392 main_v393 main_v394 (fun a b => concatenate S2x262144 0 [⟨S1x262144, a⟩, ⟨S1x262144, b⟩] concatenates_S1x262144_S1x262144_S2x262144_d0),
    reshape main_v385 main_v395 rfl shapeCasts_S512x512_S262144 ]

abbrev pre2_W : List (Ref sig .tc) := [main_v384, main_v385, main_v386, main_v387, main_v388, main_v389, main_v390, main_v391, main_v392, main_v393, main_v394, main_v395]

theorem pre2_ok : (pre2 : List (HloOp τ sig (Elt F))).Forall (Ok pre2_W) := by
  unfold pre2
  repeat' (first
    | exact ok_of (by simp only [nullary_bufs_sub, unary_bufs_sub, binary_bufs_sub, ternary_bufs_sub, quaternary_bufs_sub, reshape_bufs_sub,
        binaryIndexed_bufs_sub, nary_bufs_sub, unaryIndexed_bufs_sub]) rfl rfl (by decide)
    | refine ⟨?_, ?_⟩)

theorem pre2_writes : (pre2 : List (HloOp τ sig (Elt F))).Forall fun op => op.writes ⊆ (pre2_W.map (Proc.devRef (τ := τ) .tc)).toFinset :=
  writes_of pre2_ok

noncomputable def layA2 : List (HloOp τ sig (Elt F)) :=
  [ nullary main_v396 (iotaInDim S512 32 0),
    unary main_v394 main_v397 (extractStridedSlice S1x262144 ![0, 0] · slices_S2x262144_S1x262144_0_0),
    reshape main_v397 main_v398 rfl shapeCasts_S1x262144_S262144,
    binary main_v398 main_v396 main_v399 (fun a b => concatenate S262656 0 [⟨S262144, a⟩, ⟨S512, b⟩] concatenates_S262144_S512_S262656_d0),
    unary main_v394 main_v400 (extractStridedSlice S1x262144 ![1, 0] · slices_S2x262144_S1x262144_1_0),
    reshape main_v400 main_v401 rfl shapeCasts_S1x262144_S262144,
    binary main_v401 main_v396 main_v402 (fun a b => concatenate S262656 0 [⟨S262144, a⟩, ⟨S512, b⟩] concatenates_S262144_S512_S262656_d0),
    nullary main_cst_94 (constant S_ .f32 0x3F800000#32),
    unary main_cst_94 main_v403 (broadcastInDim S512 ![] bcast_S_S512),
    binary main_v395 main_v403 main_v404 (fun a b => concatenate S262656 0 [⟨S262144, a⟩, ⟨S512, b⟩] concatenates_S262144_S512_S262656_d0),
    nullary main_cst_95 (constant S_ .f32 0x00000000#32),
    unary main_cst_95 main_v405 (broadcastInDim S512 ![] bcast_S_S512),
    nullary main_c_96 (constantI S_ 32 0#32),
    unary main_c_96 main_v406 (broadcastInDim S262656 ![] bcast_S_S262656),
    binary main_v402 main_v406 main_v407 (cmpi .slt),
    nullary main_c_97 (constantI S_ 32 512#32),
    unary main_c_97 main_v408 (broadcastInDim S262656 ![] bcast_S_S262656),
    binary main_v402 main_v408 main_v409 addi,
    ternary main_v407 main_v409 main_v402 main_v410 select,
    unary main_v410 main_v411 (broadcastInDim S262656x1 ![0] bcast_S262656_S262656x1_0),
    ternary main_v405 main_v411 main_v404 main_v412 (fun x i u => Host.scatterAdd scatter_S512_S262656x1_S262656_n_0_0_1 x i u),
    nullary main_cst_98 (constant S_ .f32 0x00000000#32),
    unary main_cst_98 main_v413 (broadcastInDim S512 ![] bcast_S_S512),
    binary main_v412 main_v413 main_v414 (cmpf .ogt),
    nullary main_cst_99 (constant S_ .f32 0xBF000000#32),
    unary main_cst_99 main_v415 (broadcastInDim S512 ![] bcast_S_S512),
    binary main_v412 main_v415 main_v416 Host.powf,
    nullary main_cst_100 (constant S_ .f32 0x00000000#32),
    TRef.unary (TRef.of (T := ⟨S_, .f32⟩) main_cst_100) (TRef.of (T := ⟨S_, .f32⟩) main_call6_v0) id,
    TRef.unary (TRef.of (T := ⟨S_, .f32⟩) main_call6_v0) (TRef.of (T := ⟨S512, .f32⟩) main_call6_v1) (broadcastInDim S512 ![] bcast_S_S512),
    TRef.ternary (TRef.of (T := ⟨S512, .i1⟩) main_v414) (TRef.of (T := ⟨S512, .f32⟩) main_v416) (TRef.of (T := ⟨S512, .f32⟩) main_call6_v1) (TRef.of (T := ⟨S512, .f32⟩) main_v417) select,
    nullary main_c_101 (constantI S_ 32 0#32),
    unary main_c_101 main_v418 (broadcastInDim S262656 ![] bcast_S_S262656),
    binary main_v399 main_v418 main_v419 (cmpi .slt),
    nullary main_c_102 (constantI S_ 32 512#32),
    unary main_c_102 main_v420 (broadcastInDim S262656 ![] bcast_S_S262656),
    binary main_v399 main_v420 main_v421 addi,
    ternary main_v419 main_v421 main_v399 main_v422 select,
    unary main_v422 main_v423 (broadcastInDim S262656x1 ![0] bcast_S262656_S262656x1_0),
    binary main_v417 main_v423 main_v424 (fun x i => Host.gather gather_S512_S262656x1_S262656_n_0_n_n_0_1_1 x i),
    binary main_v424 main_v404 main_v425 mulf,
    nullary main_c_103 (constantI S_ 32 0#32),
    unary main_c_103 main_v426 (broadcastInDim S262656 ![] bcast_S_S262656),
    binary main_v402 main_v426 main_v427 (cmpi .slt),
    nullary main_c_104 (constantI S_ 32 512#32),
    unary main_c_104 main_v428 (broadcastInDim S262656 ![] bcast_S_S262656),
    binary main_v402 main_v428 main_v429 addi,
    ternary main_v427 main_v429 main_v402 main_v430 select,
    unary main_v430 main_v431 (broadcastInDim S262656x1 ![0] bcast_S262656_S262656x1_0),
    binary main_v417 main_v431 main_v432 (fun x i => Host.gather gather_S512_S262656x1_S262656_n_0_n_n_0_1_1 x i),
    binary main_v425 main_v432 main_v433 mulf,
    binary main_v385 main_arg1 main_v434 (fun l r => Host.dotGeneral dot_S512x512_S512x128_S512x128_1_0_0_1_n_n none l r),
    nullary main_cst_105 (constant S_ .f32 0x00000000#32),
    unary main_cst_105 main_v435 (broadcastInDim S512x128 ![] bcast_S_S512x128),
    nullary main_c_106 (constantI S_ 32 0#32),
    unary main_c_106 main_v436 (broadcastInDim S262656 ![] bcast_S_S262656),
    binary main_v399 main_v436 main_v437 (cmpi .slt),
    nullary main_c_107 (constantI S_ 32 512#32),
    unary main_c_107 main_v438 (broadcastInDim S262656 ![] bcast_S_S262656),
    binary main_v399 main_v438 main_v439 addi,
    ternary main_v437 main_v439 main_v399 main_v440 select,
    unary main_v440 main_v441 (broadcastInDim S262656x1 ![0] bcast_S262656_S262656x1_0),
    binary main_v434 main_v441 main_v442 (fun x i => Host.gather gather_S512x128_S262656x1_S262656x128_1_0_n_n_0_1_1128 x i),
    unary main_v433 main_v443 (broadcastInDim S262656x1 ![0] bcast_S262656_S262656x1_0),
    unary main_v443 main_v444 (broadcastInDim S262656x128 ![0, 1] bcast_S262656x1_S262656x128_0_1),
    binary main_v442 main_v444 main_v445 mulf,
    nullary main_c_108 (constantI S_ 32 0#32),
    unary main_c_108 main_v446 (broadcastInDim S262656 ![] bcast_S_S262656),
    binary main_v402 main_v446 main_v447 (cmpi .slt),
    nullary main_c_109 (constantI S_ 32 512#32),
    unary main_c_109 main_v448 (broadcastInDim S262656 ![] bcast_S_S262656),
    binary main_v402 main_v448 main_v449 addi,
    ternary main_v447 main_v449 main_v402 main_v450 select,
    unary main_v450 main_v451 (broadcastInDim S262656x1 ![0] bcast_S262656_S262656x1_0),
    ternary main_v435 main_v451 main_v445 main_v452 (fun x i u => Host.scatterAdd scatter_S512x128_S262656x1_S262656x128_1_0_0_1 x i u),
    unary main_arg2 main_v453 (broadcastInDim S1x128 ![1] bcast_S128_S1x128_1),
    unary main_v453 main_v454 (broadcastInDim S512x128 ![0, 1] bcast_S1x128_S512x128_0_1),
    binary main_v452 main_v454 main_v455 addf ]

abbrev layA2_W : List (Ref sig .tc) := [main_v396, main_v397, main_v398, main_v399, main_v400, main_v401, main_v402, main_cst_94, main_v403, main_v404, main_cst_95, main_v405, main_c_96, main_v406, main_v407, main_c_97, main_v408, main_v409, main_v410, main_v411, main_v412, main_cst_98, main_v413, main_v414, main_cst_99, main_v415, main_v416, main_cst_100, main_call6_v0, main_call6_v1, main_v417, main_c_101, main_v418, main_v419, main_c_102, main_v420, main_v421, main_v422, main_v423, main_v424, main_v425, main_c_103, main_v426, main_v427, main_c_104, main_v428, main_v429, main_v430, main_v431, main_v432, main_v433, main_v434, main_cst_105, main_v435, main_c_106, main_v436, main_v437, main_c_107, main_v438, main_v439, main_v440, main_v441, main_v442, main_v443, main_v444, main_v445, main_c_108, main_v446, main_v447, main_c_109, main_v448, main_v449, main_v450, main_v451, main_v452, main_v453, main_v454, main_v455]

theorem layA2_ok : (layA2 : List (HloOp τ sig (Elt F))).Forall (Ok layA2_W) := by
  unfold layA2
  repeat' (first
    | exact ok_of (by simp only [nullary_bufs_sub, unary_bufs_sub, binary_bufs_sub, ternary_bufs_sub, quaternary_bufs_sub, reshape_bufs_sub,
        binaryIndexed_bufs_sub, nary_bufs_sub, unaryIndexed_bufs_sub]) rfl rfl (by decide)
    | refine ⟨?_, ?_⟩)

theorem layA2_writes : (layA2 : List (HloOp τ sig (Elt F))).Forall fun op => op.writes ⊆ (layA2_W.map (Proc.devRef (τ := τ) .tc)).toFinset :=
  writes_of layA2_ok

noncomputable def layB2 : List (HloOp τ sig (Elt F)) :=
  [ nullary main_v456 (iotaInDim S512 32 0),
    unary main_v394 main_v457 (extractStridedSlice S1x262144 ![0, 0] · slices_S2x262144_S1x262144_0_0),
    reshape main_v457 main_v458 rfl shapeCasts_S1x262144_S262144,
    binary main_v458 main_v456 main_v459 (fun a b => concatenate S262656 0 [⟨S262144, a⟩, ⟨S512, b⟩] concatenates_S262144_S512_S262656_d0),
    unary main_v394 main_v460 (extractStridedSlice S1x262144 ![1, 0] · slices_S2x262144_S1x262144_1_0),
    reshape main_v460 main_v461 rfl shapeCasts_S1x262144_S262144,
    binary main_v461 main_v456 main_v462 (fun a b => concatenate S262656 0 [⟨S262144, a⟩, ⟨S512, b⟩] concatenates_S262144_S512_S262656_d0),
    nullary main_cst_110 (constant S_ .f32 0x3F800000#32),
    unary main_cst_110 main_v463 (broadcastInDim S512 ![] bcast_S_S512),
    binary main_v395 main_v463 main_v464 (fun a b => concatenate S262656 0 [⟨S262144, a⟩, ⟨S512, b⟩] concatenates_S262144_S512_S262656_d0),
    nullary main_cst_111 (constant S_ .f32 0x00000000#32),
    unary main_cst_111 main_v465 (broadcastInDim S512 ![] bcast_S_S512),
    nullary main_c_112 (constantI S_ 32 0#32),
    unary main_c_112 main_v466 (broadcastInDim S262656 ![] bcast_S_S262656),
    binary main_v462 main_v466 main_v467 (cmpi .slt),
    nullary main_c_113 (constantI S_ 32 512#32),
    unary main_c_113 main_v468 (broadcastInDim S262656 ![] bcast_S_S262656),
    binary main_v462 main_v468 main_v469 addi,
    ternary main_v467 main_v469 main_v462 main_v470 select,
    unary main_v470 main_v471 (broadcastInDim S262656x1 ![0] bcast_S262656_S262656x1_0),
    ternary main_v465 main_v471 main_v464 main_v472 (fun x i u => Host.scatterAdd scatter_S512_S262656x1_S262656_n_0_0_1 x i u),
    nullary main_cst_114 (constant S_ .f32 0x00000000#32),
    unary main_cst_114 main_v473 (broadcastInDim S512 ![] bcast_S_S512),
    binary main_v472 main_v473 main_v474 (cmpf .ogt),
    nullary main_cst_115 (constant S_ .f32 0xBF000000#32),
    unary main_cst_115 main_v475 (broadcastInDim S512 ![] bcast_S_S512),
    binary main_v472 main_v475 main_v476 Host.powf,
    nullary main_cst_116 (constant S_ .f32 0x00000000#32),
    TRef.unary (TRef.of (T := ⟨S_, .f32⟩) main_cst_116) (TRef.of (T := ⟨S_, .f32⟩) main_call7_v0) id,
    TRef.unary (TRef.of (T := ⟨S_, .f32⟩) main_call7_v0) (TRef.of (T := ⟨S512, .f32⟩) main_call7_v1) (broadcastInDim S512 ![] bcast_S_S512),
    TRef.ternary (TRef.of (T := ⟨S512, .i1⟩) main_v474) (TRef.of (T := ⟨S512, .f32⟩) main_v476) (TRef.of (T := ⟨S512, .f32⟩) main_call7_v1) (TRef.of (T := ⟨S512, .f32⟩) main_v477) select,
    nullary main_c_117 (constantI S_ 32 0#32),
    unary main_c_117 main_v478 (broadcastInDim S262656 ![] bcast_S_S262656),
    binary main_v459 main_v478 main_v479 (cmpi .slt),
    nullary main_c_118 (constantI S_ 32 512#32),
    unary main_c_118 main_v480 (broadcastInDim S262656 ![] bcast_S_S262656),
    binary main_v459 main_v480 main_v481 addi,
    ternary main_v479 main_v481 main_v459 main_v482 select,
    unary main_v482 main_v483 (broadcastInDim S262656x1 ![0] bcast_S262656_S262656x1_0),
    binary main_v477 main_v483 main_v484 (fun x i => Host.gather gather_S512_S262656x1_S262656_n_0_n_n_0_1_1 x i),
    binary main_v484 main_v464 main_v485 mulf,
    nullary main_c_119 (constantI S_ 32 0#32),
    unary main_c_119 main_v486 (broadcastInDim S262656 ![] bcast_S_S262656),
    binary main_v462 main_v486 main_v487 (cmpi .slt),
    nullary main_c_120 (constantI S_ 32 512#32),
    unary main_c_120 main_v488 (broadcastInDim S262656 ![] bcast_S_S262656),
    binary main_v462 main_v488 main_v489 addi,
    ternary main_v487 main_v489 main_v462 main_v490 select,
    unary main_v490 main_v491 (broadcastInDim S262656x1 ![0] bcast_S262656_S262656x1_0),
    binary main_v477 main_v491 main_v492 (fun x i => Host.gather gather_S512_S262656x1_S262656_n_0_n_n_0_1_1 x i),
    binary main_v485 main_v492 main_v493 mulf,
    binary main_v455 main_arg3 main_v494 (fun l r => Host.dotGeneral dot_S512x128_S128x256_S512x256_1_0_0_1_n_n none l r),
    nullary main_cst_121 (constant S_ .f32 0x00000000#32),
    unary main_cst_121 main_v495 (broadcastInDim S512x256 ![] bcast_S_S512x256),
    nullary main_c_122 (constantI S_ 32 0#32),
    unary main_c_122 main_v496 (broadcastInDim S262656 ![] bcast_S_S262656),
    binary main_v459 main_v496 main_v497 (cmpi .slt),
    nullary main_c_123 (constantI S_ 32 512#32),
    unary main_c_123 main_v498 (broadcastInDim S262656 ![] bcast_S_S262656),
    binary main_v459 main_v498 main_v499 addi,
    ternary main_v497 main_v499 main_v459 main_v500 select,
    unary main_v500 main_v501 (broadcastInDim S262656x1 ![0] bcast_S262656_S262656x1_0),
    binary main_v494 main_v501 main_v502 (fun x i => Host.gather gather_S512x256_S262656x1_S262656x256_1_0_n_n_0_1_1256 x i),
    unary main_v493 main_v503 (broadcastInDim S262656x1 ![0] bcast_S262656_S262656x1_0),
    unary main_v503 main_v504 (broadcastInDim S262656x256 ![0, 1] bcast_S262656x1_S262656x256_0_1),
    binary main_v502 main_v504 main_v505 mulf,
    nullary main_c_124 (constantI S_ 32 0#32),
    unary main_c_124 main_v506 (broadcastInDim S262656 ![] bcast_S_S262656),
    binary main_v462 main_v506 main_v507 (cmpi .slt),
    nullary main_c_125 (constantI S_ 32 512#32),
    unary main_c_125 main_v508 (broadcastInDim S262656 ![] bcast_S_S262656),
    binary main_v462 main_v508 main_v509 addi,
    ternary main_v507 main_v509 main_v462 main_v510 select,
    unary main_v510 main_v511 (broadcastInDim S262656x1 ![0] bcast_S262656_S262656x1_0),
    ternary main_v495 main_v511 main_v505 main_v512 (fun x i u => Host.scatterAdd scatter_S512x256_S262656x1_S262656x256_1_0_0_1 x i u),
    unary main_arg4 main_v513 (broadcastInDim S1x256 ![1] bcast_S256_S1x256_1),
    unary main_v513 main_v514 (broadcastInDim S512x256 ![0, 1] bcast_S1x256_S512x256_0_1),
    binary main_v512 main_v514 main_v515 addf ]

abbrev layB2_W : List (Ref sig .tc) := [main_v456, main_v457, main_v458, main_v459, main_v460, main_v461, main_v462, main_cst_110, main_v463, main_v464, main_cst_111, main_v465, main_c_112, main_v466, main_v467, main_c_113, main_v468, main_v469, main_v470, main_v471, main_v472, main_cst_114, main_v473, main_v474, main_cst_115, main_v475, main_v476, main_cst_116, main_call7_v0, main_call7_v1, main_v477, main_c_117, main_v478, main_v479, main_c_118, main_v480, main_v481, main_v482, main_v483, main_v484, main_v485, main_c_119, main_v486, main_v487, main_c_120, main_v488, main_v489, main_v490, main_v491, main_v492, main_v493, main_v494, main_cst_121, main_v495, main_c_122, main_v496, main_v497, main_c_123, main_v498, main_v499, main_v500, main_v501, main_v502, main_v503, main_v504, main_v505, main_c_124, main_v506, main_v507, main_c_125, main_v508, main_v509, main_v510, main_v511, main_v512, main_v513, main_v514, main_v515]

theorem layB2_ok : (layB2 : List (HloOp τ sig (Elt F))).Forall (Ok layB2_W) := by
  unfold layB2
  repeat' (first
    | exact ok_of (by simp only [nullary_bufs_sub, unary_bufs_sub, binary_bufs_sub, ternary_bufs_sub, quaternary_bufs_sub, reshape_bufs_sub,
        binaryIndexed_bufs_sub, nary_bufs_sub, unaryIndexed_bufs_sub]) rfl rfl (by decide)
    | refine ⟨?_, ?_⟩)

theorem layB2_writes : (layB2 : List (HloOp τ sig (Elt F))).Forall fun op => op.writes ⊆ (layB2_W.map (Proc.devRef (τ := τ) .tc)).toFinset :=
  writes_of layB2_ok

noncomputable def layC2 : List (HloOp τ sig (Elt F)) :=
  [ nullary main_v516 (iotaInDim S512 32 0),
    unary main_v394 main_v517 (extractStridedSlice S1x262144 ![0, 0] · slices_S2x262144_S1x262144_0_0),
    reshape main_v517 main_v518 rfl shapeCasts_S1x262144_S262144,
    binary main_v518 main_v516 main_v519 (fun a b => concatenate S262656 0 [⟨S262144, a⟩, ⟨S512, b⟩] concatenates_S262144_S512_S262656_d0),
    unary main_v394 main_v520 (extractStridedSlice S1x262144 ![1, 0] · slices_S2x262144_S1x262144_1_0),
    reshape main_v520 main_v521 rfl shapeCasts_S1x262144_S262144,
    binary main_v521 main_v516 main_v522 (fun a b => concatenate S262656 0 [⟨S262144, a⟩, ⟨S512, b⟩] concatenates_S262144_S512_S262656_d0),
    nullary main_cst_126 (constant S_ .f32 0x3F800000#32),
    unary main_cst_126 main_v523 (broadcastInDim S512 ![] bcast_S_S512),
    binary main_v395 main_v523 main_v524 (fun a b => concatenate S262656 0 [⟨S262144, a⟩, ⟨S512, b⟩] concatenates_S262144_S512_S262656_d0),
    nullary main_cst_127 (constant S_ .f32 0x00000000#32),
    unary main_cst_127 main_v525 (broadcastInDim S512 ![] bcast_S_S512),
    nullary main_c_128 (constantI S_ 32 0#32),
    unary main_c_128 main_v526 (broadcastInDim S262656 ![] bcast_S_S262656),
    binary main_v522 main_v526 main_v527 (cmpi .slt),
    nullary main_c_129 (constantI S_ 32 512#32),
    unary main_c_129 main_v528 (broadcastInDim S262656 ![] bcast_S_S262656),
    binary main_v522 main_v528 main_v529 addi,
    ternary main_v527 main_v529 main_v522 main_v530 select,
    unary main_v530 main_v531 (broadcastInDim S262656x1 ![0] bcast_S262656_S262656x1_0),
    ternary main_v525 main_v531 main_v524 main_v532 (fun x i u => Host.scatterAdd scatter_S512_S262656x1_S262656_n_0_0_1 x i u),
    nullary main_cst_130 (constant S_ .f32 0x00000000#32),
    unary main_cst_130 main_v533 (broadcastInDim S512 ![] bcast_S_S512),
    binary main_v532 main_v533 main_v534 (cmpf .ogt),
    nullary main_cst_131 (constant S_ .f32 0xBF000000#32),
    unary main_cst_131 main_v535 (broadcastInDim S512 ![] bcast_S_S512),
    binary main_v532 main_v535 main_v536 Host.powf,
    nullary main_cst_132 (constant S_ .f32 0x00000000#32),
    TRef.unary (TRef.of (T := ⟨S_, .f32⟩) main_cst_132) (TRef.of (T := ⟨S_, .f32⟩) main_call8_v0) id,
    TRef.unary (TRef.of (T := ⟨S_, .f32⟩) main_call8_v0) (TRef.of (T := ⟨S512, .f32⟩) main_call8_v1) (broadcastInDim S512 ![] bcast_S_S512),
    TRef.ternary (TRef.of (T := ⟨S512, .i1⟩) main_v534) (TRef.of (T := ⟨S512, .f32⟩) main_v536) (TRef.of (T := ⟨S512, .f32⟩) main_call8_v1) (TRef.of (T := ⟨S512, .f32⟩) main_v537) select,
    nullary main_c_133 (constantI S_ 32 0#32),
    unary main_c_133 main_v538 (broadcastInDim S262656 ![] bcast_S_S262656),
    binary main_v519 main_v538 main_v539 (cmpi .slt),
    nullary main_c_134 (constantI S_ 32 512#32),
    unary main_c_134 main_v540 (broadcastInDim S262656 ![] bcast_S_S262656),
    binary main_v519 main_v540 main_v541 addi,
    ternary main_v539 main_v541 main_v519 main_v542 select,
    unary main_v542 main_v543 (broadcastInDim S262656x1 ![0] bcast_S262656_S262656x1_0),
    binary main_v537 main_v543 main_v544 (fun x i => Host.gather gather_S512_S262656x1_S262656_n_0_n_n_0_1_1 x i),
    binary main_v544 main_v524 main_v545 mulf,
    nullary main_c_135 (constantI S_ 32 0#32),
    unary main_c_135 main_v546 (broadcastInDim S262656 ![] bcast_S_S262656),
    binary main_v522 main_v546 main_v547 (cmpi .slt),
    nullary main_c_136 (constantI S_ 32 512#32),
    unary main_c_136 main_v548 (broadcastInDim S262656 ![] bcast_S_S262656),
    binary main_v522 main_v548 main_v549 addi,
    ternary main_v547 main_v549 main_v522 main_v550 select,
    unary main_v550 main_v551 (broadcastInDim S262656x1 ![0] bcast_S262656_S262656x1_0),
    binary main_v537 main_v551 main_v552 (fun x i => Host.gather gather_S512_S262656x1_S262656_n_0_n_n_0_1_1 x i),
    binary main_v545 main_v552 main_v553 mulf,
    binary main_v515 main_arg5 main_v554 (fun l r => Host.dotGeneral dot_S512x256_S256x128_S512x128_1_0_0_1_n_n none l r),
    nullary main_cst_137 (constant S_ .f32 0x00000000#32),
    unary main_cst_137 main_v555 (broadcastInDim S512x128 ![] bcast_S_S512x128),
    nullary main_c_138 (constantI S_ 32 0#32),
    unary main_c_138 main_v556 (broadcastInDim S262656 ![] bcast_S_S262656),
    binary main_v519 main_v556 main_v557 (cmpi .slt),
    nullary main_c_139 (constantI S_ 32 512#32),
    unary main_c_139 main_v558 (broadcastInDim S262656 ![] bcast_S_S262656),
    binary main_v519 main_v558 main_v559 addi,
    ternary main_v557 main_v559 main_v519 main_v560 select,
    unary main_v560 main_v561 (broadcastInDim S262656x1 ![0] bcast_S262656_S262656x1_0),
    binary main_v554 main_v561 main_v562 (fun x i => Host.gather gather_S512x128_S262656x1_S262656x128_1_0_n_n_0_1_1128 x i),
    unary main_v553 main_v563 (broadcastInDim S262656x1 ![0] bcast_S262656_S262656x1_0),
    unary main_v563 main_v564 (broadcastInDim S262656x128 ![0, 1] bcast_S262656x1_S262656x128_0_1),
    binary main_v562 main_v564 main_v565 mulf,
    nullary main_c_140 (constantI S_ 32 0#32),
    unary main_c_140 main_v566 (broadcastInDim S262656 ![] bcast_S_S262656),
    binary main_v522 main_v566 main_v567 (cmpi .slt),
    nullary main_c_141 (constantI S_ 32 512#32),
    unary main_c_141 main_v568 (broadcastInDim S262656 ![] bcast_S_S262656),
    binary main_v522 main_v568 main_v569 addi,
    ternary main_v567 main_v569 main_v522 main_v570 select,
    unary main_v570 main_v571 (broadcastInDim S262656x1 ![0] bcast_S262656_S262656x1_0),
    ternary main_v555 main_v571 main_v565 main_v572 (fun x i u => Host.scatterAdd scatter_S512x128_S262656x1_S262656x128_1_0_0_1 x i u),
    unary main_arg6 main_v573 (broadcastInDim S1x128 ![1] bcast_S128_S1x128_1),
    unary main_v573 main_v574 (broadcastInDim S512x128 ![0, 1] bcast_S1x128_S512x128_0_1),
    binary main_v572 main_v574 main_v575 addf ]

abbrev layC2_W : List (Ref sig .tc) := [main_v516, main_v517, main_v518, main_v519, main_v520, main_v521, main_v522, main_cst_126, main_v523, main_v524, main_cst_127, main_v525, main_c_128, main_v526, main_v527, main_c_129, main_v528, main_v529, main_v530, main_v531, main_v532, main_cst_130, main_v533, main_v534, main_cst_131, main_v535, main_v536, main_cst_132, main_call8_v0, main_call8_v1, main_v537, main_c_133, main_v538, main_v539, main_c_134, main_v540, main_v541, main_v542, main_v543, main_v544, main_v545, main_c_135, main_v546, main_v547, main_c_136, main_v548, main_v549, main_v550, main_v551, main_v552, main_v553, main_v554, main_cst_137, main_v555, main_c_138, main_v556, main_v557, main_c_139, main_v558, main_v559, main_v560, main_v561, main_v562, main_v563, main_v564, main_v565, main_c_140, main_v566, main_v567, main_c_141, main_v568, main_v569, main_v570, main_v571, main_v572, main_v573, main_v574, main_v575]

theorem layC2_ok : (layC2 : List (HloOp τ sig (Elt F))).Forall (Ok layC2_W) := by
  unfold layC2
  repeat' (first
    | exact ok_of (by simp only [nullary_bufs_sub, unary_bufs_sub, binary_bufs_sub, ternary_bufs_sub, quaternary_bufs_sub, reshape_bufs_sub,
        binaryIndexed_bufs_sub, nary_bufs_sub, unaryIndexed_bufs_sub]) rfl rfl (by decide)
    | refine ⟨?_, ?_⟩)

theorem layC2_writes : (layC2 : List (HloOp τ sig (Elt F))).Forall fun op => op.writes ⊆ (layC2_W.map (Proc.devRef (τ := τ) .tc)).toFinset :=
  writes_of layC2_ok

noncomputable def pre3 : List (HloOp τ sig (Elt F)) :=
  [ unary main_arg0 main_v576 (extractStridedSlice S1x512x512 ![3, 0, 0] · slices_S4x512x512_S1x512x512_3_0_0),
    reshape main_v576 main_v577 rfl shapeCasts_S1x512x512_S512x512,
    nullary main_v578 (iotaInDim S512 32 0),
    unary main_v578 main_v579 (broadcastInDim S512x512 ![0] bcast_S512_S512x512_0),
    reshape main_v579 main_v580 rfl shapeCasts_S512x512_S262144,
    reshape main_v578 main_v581 rfl shapeCasts_S512_S1x512,
    unary main_v581 main_v582 (broadcastInDim S512x512 ![0, 1] bcast_S1x512_S512x512_0_1),
    reshape main_v582 main_v583 rfl shapeCasts_S512x512_S262144,
    unary main_v580 main_v584 (broadcastInDim S1x262144 ![1] bcast_S262144_S1x262144_1),
    unary main_v583 main_v585 (broadcastInDim S1x262144 ![1] bcast_S262144_S1x262144_1),
    binary main_v584 main_v585 main_v586 (fun a b => concatenate S2x262144 0 [⟨S1x262144, a⟩, ⟨S1x262144, b⟩] concatenates_S1x262144_S1x262144_S2x262144_d0),
    reshape main_v577 main_v587 rfl shapeCasts_S512x512_S262144 ]

abbrev pre3_W : List (Ref sig .tc) := [main_v576, main_v577, main_v578, main_v579, main_v580, main_v581, main_v582, main_v583, main_v584, main_v585, main_v586, main_v587]

theorem pre3_ok : (pre3 : List (HloOp τ sig (Elt F))).Forall (Ok pre3_W) := by
  unfold pre3
  repeat' (first
    | exact ok_of (by simp only [nullary_bufs_sub, unary_bufs_sub, binary_bufs_sub, ternary_bufs_sub, quaternary_bufs_sub, reshape_bufs_sub,
        binaryIndexed_bufs_sub, nary_bufs_sub, unaryIndexed_bufs_sub]) rfl rfl (by decide)
    | refine ⟨?_, ?_⟩)

theorem pre3_writes : (pre3 : List (HloOp τ sig (Elt F))).Forall fun op => op.writes ⊆ (pre3_W.map (Proc.devRef (τ := τ) .tc)).toFinset :=
  writes_of pre3_ok

noncomputable def layA3 : List (HloOp τ sig (Elt F)) :=
  [ nullary main_v588 (iotaInDim S512 32 0),
    unary main_v586 main_v589 (extractStridedSlice S1x262144 ![0, 0] · slices_S2x262144_S1x262144_0_0),
    reshape main_v589 main_v590 rfl shapeCasts_S1x262144_S262144,
    binary main_v590 main_v588 main_v591 (fun a b => concatenate S262656 0 [⟨S262144, a⟩, ⟨S512, b⟩] concatenates_S262144_S512_S262656_d0),
    unary main_v586 main_v592 (extractStridedSlice S1x262144 ![1, 0] · slices_S2x262144_S1x262144_1_0),
    reshape main_v592 main_v593 rfl shapeCasts_S1x262144_S262144,
    binary main_v593 main_v588 main_v594 (fun a b => concatenate S262656 0 [⟨S262144, a⟩, ⟨S512, b⟩] concatenates_S262144_S512_S262656_d0),
    nullary main_cst_142 (constant S_ .f32 0x3F800000#32),
    unary main_cst_142 main_v595 (broadcastInDim S512 ![] bcast_S_S512),
    binary main_v587 main_v595 main_v596 (fun a b => concatenate S262656 0 [⟨S262144, a⟩, ⟨S512, b⟩] concatenates_S262144_S512_S262656_d0),
    nullary main_cst_143 (constant S_ .f32 0x00000000#32),
    unary main_cst_143 main_v597 (broadcastInDim S512 ![] bcast_S_S512),
    nullary main_c_144 (constantI S_ 32 0#32),
    unary main_c_144 main_v598 (broadcastInDim S262656 ![] bcast_S_S262656),
    binary main_v594 main_v598 main_v599 (cmpi .slt),
    nullary main_c_145 (constantI S_ 32 512#32),
    unary main_c_145 main_v600 (broadcastInDim S262656 ![] bcast_S_S262656),
    binary main_v594 main_v600 main_v601 addi,
    ternary main_v599 main_v601 main_v594 main_v602 select,
    unary main_v602 main_v603 (broadcastInDim S262656x1 ![0] bcast_S262656_S262656x1_0),
    ternary main_v597 main_v603 main_v596 main_v604 (fun x i u => Host.scatterAdd scatter_S512_S262656x1_S262656_n_0_0_1 x i u),
    nullary main_cst_146 (constant S_ .f32 0x00000000#32),
    unary main_cst_146 main_v605 (broadcastInDim S512 ![] bcast_S_S512),
    binary main_v604 main_v605 main_v606 (cmpf .ogt),
    nullary main_cst_147 (constant S_ .f32 0xBF000000#32),
    unary main_cst_147 main_v607 (broadcastInDim S512 ![] bcast_S_S512),
    binary main_v604 main_v607 main_v608 Host.powf,
    nullary main_cst_148 (constant S_ .f32 0x00000000#32),
    TRef.unary (TRef.of (T := ⟨S_, .f32⟩) main_cst_148) (TRef.of (T := ⟨S_, .f32⟩) main_call9_v0) id,
    TRef.unary (TRef.of (T := ⟨S_, .f32⟩) main_call9_v0) (TRef.of (T := ⟨S512, .f32⟩) main_call9_v1) (broadcastInDim S512 ![] bcast_S_S512),
    TRef.ternary (TRef.of (T := ⟨S512, .i1⟩) main_v606) (TRef.of (T := ⟨S512, .f32⟩) main_v608) (TRef.of (T := ⟨S512, .f32⟩) main_call9_v1) (TRef.of (T := ⟨S512, .f32⟩) main_v609) select,
    nullary main_c_149 (constantI S_ 32 0#32),
    unary main_c_149 main_v610 (broadcastInDim S262656 ![] bcast_S_S262656),
    binary main_v591 main_v610 main_v611 (cmpi .slt),
    nullary main_c_150 (constantI S_ 32 512#32),
    unary main_c_150 main_v612 (broadcastInDim S262656 ![] bcast_S_S262656),
    binary main_v591 main_v612 main_v613 addi,
    ternary main_v611 main_v613 main_v591 main_v614 select,
    unary main_v614 main_v615 (broadcastInDim S262656x1 ![0] bcast_S262656_S262656x1_0),
    binary main_v609 main_v615 main_v616 (fun x i => Host.gather gather_S512_S262656x1_S262656_n_0_n_n_0_1_1 x i),
    binary main_v616 main_v596 main_v617 mulf,
    nullary main_c_151 (constantI S_ 32 0#32),
    unary main_c_151 main_v618 (broadcastInDim S262656 ![] bcast_S_S262656),
    binary main_v594 main_v618 main_v619 (cmpi .slt),
    nullary main_c_152 (constantI S_ 32 512#32),
    unary main_c_152 main_v620 (broadcastInDim S262656 ![] bcast_S_S262656),
    binary main_v594 main_v620 main_v621 addi,
    ternary main_v619 main_v621 main_v594 main_v622 select,
    unary main_v622 main_v623 (broadcastInDim S262656x1 ![0] bcast_S262656_S262656x1_0),
    binary main_v609 main_v623 main_v624 (fun x i => Host.gather gather_S512_S262656x1_S262656_n_0_n_n_0_1_1 x i),
    binary main_v617 main_v624 main_v625 mulf,
    binary main_v577 main_arg1 main_v626 (fun l r => Host.dotGeneral dot_S512x512_S512x128_S512x128_1_0_0_1_n_n none l r),
    nullary main_cst_153 (constant S_ .f32 0x00000000#32),
    unary main_cst_153 main_v627 (broadcastInDim S512x128 ![] bcast_S_S512x128),
    nullary main_c_154 (constantI S_ 32 0#32),
    unary main_c_154 main_v628 (broadcastInDim S262656 ![] bcast_S_S262656),
    binary main_v591 main_v628 main_v629 (cmpi .slt),
    nullary main_c_155 (constantI S_ 32 512#32),
    unary main_c_155 main_v630 (broadcastInDim S262656 ![] bcast_S_S262656),
    binary main_v591 main_v630 main_v631 addi,
    ternary main_v629 main_v631 main_v591 main_v632 select,
    unary main_v632 main_v633 (broadcastInDim S262656x1 ![0] bcast_S262656_S262656x1_0),
    binary main_v626 main_v633 main_v634 (fun x i => Host.gather gather_S512x128_S262656x1_S262656x128_1_0_n_n_0_1_1128 x i),
    unary main_v625 main_v635 (broadcastInDim S262656x1 ![0] bcast_S262656_S262656x1_0),
    unary main_v635 main_v636 (broadcastInDim S262656x128 ![0, 1] bcast_S262656x1_S262656x128_0_1),
    binary main_v634 main_v636 main_v637 mulf,
    nullary main_c_156 (constantI S_ 32 0#32),
    unary main_c_156 main_v638 (broadcastInDim S262656 ![] bcast_S_S262656),
    binary main_v594 main_v638 main_v639 (cmpi .slt),
    nullary main_c_157 (constantI S_ 32 512#32),
    unary main_c_157 main_v640 (broadcastInDim S262656 ![] bcast_S_S262656),
    binary main_v594 main_v640 main_v641 addi,
    ternary main_v639 main_v641 main_v594 main_v642 select,
    unary main_v642 main_v643 (broadcastInDim S262656x1 ![0] bcast_S262656_S262656x1_0),
    ternary main_v627 main_v643 main_v637 main_v644 (fun x i u => Host.scatterAdd scatter_S512x128_S262656x1_S262656x128_1_0_0_1 x i u),
    unary main_arg2 main_v645 (broadcastInDim S1x128 ![1] bcast_S128_S1x128_1),
    unary main_v645 main_v646 (broadcastInDim S512x128 ![0, 1] bcast_S1x128_S512x128_0_1),
    binary main_v644 main_v646 main_v647 addf ]

abbrev layA3_W : List (Ref sig .tc) := [main_v588, main_v589, main_v590, main_v591, main_v592, main_v593, main_v594, main_cst_142, main_v595, main_v596, main_cst_143, main_v597, main_c_144, main_v598, main_v599, main_c_145, main_v600, main_v601, main_v602, main_v603, main_v604, main_cst_146, main_v605, main_v606, main_cst_147, main_v607, main_v608, main_cst_148, main_call9_v0, main_call9_v1, main_v609, main_c_149, main_v610, main_v611, main_c_150, main_v612, main_v613, main_v614, main_v615, main_v616, main_v617, main_c_151, main_v618, main_v619, main_c_152, main_v620, main_v621, main_v622, main_v623, main_v624, main_v625, main_v626, main_cst_153, main_v627, main_c_154, main_v628, main_v629, main_c_155, main_v630, main_v631, main_v632, main_v633, main_v634, main_v635, main_v636, main_v637, main_c_156, main_v638, main_v639, main_c_157, main_v640, main_v641, main_v642, main_v643, main_v644, main_v645, main_v646, main_v647]

theorem layA3_ok : (layA3 : List (HloOp τ sig (Elt F))).Forall (Ok layA3_W) := by
  unfold layA3
  repeat' (first
    | exact ok_of (by simp only [nullary_bufs_sub, unary_bufs_sub, binary_bufs_sub, ternary_bufs_sub, quaternary_bufs_sub, reshape_bufs_sub,
        binaryIndexed_bufs_sub, nary_bufs_sub, unaryIndexed_bufs_sub]) rfl rfl (by decide)
    | refine ⟨?_, ?_⟩)

theorem layA3_writes : (layA3 : List (HloOp τ sig (Elt F))).Forall fun op => op.writes ⊆ (layA3_W.map (Proc.devRef (τ := τ) .tc)).toFinset :=
  writes_of layA3_ok

noncomputable def layB3 : List (HloOp τ sig (Elt F)) :=
  [ nullary main_v648 (iotaInDim S512 32 0),
    unary main_v586 main_v649 (extractStridedSlice S1x262144 ![0, 0] · slices_S2x262144_S1x262144_0_0),
    reshape main_v649 main_v650 rfl shapeCasts_S1x262144_S262144,
    binary main_v650 main_v648 main_v651 (fun a b => concatenate S262656 0 [⟨S262144, a⟩, ⟨S512, b⟩] concatenates_S262144_S512_S262656_d0),
    unary main_v586 main_v652 (extractStridedSlice S1x262144 ![1, 0] · slices_S2x262144_S1x262144_1_0),
    reshape main_v652 main_v653 rfl shapeCasts_S1x262144_S262144,
    binary main_v653 main_v648 main_v654 (fun a b => concatenate S262656 0 [⟨S262144, a⟩, ⟨S512, b⟩] concatenates_S262144_S512_S262656_d0),
    nullary main_cst_158 (constant S_ .f32 0x3F800000#32),
    unary main_cst_158 main_v655 (broadcastInDim S512 ![] bcast_S_S512),
    binary main_v587 main_v655 main_v656 (fun a b => concatenate S262656 0 [⟨S262144, a⟩, ⟨S512, b⟩] concatenates_S262144_S512_S262656_d0),
    nullary main_cst_159 (constant S_ .f32 0x00000000#32),
    unary main_cst_159 main_v657 (broadcastInDim S512 ![] bcast_S_S512),
    nullary main_c_160 (constantI S_ 32 0#32),
    unary main_c_160 main_v658 (broadcastInDim S262656 ![] bcast_S_S262656),
    binary main_v654 main_v658 main_v659 (cmpi .slt),
    nullary main_c_161 (constantI S_ 32 512#32),
    unary main_c_161 main_v660 (broadcastInDim S262656 ![] bcast_S_S262656),
    binary main_v654 main_v660 main_v661 addi,
    ternary main_v659 main_v661 main_v654 main_v662 select,
    unary main_v662 main_v663 (broadcastInDim S262656x1 ![0] bcast_S262656_S262656x1_0),
    ternary main_v657 main_v663 main_v656 main_v664 (fun x i u => Host.scatterAdd scatter_S512_S262656x1_S262656_n_0_0_1 x i u),
    nullary main_cst_162 (constant S_ .f32 0x00000000#32),
    unary main_cst_162 main_v665 (broadcastInDim S512 ![] bcast_S_S512),
    binary main_v664 main_v665 main_v666 (cmpf .ogt),
    nullary main_cst_163 (constant S_ .f32 0xBF000000#32),
    unary main_cst_163 main_v667 (broadcastInDim S512 ![] bcast_S_S512),
    binary main_v664 main_v667 main_v668 Host.powf,
    nullary main_cst_164 (constant S_ .f32 0x00000000#32),
    TRef.unary (TRef.of (T := ⟨S_, .f32⟩) main_cst_164) (TRef.of (T := ⟨S_, .f32⟩) main_call10_v0) id,
    TRef.unary (TRef.of (T := ⟨S_, .f32⟩) main_call10_v0) (TRef.of (T := ⟨S512, .f32⟩) main_call10_v1) (broadcastInDim S512 ![] bcast_S_S512),
    TRef.ternary (TRef.of (T := ⟨S512, .i1⟩) main_v666) (TRef.of (T := ⟨S512, .f32⟩) main_v668) (TRef.of (T := ⟨S512, .f32⟩) main_call10_v1) (TRef.of (T := ⟨S512, .f32⟩) main_v669) select,
    nullary main_c_165 (constantI S_ 32 0#32),
    unary main_c_165 main_v670 (broadcastInDim S262656 ![] bcast_S_S262656),
    binary main_v651 main_v670 main_v671 (cmpi .slt),
    nullary main_c_166 (constantI S_ 32 512#32),
    unary main_c_166 main_v672 (broadcastInDim S262656 ![] bcast_S_S262656),
    binary main_v651 main_v672 main_v673 addi,
    ternary main_v671 main_v673 main_v651 main_v674 select,
    unary main_v674 main_v675 (broadcastInDim S262656x1 ![0] bcast_S262656_S262656x1_0),
    binary main_v669 main_v675 main_v676 (fun x i => Host.gather gather_S512_S262656x1_S262656_n_0_n_n_0_1_1 x i),
    binary main_v676 main_v656 main_v677 mulf,
    nullary main_c_167 (constantI S_ 32 0#32),
    unary main_c_167 main_v678 (broadcastInDim S262656 ![] bcast_S_S262656),
    binary main_v654 main_v678 main_v679 (cmpi .slt),
    nullary main_c_168 (constantI S_ 32 512#32),
    unary main_c_168 main_v680 (broadcastInDim S262656 ![] bcast_S_S262656),
    binary main_v654 main_v680 main_v681 addi,
    ternary main_v679 main_v681 main_v654 main_v682 select,
    unary main_v682 main_v683 (broadcastInDim S262656x1 ![0] bcast_S262656_S262656x1_0),
    binary main_v669 main_v683 main_v684 (fun x i => Host.gather gather_S512_S262656x1_S262656_n_0_n_n_0_1_1 x i),
    binary main_v677 main_v684 main_v685 mulf,
    binary main_v647 main_arg3 main_v686 (fun l r => Host.dotGeneral dot_S512x128_S128x256_S512x256_1_0_0_1_n_n none l r),
    nullary main_cst_169 (constant S_ .f32 0x00000000#32),
    unary main_cst_169 main_v687 (broadcastInDim S512x256 ![] bcast_S_S512x256),
    nullary main_c_170 (constantI S_ 32 0#32),
    unary main_c_170 main_v688 (broadcastInDim S262656 ![] bcast_S_S262656),
    binary main_v651 main_v688 main_v689 (cmpi .slt),
    nullary main_c_171 (constantI S_ 32 512#32),
    unary main_c_171 main_v690 (broadcastInDim S262656 ![] bcast_S_S262656),
    binary main_v651 main_v690 main_v691 addi,
    ternary main_v689 main_v691 main_v651 main_v692 select,
    unary main_v692 main_v693 (broadcastInDim S262656x1 ![0] bcast_S262656_S262656x1_0),
    binary main_v686 main_v693 main_v694 (fun x i => Host.gather gather_S512x256_S262656x1_S262656x256_1_0_n_n_0_1_1256 x i),
    unary main_v685 main_v695 (broadcastInDim S262656x1 ![0] bcast_S262656_S262656x1_0),
    unary main_v695 main_v696 (broadcastInDim S262656x256 ![0, 1] bcast_S262656x1_S262656x256_0_1),
    binary main_v694 main_v696 main_v697 mulf,
    nullary main_c_172 (constantI S_ 32 0#32),
    unary main_c_172 main_v698 (broadcastInDim S262656 ![] bcast_S_S262656),
    binary main_v654 main_v698 main_v699 (cmpi .slt),
    nullary main_c_173 (constantI S_ 32 512#32),
    unary main_c_173 main_v700 (broadcastInDim S262656 ![] bcast_S_S262656),
    binary main_v654 main_v700 main_v701 addi,
    ternary main_v699 main_v701 main_v654 main_v702 select,
    unary main_v702 main_v703 (broadcastInDim S262656x1 ![0] bcast_S262656_S262656x1_0),
    ternary main_v687 main_v703 main_v697 main_v704 (fun x i u => Host.scatterAdd scatter_S512x256_S262656x1_S262656x256_1_0_0_1 x i u),
    unary main_arg4 main_v705 (broadcastInDim S1x256 ![1] bcast_S256_S1x256_1),
    unary main_v705 main_v706 (broadcastInDim S512x256 ![0, 1] bcast_S1x256_S512x256_0_1),
    binary main_v704 main_v706 main_v707 addf ]

abbrev layB3_W : List (Ref sig .tc) := [main_v648, main_v649, main_v650, main_v651, main_v652, main_v653, main_v654, main_cst_158, main_v655, main_v656, main_cst_159, main_v657, main_c_160, main_v658, main_v659, main_c_161, main_v660, main_v661, main_v662, main_v663, main_v664, main_cst_162, main_v665, main_v666, main_cst_163, main_v667, main_v668, main_cst_164, main_call10_v0, main_call10_v1, main_v669, main_c_165, main_v670, main_v671, main_c_166, main_v672, main_v673, main_v674, main_v675, main_v676, main_v677, main_c_167, main_v678, main_v679, main_c_168, main_v680, main_v681, main_v682, main_v683, main_v684, main_v685, main_v686, main_cst_169, main_v687, main_c_170, main_v688, main_v689, main_c_171, main_v690, main_v691, main_v692, main_v693, main_v694, main_v695, main_v696, main_v697, main_c_172, main_v698, main_v699, main_c_173, main_v700, main_v701, main_v702, main_v703, main_v704, main_v705, main_v706, main_v707]

theorem layB3_ok : (layB3 : List (HloOp τ sig (Elt F))).Forall (Ok layB3_W) := by
  unfold layB3
  repeat' (first
    | exact ok_of (by simp only [nullary_bufs_sub, unary_bufs_sub, binary_bufs_sub, ternary_bufs_sub, quaternary_bufs_sub, reshape_bufs_sub,
        binaryIndexed_bufs_sub, nary_bufs_sub, unaryIndexed_bufs_sub]) rfl rfl (by decide)
    | refine ⟨?_, ?_⟩)

theorem layB3_writes : (layB3 : List (HloOp τ sig (Elt F))).Forall fun op => op.writes ⊆ (layB3_W.map (Proc.devRef (τ := τ) .tc)).toFinset :=
  writes_of layB3_ok

noncomputable def layC3 : List (HloOp τ sig (Elt F)) :=
  [ nullary main_v708 (iotaInDim S512 32 0),
    unary main_v586 main_v709 (extractStridedSlice S1x262144 ![0, 0] · slices_S2x262144_S1x262144_0_0),
    reshape main_v709 main_v710 rfl shapeCasts_S1x262144_S262144,
    binary main_v710 main_v708 main_v711 (fun a b => concatenate S262656 0 [⟨S262144, a⟩, ⟨S512, b⟩] concatenates_S262144_S512_S262656_d0),
    unary main_v586 main_v712 (extractStridedSlice S1x262144 ![1, 0] · slices_S2x262144_S1x262144_1_0),
    reshape main_v712 main_v713 rfl shapeCasts_S1x262144_S262144,
    binary main_v713 main_v708 main_v714 (fun a b => concatenate S262656 0 [⟨S262144, a⟩, ⟨S512, b⟩] concatenates_S262144_S512_S262656_d0),
    nullary main_cst_174 (constant S_ .f32 0x3F800000#32),
    unary main_cst_174 main_v715 (broadcastInDim S512 ![] bcast_S_S512),
    binary main_v587 main_v715 main_v716 (fun a b => concatenate S262656 0 [⟨S262144, a⟩, ⟨S512, b⟩] concatenates_S262144_S512_S262656_d0),
    nullary main_cst_175 (constant S_ .f32 0x00000000#32),
    unary main_cst_175 main_v717 (broadcastInDim S512 ![] bcast_S_S512),
    nullary main_c_176 (constantI S_ 32 0#32),
    unary main_c_176 main_v718 (broadcastInDim S262656 ![] bcast_S_S262656),
    binary main_v714 main_v718 main_v719 (cmpi .slt),
    nullary main_c_177 (constantI S_ 32 512#32),
    unary main_c_177 main_v720 (broadcastInDim S262656 ![] bcast_S_S262656),
    binary main_v714 main_v720 main_v721 addi,
    ternary main_v719 main_v721 main_v714 main_v722 select,
    unary main_v722 main_v723 (broadcastInDim S262656x1 ![0] bcast_S262656_S262656x1_0),
    ternary main_v717 main_v723 main_v716 main_v724 (fun x i u => Host.scatterAdd scatter_S512_S262656x1_S262656_n_0_0_1 x i u),
    nullary main_cst_178 (constant S_ .f32 0x00000000#32),
    unary main_cst_178 main_v725 (broadcastInDim S512 ![] bcast_S_S512),
    binary main_v724 main_v725 main_v726 (cmpf .ogt),
    nullary main_cst_179 (constant S_ .f32 0xBF000000#32),
    unary main_cst_179 main_v727 (broadcastInDim S512 ![] bcast_S_S512),
    binary main_v724 main_v727 main_v728 Host.powf,
    nullary main_cst_180 (constant S_ .f32 0x00000000#32),
    TRef.unary (TRef.of (T := ⟨S_, .f32⟩) main_cst_180) (TRef.of (T := ⟨S_, .f32⟩) main_call11_v0) id,
    TRef.unary (TRef.of (T := ⟨S_, .f32⟩) main_call11_v0) (TRef.of (T := ⟨S512, .f32⟩) main_call11_v1) (broadcastInDim S512 ![] bcast_S_S512),
    TRef.ternary (TRef.of (T := ⟨S512, .i1⟩) main_v726) (TRef.of (T := ⟨S512, .f32⟩) main_v728) (TRef.of (T := ⟨S512, .f32⟩) main_call11_v1) (TRef.of (T := ⟨S512, .f32⟩) main_v729) select,
    nullary main_c_181 (constantI S_ 32 0#32),
    unary main_c_181 main_v730 (broadcastInDim S262656 ![] bcast_S_S262656),
    binary main_v711 main_v730 main_v731 (cmpi .slt),
    nullary main_c_182 (constantI S_ 32 512#32),
    unary main_c_182 main_v732 (broadcastInDim S262656 ![] bcast_S_S262656),
    binary main_v711 main_v732 main_v733 addi,
    ternary main_v731 main_v733 main_v711 main_v734 select,
    unary main_v734 main_v735 (broadcastInDim S262656x1 ![0] bcast_S262656_S262656x1_0),
    binary main_v729 main_v735 main_v736 (fun x i => Host.gather gather_S512_S262656x1_S262656_n_0_n_n_0_1_1 x i),
    binary main_v736 main_v716 main_v737 mulf,
    nullary main_c_183 (constantI S_ 32 0#32),
    unary main_c_183 main_v738 (broadcastInDim S262656 ![] bcast_S_S262656),
    binary main_v714 main_v738 main_v739 (cmpi .slt),
    nullary main_c_184 (constantI S_ 32 512#32),
    unary main_c_184 main_v740 (broadcastInDim S262656 ![] bcast_S_S262656),
    binary main_v714 main_v740 main_v741 addi,
    ternary main_v739 main_v741 main_v714 main_v742 select,
    unary main_v742 main_v743 (broadcastInDim S262656x1 ![0] bcast_S262656_S262656x1_0),
    binary main_v729 main_v743 main_v744 (fun x i => Host.gather gather_S512_S262656x1_S262656_n_0_n_n_0_1_1 x i),
    binary main_v737 main_v744 main_v745 mulf,
    binary main_v707 main_arg5 main_v746 (fun l r => Host.dotGeneral dot_S512x256_S256x128_S512x128_1_0_0_1_n_n none l r),
    nullary main_cst_185 (constant S_ .f32 0x00000000#32),
    unary main_cst_185 main_v747 (broadcastInDim S512x128 ![] bcast_S_S512x128),
    nullary main_c_186 (constantI S_ 32 0#32),
    unary main_c_186 main_v748 (broadcastInDim S262656 ![] bcast_S_S262656),
    binary main_v711 main_v748 main_v749 (cmpi .slt),
    nullary main_c_187 (constantI S_ 32 512#32),
    unary main_c_187 main_v750 (broadcastInDim S262656 ![] bcast_S_S262656),
    binary main_v711 main_v750 main_v751 addi,
    ternary main_v749 main_v751 main_v711 main_v752 select,
    unary main_v752 main_v753 (broadcastInDim S262656x1 ![0] bcast_S262656_S262656x1_0),
    binary main_v746 main_v753 main_v754 (fun x i => Host.gather gather_S512x128_S262656x1_S262656x128_1_0_n_n_0_1_1128 x i),
    unary main_v745 main_v755 (broadcastInDim S262656x1 ![0] bcast_S262656_S262656x1_0),
    unary main_v755 main_v756 (broadcastInDim S262656x128 ![0, 1] bcast_S262656x1_S262656x128_0_1),
    binary main_v754 main_v756 main_v757 mulf,
    nullary main_c_188 (constantI S_ 32 0#32),
    unary main_c_188 main_v758 (broadcastInDim S262656 ![] bcast_S_S262656),
    binary main_v714 main_v758 main_v759 (cmpi .slt),
    nullary main_c_189 (constantI S_ 32 512#32),
    unary main_c_189 main_v760 (broadcastInDim S262656 ![] bcast_S_S262656),
    binary main_v714 main_v760 main_v761 addi,
    ternary main_v759 main_v761 main_v714 main_v762 select,
    unary main_v762 main_v763 (broadcastInDim S262656x1 ![0] bcast_S262656_S262656x1_0),
    ternary main_v747 main_v763 main_v757 main_v764 (fun x i u => Host.scatterAdd scatter_S512x128_S262656x1_S262656x128_1_0_0_1 x i u),
    unary main_arg6 main_v765 (broadcastInDim S1x128 ![1] bcast_S128_S1x128_1),
    unary main_v765 main_v766 (broadcastInDim S512x128 ![0, 1] bcast_S1x128_S512x128_0_1),
    binary main_v764 main_v766 main_v767 addf ]

abbrev layC3_W : List (Ref sig .tc) := [main_v708, main_v709, main_v710, main_v711, main_v712, main_v713, main_v714, main_cst_174, main_v715, main_v716, main_cst_175, main_v717, main_c_176, main_v718, main_v719, main_c_177, main_v720, main_v721, main_v722, main_v723, main_v724, main_cst_178, main_v725, main_v726, main_cst_179, main_v727, main_v728, main_cst_180, main_call11_v0, main_call11_v1, main_v729, main_c_181, main_v730, main_v731, main_c_182, main_v732, main_v733, main_v734, main_v735, main_v736, main_v737, main_c_183, main_v738, main_v739, main_c_184, main_v740, main_v741, main_v742, main_v743, main_v744, main_v745, main_v746, main_cst_185, main_v747, main_c_186, main_v748, main_v749, main_c_187, main_v750, main_v751, main_v752, main_v753, main_v754, main_v755, main_v756, main_v757, main_c_188, main_v758, main_v759, main_c_189, main_v760, main_v761, main_v762, main_v763, main_v764, main_v765, main_v766, main_v767]

theorem layC3_ok : (layC3 : List (HloOp τ sig (Elt F))).Forall (Ok layC3_W) := by
  unfold layC3
  repeat' (first
    | exact ok_of (by simp only [nullary_bufs_sub, unary_bufs_sub, binary_bufs_sub, ternary_bufs_sub, quaternary_bufs_sub, reshape_bufs_sub,
        binaryIndexed_bufs_sub, nary_bufs_sub, unaryIndexed_bufs_sub]) rfl rfl (by decide)
    | refine ⟨?_, ?_⟩)

theorem layC3_writes : (layC3 : List (HloOp τ sig (Elt F))).Forall fun op => op.writes ⊆ (layC3_W.map (Proc.devRef (τ := τ) .tc)).toFinset :=
  writes_of layC3_ok

noncomputable def stack : List (HloOp τ sig (Elt F)) :=
  [ unary main_v191 main_v768 (broadcastInDim S1x512x128 ![1, 2] bcast_S512x128_S1x512x128_1_2),
    unary main_v383 main_v769 (broadcastInDim S1x512x128 ![1, 2] bcast_S512x128_S1x512x128_1_2),
    unary main_v575 main_v770 (broadcastInDim S1x512x128 ![1, 2] bcast_S512x128_S1x512x128_1_2),
    unary main_v767 main_v771 (broadcastInDim S1x512x128 ![1, 2] bcast_S512x128_S1x512x128_1_2),
    nary ![main_v768, main_v769, main_v770, main_v771] main_v772 (fun u => concatenate S4x512x128 0 [⟨S1x512x128, u 0⟩, ⟨S1x512x128, u 1⟩, ⟨S1x512x128, u 2⟩, ⟨S1x512x128, u 3⟩] concatenates_S1x512x128_S1x512x128_S1x512x128_S1x512x128_S4x512x128_d0) ]

abbrev stack_W : List (Ref sig .tc) := [main_v768, main_v769, main_v770, main_v771, main_v772]

theorem stack_ok : (stack : List (HloOp τ sig (Elt F))).Forall (Ok stack_W) := by
  unfold stack
  repeat' (first
    | exact ok_of (by simp only [nullary_bufs_sub, unary_bufs_sub, binary_bufs_sub, ternary_bufs_sub, quaternary_bufs_sub, reshape_bufs_sub,
        binaryIndexed_bufs_sub, nary_bufs_sub, unaryIndexed_bufs_sub]) rfl rfl (by decide)
    | refine ⟨?_, ?_⟩)

theorem stack_writes : (stack : List (HloOp τ sig (Elt F))).Forall fun op => op.writes ⊆ (stack_W.map (Proc.devRef (τ := τ) .tc)).toFinset :=
  writes_of stack_ok

end Cert.ReferenceIdeal.RefOps

end
-- ==== Proof.RefStages.lean ====
import proofs.«148651_g6150393168184_cont_sun_c4_511_5_alg».proof.Proof.Gen.ReferenceIdeal

/-! The reference program's stages as pure functions of arrays. -/

noncomputable section

namespace Cert.ReferenceIdeal.Stages

open Cert.ReferenceIdeal Cert.ReferenceIdeal.Gen Idealize.ShloMosaic Idealize.ShloMosaic.TcCoe Idealize.SL.Sem

variable {F : FTy → Type} [FloatOps F]

def nodes : IVec S512 32 := iotaInDim S512 32 0

def edges : IVec S2x262144 32 :=
  concatenate S2x262144 0
    [⟨S1x262144, broadcastInDim S1x262144 ![1] bcast_S262144_S1x262144_1
        (shapeCast S262144 (broadcastInDim S512x512 ![0] bcast_S512_S512x512_0 nodes) shapeCasts_S512x512_S262144)⟩,
     ⟨S1x262144, broadcastInDim S1x262144 ![1] bcast_S262144_S1x262144_1
        (shapeCast S262144 (broadcastInDim S512x512 ![0, 1] bcast_S1x512_S512x512_0_1 (shapeCast S1x512 nodes shapeCasts_S512_S1x512))
          shapeCasts_S512x512_S262144)⟩]
    concatenates_S1x262144_S1x262144_S2x262144_d0

def graph0 (flows : FVec F S4x512x512 .f32) : FVec F S512x512 .f32 :=
  shapeCast S512x512 (extractStridedSlice S1x512x512 ![0, 0, 0] flows slices_S4x512x512_S1x512x512_0_0_0) shapeCasts_S1x512x512_S512x512

def graph1 (flows : FVec F S4x512x512 .f32) : FVec F S512x512 .f32 :=
  shapeCast S512x512 (extractStridedSlice S1x512x512 ![1, 0, 0] flows slices_S4x512x512_S1x512x512_1_0_0) shapeCasts_S1x512x512_S512x512

def graph2 (flows : FVec F S4x512x512 .f32) : FVec F S512x512 .f32 :=
  shapeCast S512x512 (extractStridedSlice S1x512x512 ![2, 0, 0] flows slices_S4x512x512_S1x512x512_2_0_0) shapeCasts_S1x512x512_S512x512

def graph3 (flows : FVec F S4x512x512 .f32) : FVec F S512x512 .f32 :=
  shapeCast S512x512 (extractStridedSlice S1x512x512 ![3, 0, 0] flows slices_S4x512x512_S1x512x512_3_0_0) shapeCasts_S1x512x512_S512x512

def flat (A : FVec F S512x512 .f32) : FVec F S262144 .f32 := shapeCast S262144 A shapeCasts_S512x512_S262144

def srcOf (E : IVec S2x262144 32) : IVec S262656 32 :=
  concatenate S262656 0
    [⟨S262144, shapeCast S262144 (extractStridedSlice S1x262144 ![0, 0] E slices_S2x262144_S1x262144_0_0) shapeCasts_S1x262144_S262144⟩,
     ⟨S512, nodes⟩] concatenates_S262144_S512_S262656_d0

def dstOf (E : IVec S2x262144 32) : IVec S262656 32 :=
  concatenate S262656 0
    [⟨S262144, shapeCast S262144 (extractStridedSlice S1x262144 ![1, 0] E slices_S2x262144_S1x262144_1_0) shapeCasts_S1x262144_S262144⟩,
     ⟨S512, nodes⟩] concatenates_S262144_S512_S262656_d0

def wts (ew : FVec F S262144 .f32) : FVec F S262656 .f32 :=
  concatenate S262656 0
    [⟨S262144, ew⟩, ⟨S512, broadcastInDim S512 ![] bcast_S_S512 (constant S_ .f32 0x3F800000#32)⟩] concatenates_S262144_S512_S262656_d0

def wrap (z : IVec S262656 32) : IVec S262656x1 32 :=
  broadcastInDim S262656x1 ![0] bcast_S262656_S262656x1_0
    (select (cmpi .slt z (broadcastInDim S262656 ![] bcast_S_S262656 (constantI S_ 32 0#32)))
      (addi z (broadcastInDim S262656 ![] bcast_S_S262656 (constantI S_ 32 512#32))) z)

def degs (E : IVec S2x262144 32) (ew : FVec F S262144 .f32) : FVec F S512 .f32 :=
  Host.scatterAdd scatter_S512_S262656x1_S262656_n_0_0_1
    (broadcastInDim S512 ![] bcast_S_S512 (constant S_ .f32 0x00000000#32)) (wrap (dstOf E)) (wts ew)

def dinvs (E : IVec S2x262144 32) (ew : FVec F S262144 .f32) : FVec F S512 .f32 :=
  select (cmpf .ogt (degs E ew) (broadcastInDim S512 ![] bcast_S_S512 (constant S_ .f32 0x00000000#32)))
    (Host.powf (degs E ew) (broadcastInDim S512 ![] bcast_S_S512 (constant S_ .f32 0xBF000000#32)))
    (broadcastInDim S512 ![] bcast_S_S512 (id (constant S_ .f32 0x00000000#32)))

def norms (E : IVec S2x262144 32) (ew : FVec F S262144 .f32) : FVec F S262656 .f32 :=
  mulf (mulf (Host.gather gather_S512_S262656x1_S262656_n_0_n_n_0_1_1 (dinvs E ew) (wrap (srcOf E))) (wts ew))
    (Host.gather gather_S512_S262656x1_S262656_n_0_n_n_0_1_1 (dinvs E ew) (wrap (dstOf E)))

def layerA (E : IVec S2x262144 32) (ew : FVec F S262144 .f32) (x : FVec F S512x512 .f32) (W : FVec F S512x128 .f32)
    (b : FVec F S128 .f32) : FVec F S512x128 .f32 :=
  addf
    (Host.scatterAdd scatter_S512x128_S262656x1_S262656x128_1_0_0_1
      (broadcastInDim S512x128 ![] bcast_S_S512x128 (constant S_ .f32 0x00000000#32)) (wrap (dstOf E))
      (mulf (Host.gather gather_S512x128_S262656x1_S262656x128_1_0_n_n_0_1_1128
              (Host.dotGeneral dot_S512x512_S512x128_S512x128_1_0_0_1_n_n none x W) (wrap (srcOf E)))
        (broadcastInDim S262656x128 ![0, 1] bcast_S262656x1_S262656x128_0_1
          (broadcastInDim S262656x1 ![0] bcast_S262656_S262656x1_0 (norms E ew)))))
    (broadcastInDim S512x128 ![0, 1] bcast_S1x128_S512x128_0_1 (broadcastInDim S1x128 ![1] bcast_S128_S1x128_1 b))

def layerB (E : IVec S2x262144 32) (ew : FVec F S262144 .f32) (x : FVec F S512x128 .f32) (W : FVec F S128x256 .f32)
    (b : FVec F S256 .f32) : FVec F S512x256 .f32 :=
  addf
    (Host.scatterAdd scatter_S512x256_S262656x1_S262656x256_1_0_0_1
      (broadcastInDim S512x256 ![] bcast_S_S512x256 (constant S_ .f32 0x00000000#32)) (wrap (dstOf E))
      (mulf (Host.gather gather_S512x256_S262656x1_S262656x256_1_0_n_n_0_1_1256
              (Host.dotGeneral dot_S512x128_S128x256_S512x256_1_0_0_1_n_n none x W) (wrap (srcOf E)))
        (broadcastInDim S262656x256 ![0, 1] bcast_S262656x1_S262656x256_0_1
          (broadcastInDim S262656x1 ![0] bcast_S262656_S262656x1_0 (norms E ew)))))
    (broadcastInDim S512x256 ![0, 1] bcast_S1x256_S512x256_0_1 (broadcastInDim S1x256 ![1] bcast_S256_S1x256_1 b))

def layerC (E : IVec S2x262144 32) (ew : FVec F S262144 .f32) (x : FVec F S512x256 .f32) (W : FVec F S256x128 .f32)
    (b : FVec F S128 .f32) : FVec F S512x128 .f32 :=
  addf
    (Host.scatterAdd scatter_S512x128_S262656x1_S262656x128_1_0_0_1
      (broadcastInDim S512x128 ![] bcast_S_S512x128 (constant S_ .f32 0x00000000#32)) (wrap (dstOf E))
      (mulf (Host.gather gather_S512x128_S262656x1_S262656x128_1_0_n_n_0_1_1128
              (Host.dotGeneral dot_S512x256_S256x128_S512x128_1_0_0_1_n_n none x W) (wrap (srcOf E)))
        (broadcastInDim S262656x128 ![0, 1] bcast_S262656x1_S262656x128_0_1
          (broadcastInDim S262656x1 ![0] bcast_S262656_S262656x1_0 (norms E ew)))))
    (broadcastInDim S512x128 ![0, 1] bcast_S1x128_S512x128_0_1 (broadcastInDim S1x128 ![1] bcast_S128_S1x128_1 b))

def net (A : FVec F S512x512 .f32) (W1 : FVec F S512x128 .f32) (b1 : FVec F S128 .f32) (W2 : FVec F S128x256 .f32)
    (b2 : FVec F S256 .f32) (W3 : FVec F S256x128 .f32) (b3 : FVec F S128 .f32) : FVec F S512x128 .f32 :=
  layerC edges (flat A) (layerB edges (flat A) (layerA edges (flat A) A W1 b1) W2 b2) W3 b3

def stacked (o0 o1 o2 o3 : FVec F S512x128 .f32) : FVec F S4x512x128 .f32 :=
  concatenate S4x512x128 0
    [⟨S1x512x128, broadcastInDim S1x512x128 ![1, 2] bcast_S512x128_S1x512x128_1_2 o0⟩,
     ⟨S1x512x128, broadcastInDim S1x512x128 ![1, 2] bcast_S512x128_S1x512x128_1_2 o1⟩,
     ⟨S1x512x128, broadcastInDim S1x512x128 ![1, 2] bcast_S512x128_S1x512x128_1_2 o2⟩,
     ⟨S1x512x128, broadcastInDim S1x512x128 ![1, 2] bcast_S512x128_S1x512x128_1_2 o3⟩]
    concatenates_S1x512x128_S1x512x128_S1x512x128_S1x512x128_S4x512x128_d0

def result (flows : FVec F S4x512x512 .f32) (W1 : FVec F S512x128 .f32) (b1 : FVec F S128 .f32) (W2 : FVec F S128x256 .f32)
    (b2 : FVec F S256 .f32) (W3 : FVec F S256x128 .f32) (b3 : FVec F S128 .f32) : FVec F S4x512x128 .f32 :=
  stacked (net (graph0 flows) W1 b1 W2 b2 W3 b3) (net (graph1 flows) W1 b1 W2 b2 W3 b3)
    (net (graph2 flows) W1 b1 W2 b2 W3 b3) (net (graph3 flows) W1 b1 W2 b2 W3 b3)

end Cert.ReferenceIdeal.Stages

end
-- ==== Proof.RefRunG0.lean ====
import proofs.«148651_g6150393168184_cont_sun_c4_511_5_alg».proof.Proof.RefOps
import proofs.«148651_g6150393168184_cont_sun_c4_511_5_alg».proof.Proof.RefStages

/-! Graph 0's four lists: what each leaves in its result buffer as a stage function of what it found, and hence what the four in a row leave in the third layer's. -/

noncomputable section

namespace Cert.ReferenceIdeal.RefRun

open Cert.ReferenceIdeal Cert.ReferenceIdeal.Gen Cert.ReferenceIdeal.RefOps Cert.ReferenceIdeal.Stages
open Idealize.ShloMosaic Idealize.ShloMosaic.TcCoe Idealize.SL.Sem Idealize.ShloMosaic.StableHlo

variable {F : FTy → Type} [FloatOps F]

theorem pre0_A (V : Valuation τ sig (Elt F)) :
    after pre0 V (Proc.devRef .tc main_v1) = graph0 (V (Proc.devRef .tc main_arg0)) := by
  simp only [pre0]
  after_results_simp <;> rfl

theorem pre0_E (V : Valuation τ sig (Elt F)) : after pre0 V (Proc.devRef .tc main_v10) = edges := by
  simp only [pre0]
  after_results_simp <;> rfl

theorem pre0_ew (V : Valuation τ sig (Elt F)) :
    after pre0 V (Proc.devRef .tc main_v11) = flat (graph0 (V (Proc.devRef .tc main_arg0))) := by
  simp only [pre0]
  after_results_simp <;> rfl

set_option maxHeartbeats 4000000 in
theorem layA0_out (V : Valuation τ sig (Elt F)) :
    after layA0 V (Proc.devRef .tc main_v71)
      = layerA (V (Proc.devRef .tc main_v10)) (V (Proc.devRef .tc main_v11)) (V (Proc.devRef .tc main_v1))
          (V (Proc.devRef .tc main_arg1)) (V (Proc.devRef .tc main_arg2)) := by
  simp only [layA0]
  after_results_simp <;> (try simp only [TRef.ofBuf, TRef.toBuf, cast_eq]) <;> rfl

set_option maxHeartbeats 4000000 in
theorem layB0_out (V : Valuation τ sig (Elt F)) :
    after layB0 V (Proc.devRef .tc main_v131)
      = layerB (V (Proc.devRef .tc main_v10)) (V (Proc.devRef .tc main_v11)) (V (Proc.devRef .tc main_v71))
          (V (Proc.devRef .tc main_arg3)) (V (Proc.devRef .tc main_arg4)) := by
  simp only [layB0]
  after_results_simp <;> (try simp only [TRef.ofBuf, TRef.toBuf, cast_eq]) <;> rfl

set_option maxHeartbeats 4000000 in
theorem layC0_out (V : Valuation τ sig (Elt F)) :
    after layC0 V (Proc.devRef .tc main_v191)
      = layerC (V (Proc.devRef .tc main_v10)) (V (Proc.devRef .tc main_v11)) (V (Proc.devRef .tc main_v131))
          (V (Proc.devRef .tc main_arg5)) (V (Proc.devRef .tc main_arg6)) := by
  simp only [layC0]
  after_results_simp <;> (try simp only [TRef.ofBuf, TRef.toBuf, cast_eq]) <;> rfl

/-- The edge list, the pairs' weights and the arguments pass through the layers' lists, so the third layer's result is
    the three layers of graph 0's weight matrix. -/
theorem graph0_out (V : Valuation τ sig (Elt F)) :
    after layC0 (after layB0 (after layA0 (after pre0 V))) (Proc.devRef .tc main_v191)
      = net (graph0 (V (Proc.devRef .tc main_arg0))) (V (Proc.devRef .tc main_arg1)) (V (Proc.devRef .tc main_arg2))
          (V (Proc.devRef .tc main_arg3)) (V (Proc.devRef .tc main_arg4)) (V (Proc.devRef .tc main_arg5))
          (V (Proc.devRef .tc main_arg6)) := by
  rw [layC0_out, layB0_out, layA0_out]
  simp (disch := decide) only [keep layB0_writes, keep layA0_writes, keep pre0_writes]
  rw [pre0_E, pre0_ew, pre0_A]
  rfl

end Cert.ReferenceIdeal.RefRun

end
-- ==== Proof.RefRunG1.lean ====
import proofs.«148651_g6150393168184_cont_sun_c4_511_5_alg».proof.Proof.RefOps
import proofs.«148651_g6150393168184_cont_sun_c4_511_5_alg».proof.Proof.RefStages

/-! Graph 1's four lists: what each leaves in its result buffer as a stage function of what it found, and hence what the four in a row leave in the third layer's. -/

noncomputable section

namespace Cert.ReferenceIdeal.RefRun

open Cert.ReferenceIdeal Cert.ReferenceIdeal.Gen Cert.ReferenceIdeal.RefOps Cert.ReferenceIdeal.Stages
open Idealize.ShloMosaic Idealize.ShloMosaic.TcCoe Idealize.SL.Sem Idealize.ShloMosaic.StableHlo

variable {F : FTy → Type} [FloatOps F]

theorem pre1_A (V : Valuation τ sig (Elt F)) :
    after pre1 V (Proc.devRef .tc main_v193) = graph1 (V (Proc.devRef .tc main_arg0)) := by
  simp only [pre1]
  after_results_simp <;> rfl

theorem pre1_E (V : Valuation τ sig (Elt F)) : after pre1 V (Proc.devRef .tc main_v202) = edges := by
  simp only [pre1]
  after_results_simp <;> rfl

theorem pre1_ew (V : Valuation τ sig (Elt F)) :
    after pre1 V (Proc.devRef .tc main_v203) = flat (graph1 (V (Proc.devRef .tc main_arg0))) := by
  simp only [pre1]
  after_results_simp <;> rfl

set_option maxHeartbeats 4000000 in
theorem layA1_out (V : Valuation τ sig (Elt F)) :
    after layA1 V (Proc.devRef .tc main_v263)
      = layerA (V (Proc.devRef .tc main_v202)) (V (Proc.devRef .tc main_v203)) (V (Proc.devRef .tc main_v193))
          (V (Proc.devRef .tc main_arg1)) (V (Proc.devRef .tc main_arg2)) := by
  simp only [layA1]
  after_results_simp <;> (try simp only [TRef.ofBuf, TRef.toBuf, cast_eq]) <;> rfl

set_option maxHeartbeats 4000000 in
theorem layB1_out (V : Valuation τ sig (Elt F)) :
    after layB1 V (Proc.devRef .tc main_v323)
      = layerB (V (Proc.devRef .tc main_v202)) (V (Proc.devRef .tc main_v203)) (V (Proc.devRef .tc main_v263))
          (V (Proc.devRef .tc main_arg3)) (V (Proc.devRef .tc main_arg4)) := by
  simp only [layB1]
  after_results_simp <;> (try simp only [TRef.ofBuf, TRef.toBuf, cast_eq]) <;> rfl

set_option maxHeartbeats 4000000 in
theorem layC1_out (V : Valuation τ sig (Elt F)) :
    after layC1 V (Proc.devRef .tc main_v383)
      = layerC (V (Proc.devRef .tc main_v202)) (V (Proc.devRef .tc main_v203)) (V (Proc.devRef .tc main_v323))
          (V (Proc.devRef .tc main_arg5)) (V (Proc.devRef .tc main_arg6)) := by
  simp only [layC1]
  after_results_simp <;> (try simp only [TRef.ofBuf, TRef.toBuf, cast_eq]) <;> rfl

/-- The edge list, the pairs' weights and the arguments pass through the layers' lists, so the third layer's result is
    the three layers of graph 1's weight matrix. -/
theorem graph1_out (V : Valuation τ sig (Elt F)) :
    after layC1 (after layB1 (after layA1 (after pre1 V))) (Proc.devRef .tc main_v383)
      = net (graph1 (V (Proc.devRef .tc main_arg0))) (V (Proc.devRef .tc main_arg1)) (V (Proc.devRef .tc main_arg2))
          (V (Proc.devRef .tc main_arg3)) (V (Proc.devRef .tc main_arg4)) (V (Proc.devRef .tc main_arg5))
          (V (Proc.devRef .tc main_arg6)) := by
  rw [layC1_out, layB1_out, layA1_out]
  simp (disch := decide) only [keep layB1_writes, keep layA1_writes, keep pre1_writes]
  rw [pre1_E, pre1_ew, pre1_A]
  rfl

end Cert.ReferenceIdeal.RefRun

end
-- ==== Proof.RefRunG2.lean ====
import proofs.«148651_g6150393168184_cont_sun_c4_511_5_alg».proof.Proof.RefOps
import proofs.«148651_g6150393168184_cont_sun_c4_511_5_alg».proof.Proof.RefStages

/-! Graph 2's four lists: what each leaves in its result buffer as a stage function of what it found, and hence what the four in a row leave in the third layer's. -/

noncomputable section

namespace Cert.ReferenceIdeal.RefRun

open Cert.ReferenceIdeal Cert.ReferenceIdeal.Gen Cert.ReferenceIdeal.RefOps Cert.ReferenceIdeal.Stages
open Idealize.ShloMosaic Idealize.ShloMosaic.TcCoe Idealize.SL.Sem Idealize.ShloMosaic.StableHlo

variable {F : FTy → Type} [FloatOps F]

theorem pre2_A (V : Valuation τ sig (Elt F)) :
    after pre2 V (Proc.devRef .tc main_v385) = graph2 (V (Proc.devRef .tc main_arg0)) := by
  simp only [pre2]
  after_results_simp <;> rfl

theorem pre2_E (V : Valuation τ sig (Elt F)) : after pre2 V (Proc.devRef .tc main_v394) = edges := by
  simp only [pre2]
  after_results_simp <;> rfl

theorem pre2_ew (V : Valuation τ sig (Elt F)) :
    after pre2 V (Proc.devRef .tc main_v395) = flat (graph2 (V (Proc.devRef .tc main_arg0))) := by
  simp only [pre2]
  after_results_simp <;> rfl

set_option maxHeartbeats 4000000 in
theorem layA2_out (V : Valuation τ sig (Elt F)) :
    after layA2 V (Proc.devRef .tc main_v455)
      = layerA (V (Proc.devRef .tc main_v394)) (V (Proc.devRef .tc main_v395)) (V (Proc.devRef .tc main_v385))
          (V (Proc.devRef .tc main_arg1)) (V (Proc.devRef .tc main_arg2)) := by
  simp only [layA2]
  after_results_simp <;> (try simp only [TRef.ofBuf, TRef.toBuf, cast_eq]) <;> rfl

set_option maxHeartbeats 4000000 in
theorem layB2_out (V : Valuation τ sig (Elt F)) :
    after layB2 V (Proc.devRef .tc main_v515)
      = layerB (V (Proc.devRef .tc main_v394)) (V (Proc.devRef .tc main_v395)) (V (Proc.devRef .tc main_v455))
          (V (Proc.devRef .tc main_arg3)) (V (Proc.devRef .tc main_arg4)) := by
  simp only [layB2]
  after_results_simp <;> (try simp only [TRef.ofBuf, TRef.toBuf, cast_eq]) <;> rfl

set_option maxHeartbeats 4000000 in
theorem layC2_out (V : Valuation τ sig (Elt F)) :
    after layC2 V (Proc.devRef .tc main_v575)
      = layerC (V (Proc.devRef .tc main_v394)) (V (Proc.devRef .tc main_v395)) (V (Proc.devRef .tc main_v515))
          (V (Proc.devRef .tc main_arg5)) (V (Proc.devRef .tc main_arg6)) := by
  simp only [layC2]
  after_results_simp <;> (try simp only [TRef.ofBuf, TRef.toBuf, cast_eq]) <;> rfl

/-- The edge list, the pairs' weights and the arguments pass through the layers' lists, so the third layer's result is
    the three layers of graph 2's weight matrix. -/
theorem graph2_out (V : Valuation τ sig (Elt F)) :
    after layC2 (after layB2 (after layA2 (after pre2 V))) (Proc.devRef .tc main_v575)
      = net (graph2 (V (Proc.devRef .tc main_arg0))) (V (Proc.devRef .tc main_arg1)) (V (Proc.devRef .tc main_arg2))
          (V (Proc.devRef .tc main_arg3)) (V (Proc.devRef .tc main_arg4)) (V (Proc.devRef .tc main_arg5))
          (V (Proc.devRef .tc main_arg6)) := by
  rw [layC2_out, layB2_out, layA2_out]
  simp (disch := decide) only [keep layB2_writes, keep layA2_writes, keep pre2_writes]
  rw [pre2_E, pre2_ew, pre2_A]
  rfl

end Cert.ReferenceIdeal.RefRun

end
-- ==== Proof.RefRunG3.lean ====
import proofs.«148651_g6150393168184_cont_sun_c4_511_5_alg».proof.Proof.RefOps
import proofs.«148651_g6150393168184_cont_sun_c4_511_5_alg».proof.Proof.RefStages

/-! Graph 3's four lists: what each leaves in its result buffer as a stage function of what it found, and hence what the four in a row leave in the third layer's. -/

noncomputable section

namespace Cert.ReferenceIdeal.RefRun

open Cert.ReferenceIdeal Cert.ReferenceIdeal.Gen Cert.ReferenceIdeal.RefOps Cert.ReferenceIdeal.Stages
open Idealize.ShloMosaic Idealize.ShloMosaic.TcCoe Idealize.SL.Sem Idealize.ShloMosaic.StableHlo

variable {F : FTy → Type} [FloatOps F]

theorem pre3_A (V : Valuation τ sig (Elt F)) :
    after pre3 V (Proc.devRef .tc main_v577) = graph3 (V (Proc.devRef .tc main_arg0)) := by
  simp only [pre3]
  after_results_simp <;> rfl

theorem pre3_E (V : Valuation τ sig (Elt F)) : after pre3 V (Proc.devRef .tc main_v586) = edges := by
  simp only [pre3]
  after_results_simp <;> rfl

theorem pre3_ew (V : Valuation τ sig (Elt F)) :
    after pre3 V (Proc.devRef .tc main_v587) = flat (graph3 (V (Proc.devRef .tc main_arg0))) := by
  simp only [pre3]
  after_results_simp <;> rfl

set_option maxHeartbeats 4000000 in
theorem layA3_out (V : Valuation τ sig (Elt F)) :
    after layA3 V (Proc.devRef .tc main_v647)
      = layerA (V (Proc.devRef .tc main_v586)) (V (Proc.devRef .tc main_v587)) (V (Proc.devRef .tc main_v577))
          (V (Proc.devRef .tc main_arg1)) (V (Proc.devRef .tc main_arg2)) := by
  simp only [layA3]
  after_results_simp <;> (try simp only [TRef.ofBuf, TRef.toBuf, cast_eq]) <;> rfl

set_option maxHeartbeats 4000000 in
theorem layB3_out (V : Valuation τ sig (Elt F)) :
    after layB3 V (Proc.devRef .tc main_v707)
      = layerB (V (Proc.devRef .tc main_v586)) (V (Proc.devRef .tc main_v587)) (V (Proc.devRef .tc main_v647))
          (V (Proc.devRef .tc main_arg3)) (V (Proc.devRef .tc main_arg4)) := by
  simp only [layB3]
  after_results_simp <;> (try simp only [TRef.ofBuf, TRef.toBuf, cast_eq]) <;> rfl

set_option maxHeartbeats 4000000 in
theorem layC3_out (V : Valuation τ sig (Elt F)) :
    after layC3 V (Proc.devRef .tc main_v767)
      = layerC (V (Proc.devRef .tc main_v586)) (V (Proc.devRef .tc main_v587)) (V (Proc.devRef .tc main_v707))
          (V (Proc.devRef .tc main_arg5)) (V (Proc.devRef .tc main_arg6)) := by
  simp only [layC3]
  after_results_simp <;> (try simp only [TRef.ofBuf, TRef.toBuf, cast_eq]) <;> rfl

/-- The edge list, the pairs' weights and the arguments pass through the layers' lists, so the third layer's result is
    the three layers of graph 3's weight matrix. -/
theorem graph3_out (V : Valuation τ sig (Elt F)) :
    after layC3 (after layB3 (after layA3 (after pre3 V))) (Proc.devRef .tc main_v767)
      = net (graph3 (V (Proc.devRef .tc main_arg0))) (V (Proc.devRef .tc main_arg1)) (V (Proc.devRef .tc main_arg2))
          (V (Proc.devRef .tc main_arg3)) (V (Proc.devRef .tc main_arg4)) (V (Proc.devRef .tc main_arg5))
          (V (Proc.devRef .tc main_arg6)) := by
  rw [layC3_out, layB3_out, layA3_out]
  simp (disch := decide) only [keep layB3_writes, keep layA3_writes, keep pre3_writes]
  rw [pre3_E, pre3_ew, pre3_A]
  rfl

end Cert.ReferenceIdeal.RefRun

end
-- ==== Proof.RefRun.lean ====
/-
  The reference program's run: every weakly fair execution of @main terminates, leaves the arguments as they were,
  and leaves in the result buffer the four graphs' three-layer results, stacked.
-/
import proofs.«148651_g6150393168184_cont_sun_c4_511_5_alg».proof.Proof.RefOps
import proofs.«148651_g6150393168184_cont_sun_c4_511_5_alg».proof.Proof.RefStages
import proofs.«148651_g6150393168184_cont_sun_c4_511_5_alg».proof.Proof.RefRunG0
import proofs.«148651_g6150393168184_cont_sun_c4_511_5_alg».proof.Proof.RefRunG1
import proofs.«148651_g6150393168184_cont_sun_c4_511_5_alg».proof.Proof.RefRunG2
import proofs.«148651_g6150393168184_cont_sun_c4_511_5_alg».proof.Proof.RefRunG3

noncomputable section

namespace Cert.ReferenceIdeal.RefRun

open Cert.ReferenceIdeal Cert.ReferenceIdeal.Gen Cert.ReferenceIdeal.RefOps Cert.ReferenceIdeal.Stages
open Idealize.ShloMosaic Idealize.ShloMosaic.TcCoe Idealize.SL.Sem Idealize.ShloMosaic.StableHlo

variable {F : FTy → Type} [FloatOps F]

/-- The program's operations, joint after joint. -/
@[irreducible] def allJ : List (HloOp τ sig (Elt F)) :=
  pre0 ++ layA0 ++ layB0 ++ layC0 ++ pre1 ++ layA1 ++ layB1 ++ layC1 ++ pre2 ++ layA2 ++ layB2 ++ layC2 ++ pre3 ++ layA3 ++ layB3 ++ layC3 ++ stack

theorem allJ_def : (allJ : List (HloOp τ sig (Elt F))) = pre0 ++ layA0 ++ layB0 ++ layC0 ++ pre1 ++ layA1 ++ layB1 ++ layC1 ++ pre2 ++ layA2 ++ layB2 ++ layC2 ++ pre3 ++ layA3 ++ layB3 ++ layC3 ++ stack := by
  unfold allJ; rfl

def W0 : List (HloOp τ sig (Elt F)) := pre0 ++ layA0.take 50
def W1 : List (HloOp τ sig (Elt F)) := layA0.drop 50 ++ layB0.take 34
def W2 : List (HloOp τ sig (Elt F)) := layB0.drop 34 ++ layC0.take 16
def W3 : List (HloOp τ sig (Elt F)) := layC0.drop 16
def W4 : List (HloOp τ sig (Elt F)) := pre1 ++ layA1.take 50
def W5 : List (HloOp τ sig (Elt F)) := layA1.drop 50 ++ layB1.take 34
def W6 : List (HloOp τ sig (Elt F)) := layB1.drop 34 ++ layC1.take 16
def W7 : List (HloOp τ sig (Elt F)) := layC1.drop 16
def W8 : List (HloOp τ sig (Elt F)) := pre2 ++ layA2.take 50
def W9 : List (HloOp τ sig (Elt F)) := layA2.drop 50 ++ layB2.take 34
def W10 : List (HloOp τ sig (Elt F)) := layB2.drop 34 ++ layC2.take 16
def W11 : List (HloOp τ sig (Elt F)) := layC2.drop 16
def W12 : List (HloOp τ sig (Elt F)) := pre3 ++ layA3.take 50
def W13 : List (HloOp τ sig (Elt F)) := layA3.drop 50 ++ layB3.take 34
def W14 : List (HloOp τ sig (Elt F)) := layB3.drop 34 ++ layC3.take 16
def W15 : List (HloOp τ sig (Elt F)) := layC3.drop 16
def W16 : List (HloOp τ sig (Elt F)) := stack

theorem main_part0_eq (c : Dev nD) : main_part0 (F := F) c = seq W0 := rfl
theorem main_part1_eq (c : Dev nD) : main_part1 (F := F) c = seq W1 := rfl
theorem main_part2_eq (c : Dev nD) : main_part2 (F := F) c = seq W2 := rfl
theorem main_part3_eq (c : Dev nD) : main_part3 (F := F) c = seq W3 := rfl
theorem main_part4_eq (c : Dev nD) : main_part4 (F := F) c = seq W4 := rfl
theorem main_part5_eq (c : Dev nD) : main_part5 (F := F) c = seq W5 := rfl
theorem main_part6_eq (c : Dev nD) : main_part6 (F := F) c = seq W6 := rfl
theorem main_part7_eq (c : Dev nD) : main_part7 (F := F) c = seq W7 := rfl
theorem main_part8_eq (c : Dev nD) : main_part8 (F := F) c = seq W8 := rfl
theorem main_part9_eq (c : Dev nD) : main_part9 (F := F) c = seq W9 := rfl
theorem main_part10_eq (c : Dev nD) : main_part10 (F := F) c = seq W10 := rfl
theorem main_part11_eq (c : Dev nD) : main_part11 (F := F) c = seq W11 := rfl
theorem main_part12_eq (c : Dev nD) : main_part12 (F := F) c = seq W12 := rfl
theorem main_part13_eq (c : Dev nD) : main_part13 (F := F) c = seq W13 := rfl
theorem main_part14_eq (c : Dev nD) : main_part14 (F := F) c = seq W14 := rfl
theorem main_part15_eq (c : Dev nD) : main_part15 (F := F) c = seq W15 := rfl
theorem main_part16_eq (c : Dev nD) : main_part16 (F := F) c = seq W16 := rfl

/-- A list cut in two, in front of another, is the list in front of the other. -/
theorem take_append_drop_append {α : Type} (n : Nat) (l x : List α) : l.take n ++ (l.drop n ++ x) = l ++ x := by
  rw [← List.append_assoc, List.take_append_drop]

/-- @main's seventeen printed windows are the joints' operations, cut at other places. -/
theorem main_eq (c : Dev nD) : main (F := F) c = seq allJ := by
  have e : (allJ : List (HloOp τ sig (Elt F))) = W0 ++ W1 ++ W2 ++ W3 ++ W4 ++ W5 ++ W6 ++ W7 ++ W8 ++ W9 ++ W10 ++ W11 ++ W12 ++ W13 ++ W14 ++ W15 ++ W16 := by
    rw [allJ_def]; simp only [W0, W1, W2, W3, W4, W5, W6, W7, W8, W9, W10, W11, W12, W13, W14, W15, W16, List.append_assoc, take_append_drop_append]
  rw [e]
  simp only [seq_append, bind_assoc, ← main_part0_eq c, ← main_part1_eq c, ← main_part2_eq c, ← main_part3_eq c, ← main_part4_eq c, ← main_part5_eq c, ← main_part6_eq c, ← main_part7_eq c, ← main_part8_eq c, ← main_part9_eq c, ← main_part10_eq c, ← main_part11_eq c, ← main_part12_eq c, ← main_part13_eq c, ← main_part14_eq c, ← main_part15_eq c, ← main_part16_eq c]
  rfl

theorem scopedRefs_eq : (Finset.univ.filter fun b : Ref sig .tc => b.isScoped) = ∅ := by decide +kernel
theorem scopedSems_eq : (Finset.univ.filter fun sm : SemLoc sig => sm.isScoped .tc) = ∅ := by decide +kernel

theorem allJ_ok : ∀ op ∈ (allJ : List (HloOp τ sig (Elt F))), op.bufs ⊆ tcRefs τ sig ∧ op.fresh = ∅ := by
  intro op h
  rw [allJ_def] at h; simp only [List.mem_append, or_assoc] at h
  rcases h with h | h | h | h | h | h | h | h | h | h | h | h | h | h | h | h | h
  exacts [ok_mem pre0_ok h, ok_mem layA0_ok h, ok_mem layB0_ok h, ok_mem layC0_ok h, ok_mem pre1_ok h, ok_mem layA1_ok h, ok_mem layB1_ok h, ok_mem layC1_ok h, ok_mem pre2_ok h, ok_mem layA2_ok h, ok_mem layB2_ok h, ok_mem layC2_ok h, ok_mem pre3_ok h, ok_mem layA3_ok h, ok_mem layB3_ok h, ok_mem layC3_ok h, ok_mem stack_ok h]

theorem allJ_sub : (allJ : List (HloOp τ sig (Elt F))).Forall fun op => op.bufs ⊆ tcRefs τ sig :=
  List.forall_iff_forall_mem.mpr fun op h => (allJ_ok op h).1

theorem after_app : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_app l₁ l₂]

theorem stack_out (V : Valuation τ sig (Elt F)) :
    after stack V (Proc.devRef .tc main_v772)
      = stacked (V (Proc.devRef .tc main_v191)) (V (Proc.devRef .tc main_v383)) (V (Proc.devRef .tc main_v575))
          (V (Proc.devRef .tc main_v767)) := by
  simp only [stack]
  after_results_simp <;> rfl

/-- Each graph's lists leave the earlier graphs' results and the arguments alone, so the stacked buffer holds the four
    graphs' networks of the arguments, and the arguments are as launched. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v772)
        = result (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  refine (θ_run defs _ _).mono (fun _ h c => ?_)
    (run_seq scopedRefs_eq scopedSems_eq defs main (fun _ => allJ) main_eq
      (fun _ => allJ_sub) m ρ (fun _ op ho => (allJ_ok op ho).2))
  simp only [h c, allJ_def, after_app]
  rw [stack_out]
  simp (disch := decide) only [keep stack_writes, keep layC3_writes, keep layB3_writes, keep layA3_writes, keep pre3_writes, keep layC2_writes, keep layB2_writes, keep layA2_writes, keep pre2_writes, keep layC1_writes, keep layB1_writes, keep layA1_writes, keep pre1_writes, keep layC0_writes, keep layB0_writes, keep layA0_writes, keep pre0_writes]
  rw [graph3_out, graph2_out, graph1_out, graph0_out]
  simp (disch := decide) only [keep stack_writes, keep layC3_writes, keep layB3_writes, keep layA3_writes, keep pre3_writes, keep layC2_writes, keep layB2_writes, keep layA2_writes, keep pre2_writes, keep layC1_writes, keep layB1_writes, keep layA1_writes, keep pre1_writes, keep layC0_writes, keep layB0_writes, keep layA0_writes, keep pre0_writes, and_true]
  rfl

end Cert.ReferenceIdeal.RefRun

end
-- ==== Proof.RefEdges.lean ====
import proofs.«148651_g6150393168184_cont_sun_c4_511_5_alg».proof.Proof.RefStages
import Idealize.ShloMosaic.Lib.ValueIdx
import Idealize.ShloMosaic.Lib.ValueLayout
import Idealize.ShloMosaic.Lib.Pipeline.Value
import Idealize.ShloMosaic.Lib.IdealHost
import Idealize.ShloMosaic.Lib.StableHlo.Predicate
import Idealize.ShloMosaic.PureOps.Ideal.Laws

/-! The edge list of the complete graph on 512 nodes with one self loop per node, read edge by edge. -/

noncomputable section

namespace Cert.ReferenceIdeal.Stages

open Cert.ReferenceIdeal Cert.ReferenceIdeal.Gen Idealize.ShloMosaic Idealize.ShloMosaic.ValueIdx

def edgePair (i j : Fin 512) : Fin 262656 := ⟨512 * i.val + j.val, by omega⟩

def edgeLoop (k : Fin 512) : Fin 262656 := ⟨262144 + k.val, by omega⟩

def pairNo (i j : Fin 512) : Fin 262144 := ⟨512 * i.val + j.val, by omega⟩

private theorem edges_row0 (i j : Fin 512) : edges (ix2 (0 : Fin 2) (pairNo i j)) = BitVec.ofNat 32 i.val := by
  unfold edges
  refine (concatenate_pair_apply_left (t := S2x262144) (s₁ := S1x262144) (s₂ := S1x262144) (0 : Fin 2) _ _
    concatenates_S1x262144_S1x262144_S2x262144_d0
    (ix2 (0 : Fin 2) (pairNo i j)) rfl (ix2 (0 : Fin 1) (pairNo i j)) ?_).trans ?_
  · intro b
    match b with
    | ⟨0, _⟩ => rfl
    | ⟨1, _⟩ => rfl
  refine (broadcastInDim_apply _ bcast_S262144_S1x262144_1 _ (ix2 (0 : Fin 1) (pairNo i j)) (ix1 (pairNo i j)) ?_).trans ?_
  · intro a
    obtain rfl : a = 0 := Subsingleton.elim _ _
    rfl
  refine (shapeCast_apply _ shapeCasts_S512x512_S262144 (ix1 (pairNo i j)) (ix2 i j) ?_).trans ?_
  · rw [Shape.rowMajor_val_two, Shape.rowMajor_val_one]
    show i.val * 512 + j.val = 512 * i.val + j.val
    omega
  refine (broadcastInDim_apply _ bcast_S512_S512x512_0 _ (ix2 i j) (ix1 i) ?_).trans ?_
  · intro a
    obtain rfl : a = 0 := Subsingleton.elim _ _
    rfl
  rfl

private theorem edges_row1 (i j : Fin 512) : edges (ix2 (1 : Fin 2) (pairNo i j)) = BitVec.ofNat 32 j.val := by
  unfold edges
  refine (concatenate_pair_apply_right (t := S2x262144) (s₁ := S1x262144) (s₂ := S1x262144) (0 : Fin 2) _ _
    concatenates_S1x262144_S1x262144_S2x262144_d0
    (ix2 (1 : Fin 2) (pairNo i j)) rfl rfl (ix2 (0 : Fin 1) (pairNo i j)) ?_ ?_).trans ?_
  · intro b hb
    match b, hb with
    | ⟨0, _⟩, hb => exact absurd rfl hb
    | ⟨1, _⟩, _ => rfl
  · rfl
  refine (broadcastInDim_apply _ bcast_S262144_S1x262144_1 _ (ix2 (0 : Fin 1) (pairNo i j)) (ix1 (pairNo i j)) ?_).trans ?_
  · intro a
    obtain rfl : a = 0 := Subsingleton.elim _ _
    rfl
  refine (shapeCast_apply _ shapeCasts_S512x512_S262144 (ix1 (pairNo i j)) (ix2 i j) ?_).trans ?_
  · rw [Shape.rowMajor_val_two, Shape.rowMajor_val_one]
    show i.val * 512 + j.val = 512 * i.val + j.val
    omega
  refine (broadcastInDim_apply _ bcast_S1x512_S512x512_0_1 _ (ix2 i j) (ix2 (0 : Fin 1) j) ?_).trans ?_
  · intro a
    match a with
    | ⟨0, _⟩ => rfl
    | ⟨1, _⟩ => rfl
  refine (shapeCast_apply _ shapeCasts_S512_S1x512 (ix2 (0 : Fin 1) j) (ix1 j) ?_).trans ?_
  · rw [Shape.rowMajor_val_one, Shape.rowMajor_val_two]
    show j.val = 0 * 512 + j.val
    omega
  rfl

private theorem srcOf_pair (i j : Fin 512) : srcOf edges (ix1 (edgePair i j)) = BitVec.ofNat 32 i.val := by
  unfold srcOf
  refine (concatenate_pair_apply_left (t := S262656) (s₁ := S262144) (s₂ := S512) (0 : Fin 1) _ _
    concatenates_S262144_S512_S262656_d0
    (ix1 (edgePair i j)) rfl (ix1 (pairNo i j)) ?_).trans ?_
  · intro b
    obtain rfl : b = 0 := Subsingleton.elim _ _
    rfl
  refine (shapeCast_apply _ shapeCasts_S1x262144_S262144 (ix1 (pairNo i j)) (ix2 (0 : Fin 1) (pairNo i j)) ?_).trans ?_
  · rw [Shape.rowMajor_val_two, Shape.rowMajor_val_one]
    show 0 * 262144 + (pairNo i j).val = (pairNo i j).val
    omega
  refine (extractStridedSlice_apply _ _ slices_S2x262144_S1x262144_0_0 (ix2 (0 : Fin 1) (pairNo i j))
    (ix2 (0 : Fin 2) (pairNo i j)) ?_).trans ?_
  · intro a
    match a with
    | ⟨0, _⟩ => rfl
    | ⟨1, _⟩ =>
      show (pairNo i j).val = 0 + (pairNo i j).val
      omega
  exact edges_row0 i j

private theorem dstOf_pair (i j : Fin 512) : dstOf edges (ix1 (edgePair i j)) = BitVec.ofNat 32 j.val := by
  unfold dstOf
  refine (concatenate_pair_apply_left (t := S262656) (s₁ := S262144) (s₂ := S512) (0 : Fin 1) _ _
    concatenates_S262144_S512_S262656_d0
    (ix1 (edgePair i j)) rfl (ix1 (pairNo i j)) ?_).trans ?_
  · intro b
    obtain rfl : b = 0 := Subsingleton.elim _ _
    rfl
  refine (shapeCast_apply _ shapeCasts_S1x262144_S262144 (ix1 (pairNo i j)) (ix2 (0 : Fin 1) (pairNo i j)) ?_).trans ?_
  · rw [Shape.rowMajor_val_two, Shape.rowMajor_val_one]
    show 0 * 262144 + (pairNo i j).val = (pairNo i j).val
    omega
  refine (extractStridedSlice_apply _ _ slices_S2x262144_S1x262144_1_0 (ix2 (0 : Fin 1) (pairNo i j))
    (ix2 (1 : Fin 2) (pairNo i j)) ?_).trans ?_
  · intro a
    match a with
    | ⟨0, _⟩ => rfl
    | ⟨1, _⟩ =>
      show (pairNo i j).val = 0 + (pairNo i j).val
      omega
  exact edges_row1 i j

private theorem srcOf_loop (E : IVec S2x262144 32) (k : Fin 512) : srcOf E (ix1 (edgeLoop k)) = BitVec.ofNat 32 k.val := by
  unfold srcOf
  refine (concatenate_pair_apply_right (t := S262656) (s₁ := S262144) (s₂ := S512) (0 : Fin 1) _ _
    concatenates_S262144_S512_S262656_d0
    (ix1 (edgeLoop k)) rfl rfl (ix1 k) ?_ ?_).trans ?_
  · intro b hb
    exact absurd (Subsingleton.elim _ _) hb
  · show k.val + 262144 = 262144 + k.val
    omega
  rfl

private theorem dstOf_loop (E : IVec S2x262144 32) (k : Fin 512) : dstOf E (ix1 (edgeLoop k)) = BitVec.ofNat 32 k.val := by
  unfold dstOf
  refine (concatenate_pair_apply_right (t := S262656) (s₁ := S262144) (s₂ := S512) (0 : Fin 1) _ _
    concatenates_S262144_S512_S262656_d0
    (ix1 (edgeLoop k)) rfl rfl (ix1 k) ?_ ?_).trans ?_
  · intro b hb
    exact absurd (Subsingleton.elim _ _) hb
  · show k.val + 262144 = 262144 + k.val
    omega
  rfl

private theorem wrap_of_small (z : IVec S262656 32) (e : Fin 262656) (k : Nat) (hk : k < 512)
    (hz : z (ix1 e) = BitVec.ofNat 32 k) : (wrap z (ix2 e (0 : Fin 1))).toInt = (k : Int) := by
  have hsmall : k < 2 ^ 31 := by omega
  have hk' := StableHlo.Predicate.toInt_ofNat_small k hsmall
  have h0 : (0#32 : BitVec 32).toInt = 0 := by decide
  have hc : IntOp.cmpi .slt (BitVec.ofNat 32 k) (0#32) = 0#1 := by
    show BitVec.ofBool ((BitVec.ofNat 32 k).slt (0#32)) = 0#1
    have : (BitVec.ofNat 32 k).slt (0#32) = false := by
      unfold BitVec.slt
      rw [hk', h0]
      exact decide_eq_false (by omega)
    rw [this]
    rfl
  unfold wrap
  rw [broadcastInDim_apply _ bcast_S262656_S262656x1_0 _ (ix2 e (0 : Fin 1)) (ix1 e)
    (by intro a; obtain rfl : a = 0 := Subsingleton.elim _ _; rfl)]
  show (Scalar.select (IntOp.cmpi .slt (z (ix1 e)) (0#32)) (IntOp.addi (z (ix1 e)) (512#32)) (z (ix1 e))).toInt = (k : Int)
  rw [hz, hc, select_zero]
  exact hk'

theorem wrap_src_pair (i j : Fin 512) : (wrap (srcOf edges) (ix2 (edgePair i j) (0 : Fin 1))).toInt = (i.val : Int) :=
  wrap_of_small _ _ i.val i.isLt (srcOf_pair i j)

theorem wrap_dst_pair (i j : Fin 512) : (wrap (dstOf edges) (ix2 (edgePair i j) (0 : Fin 1))).toInt = (j.val : Int) :=
  wrap_of_small _ _ j.val j.isLt (dstOf_pair i j)

theorem wrap_src_loop (k : Fin 512) : (wrap (srcOf edges) (ix2 (edgeLoop k) (0 : Fin 1))).toInt = (k.val : Int) :=
  wrap_of_small _ _ k.val k.isLt (srcOf_loop edges k)

theorem wrap_dst_loop (k : Fin 512) : (wrap (dstOf edges) (ix2 (edgeLoop k) (0 : Fin 1))).toInt = (k.val : Int) :=
  wrap_of_small _ _ k.val k.isLt (dstOf_loop edges k)

theorem wts_pair (A : FVec Ideal S512x512 .f32) (i j : Fin 512) : wts (F := Ideal) (flat A) (ix1 (edgePair i j)) = A (ix2 i j) := by
  unfold wts
  refine (concatenate_pair_apply_left (t := S262656) (s₁ := S262144) (s₂ := S512) (0 : Fin 1) _ _
    concatenates_S262144_S512_S262656_d0 (ix1 (edgePair i j)) rfl (ix1 (pairNo i j)) ?_).trans ?_
  · intro b
    obtain rfl : b = 0 := Subsingleton.elim _ _
    rfl
  unfold flat
  refine shapeCast_apply _ shapeCasts_S512x512_S262144 (ix1 (pairNo i j)) (ix2 i j) ?_
  rw [Shape.rowMajor_val_two, Shape.rowMajor_val_one]
  show i.val * 512 + j.val = 512 * i.val + j.val
  omega

theorem wts_loop (ew : FVec Ideal S262144 .f32) (k : Fin 512) : wts (F := Ideal) ew (ix1 (edgeLoop k)) = ((1 : ℝ) : EReal) := by
  unfold wts
  refine (concatenate_pair_apply_right (t := S262656) (s₁ := S262144) (s₂ := S512) (0 : Fin 1) _ _
    concatenates_S262144_S512_S262656_d0 (ix1 (edgeLoop k)) rfl rfl (ix1 k) ?_ ?_).trans ?_
  · intro b hb
    exact absurd (Subsingleton.elim _ _) hb
  · show k.val + 262144 = 262144 + k.val
    omega
  rw [broadcastInDim_scalar_apply]
  show Ideal.ofBits .f32 0x3F800000#32 = ((1 : ℝ) : EReal)
  rw [Ideal.ofBits_one_f32]
  norm_cast

private theorem edge_cases (e : Fin 262656) : (∃ a b : Fin 512, e = edgePair a b) ∨ (∃ c : Fin 512, e = edgeLoop c) := by
  have he := e.isLt
  by_cases hlt : e.val < 262144
  · refine Or.inl ⟨⟨e.val / 512, by omega⟩, ⟨e.val % 512, by omega⟩, Fin.ext ?_⟩
    show e.val = 512 * (e.val / 512) + e.val % 512
    omega
  · refine Or.inr ⟨⟨e.val - 262144, by omega⟩, Fin.ext ?_⟩
    show e.val = 262144 + (e.val - 262144)
    omega

theorem sum_edges_into (f : Fin 262656 → EReal) (j : Fin 512) :
    (∑ e ∈ Finset.univ.filter (fun e : Fin 262656 => (wrap (dstOf edges) (ix2 e (0 : Fin 1))).toInt = (j.val : Int)), f e)
      = (∑ i : Fin 512, f (edgePair i j)) + f (edgeLoop j) := by

  let g : Option (Fin 512) → Fin 262656 := fun o => match o with
    | none => edgeLoop j
    | some i => edgePair i j
  have hg : Function.Injective g := by
    intro a b hab
    match a, b, hab with
    | none, none, _ => rfl
    | none, some i, h =>
      have hv : 262144 + j.val = 512 * i.val + j.val := congrArg Fin.val h
      have := i.isLt
      omega
    | some i, none, h =>
      have hv : 512 * i.val + j.val = 262144 + j.val := congrArg Fin.val h
      have := i.isLt
      omega
    | some i, some i', h =>
      have hv : 512 * i.val + j.val = 512 * i'.val + j.val := congrArg Fin.val h
      exact congrArg some (Fin.ext (by omega))
  have hS : Finset.univ.filter (fun e : Fin 262656 => (wrap (dstOf edges) (ix2 e (0 : Fin 1))).toInt = (j.val : Int))
      = Finset.univ.image g := by
    ext e
    rw [Finset.mem_filter, Finset.mem_image]
    constructor
    · rintro ⟨_, he⟩
      rcases edge_cases e with ⟨a, b, rfl⟩ | ⟨c, rfl⟩
      · rw [wrap_dst_pair] at he
        obtain rfl : b = j := Fin.ext (by omega)
        exact ⟨some a, Finset.mem_univ _, rfl⟩
      · rw [wrap_dst_loop] at he
        obtain rfl : c = j := Fin.ext (by omega)
        exact ⟨none, Finset.mem_univ _, rfl⟩
    · rintro ⟨o, _, rfl⟩
      refine ⟨Finset.mem_univ _, ?_⟩
      match o with
      | none => exact wrap_dst_loop j
      | some i => exact wrap_dst_pair i j
  rw [hS, Finset.sum_image (fun a _ b _ h => hg h), Fintype.sum_option]
  exact add_comm _ _

end Cert.ReferenceIdeal.Stages

end
-- ==== Proof.LibEdgeOps.lean ====
import Idealize.ShloMosaic.Lib.ValueIdx
import Idealize.ShloMosaic.PureOps.Ideal.Laws

/-! Gathers and accumulating scatters along the leading axis through a column of indices, read at an index. -/

noncomputable section

namespace Cert.EdgeOps

open Idealize.ShloMosaic Idealize.ShloMosaic.ValueIdx

variable {α : Type}

abbrev gathDims1 (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

abbrev gathDims2 (N K E : Nat) (wf : GatherDims.WF ⟨2, ![N, K]⟩ ⟨2, ![E, 1]⟩ ⟨2, ![E, K]⟩ [1] [0] [] [0] [] 1 ![1, K]) :
    GatherDims ⟨2, ![N, K]⟩ ⟨2, ![E, 1]⟩ ⟨2, ![E, K]⟩ where
  offsetDims := [1]
  collapsedSliceDims := [0]
  operandBatchingDims := []
  startIndicesBatchingDims := []
  startIndexMap := [0]
  indexVectorDim := 1
  sliceSizes := ![1, K]
  wf := wf

abbrev scatDims1 (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

abbrev scatDims2 (N K E : Nat) (wf : ScatterDims.WF ⟨2, ![N, K]⟩ ⟨2, ![E, 1]⟩ ⟨2, ![E, K]⟩ [1] [0] [0] 1) :
    ScatterDims ⟨2, ![N, K]⟩ ⟨2, ![E, 1]⟩ ⟨2, ![E, K]⟩ where
  updateWindowDims := [1]
  insertedWindowDims := [0]
  scatterDimsToOperandDims := [0]
  indexVectorDim := 1
  wf := wf

theorem gather1_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (gathDims1 N E wf) x idx (ix1 e)
      = x (ix1 ⟨min (idx (ix2 e (0 : Fin 1))).toInt.toNat (N - 1), by omega⟩) := by
  unfold Host.gather
  congr 1
  funext a
  obtain rfl : a = 0 := Subsingleton.elim _ _
  refine Fin.ext ?_
  show (gathDims1 N E wf).start (ix1 e) idx 0 + (gathDims1 N E wf).batchCoord (ix1 e) 0
    + (gathDims1 N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gathDims1 N E wf).startIndexMap from List.mem_singleton.mpr rfl)]
  have hsi : (gathDims1 N E wf).siIdx (ix1 e) ⟨List.idxOf (0 : Fin 1) (gathDims1 N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

theorem gather2_apply {N K E w : Nat} (hN : 0 < N)
    (wf : GatherDims.WF ⟨2, ![N, K]⟩ ⟨2, ![E, 1]⟩ ⟨2, ![E, K]⟩ [1] [0] [] [0] [] 1 ![1, K])
    (x : (⟨2, ![N, K]⟩ : Shape).Idx → α) (idx : IVec ⟨2, ![E, 1]⟩ w) (e : Fin E) (c : Fin K) :
    Host.gather (gathDims2 N K E wf) x idx (ix2 e c)
      = x (ix2 ⟨min (idx (ix2 e (0 : Fin 1))).toInt.toNat (N - 1), by omega⟩ c) := by
  have h0 : (gathDims2 N K E wf).start (ix2 e c) idx (0 : Fin 2) + (gathDims2 N K E wf).batchCoord (ix2 e c) (0 : Fin 2)
      + (gathDims2 N K E wf).offCoord (ix2 e c) (0 : Fin 2) = min (idx (ix2 e (0 : Fin 1))).toInt.toNat (N - 1) := by
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gathDims2 N K E wf).startIndexMap from List.mem_singleton.mpr rfl)]
    have hsi : (gathDims2 N K E wf).siIdx (ix2 e c) ⟨List.idxOf (0 : Fin 2) (gathDims2 N K E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  have hmem : (1 : Fin 2) ∈ (gathDims2 N K E wf).sKept := by
    rw [GatherDims.mem_sKept]
    refine ⟨?_, List.not_mem_nil⟩
    show ¬ ((1 : Fin 2) ∈ ([0] : List (Fin 2)))
    decide
  have h1 : (gathDims2 N K E wf).start (ix2 e c) idx (1 : Fin 2) + (gathDims2 N K E wf).batchCoord (ix2 e c) (1 : Fin 2)
      + (gathDims2 N K E wf).offCoord (ix2 e c) (1 : Fin 2) = c.val := by
    rw [GatherDims.batchCoord_eq_zero _ _ _ List.not_mem_nil]
    have hstart : (gathDims2 N K E wf).start (ix2 e c) idx (1 : Fin 2) = 0 := by
      unfold GatherDims.start
      rw [dif_neg]
      show ¬ ((1 : Fin 2) ∈ ([0] : List (Fin 2)))
      decide
    rw [hstart]
    simp only [Nat.add_zero, Nat.zero_add]
    unfold GatherDims.offCoord
    rw [dif_pos hmem]
    rfl
  unfold Host.gather
  congr 1
  funext a
  refine Fin.ext ?_
  match a with
  | ⟨0, _⟩ => exact h0
  | ⟨1, _⟩ => exact h1

private theorem scat1_start {N E w : Nat}
    (wf : ScatterDims.WF ⟨1, ![N]⟩ ⟨2, ![E, 1]⟩ ⟨1, ![E]⟩ [] [0] [0] 1)
    (idx : IVec ⟨2, ![E, 1]⟩ w) (u : (⟨1, ![E]⟩ : Shape).Idx) :
    (scatDims1 N E wf).start u idx (0 : Fin 1) = (idx (ix2 (u 0 : Fin E) (0 : Fin 1))).toInt := by
  unfold ScatterDims.start
  rw [dif_pos (show (0 : Fin 1) ∈ (scatDims1 N E wf).scatterDimsToOperandDims from List.mem_singleton.mpr rfl)]
  have hsi : (scatDims1 N E wf).siIdx u ⟨List.idxOf (0 : Fin 1) (scatDims1 N E wf).scatterDimsToOperandDims,
      List.idxOf_lt_length_iff.2 (List.mem_singleton.mpr rfl)⟩ = ix2 (u 0 : Fin E) (0 : Fin 1) := by
    funext b; refine Fin.ext ?_
    match b with
    | ⟨0, _⟩ => rfl
    | ⟨1, _⟩ => rfl
  rw [hsi]
  rfl

private theorem scat1_window {N E : Nat}
    (wf : ScatterDims.WF ⟨1, ![N]⟩ ⟨2, ![E, 1]⟩ ⟨1, ![E]⟩ [] [0] [0] 1) (u : (⟨1, ![E]⟩ : Shape).Idx) :
    (scatDims1 N E wf).window u (0 : Fin 1) = 0 := by
  unfold ScatterDims.window
  rw [dif_neg]
  show ¬ ((0 : Fin 1) ∈ ([] : List (Fin 1)))
  exact List.not_mem_nil

private theorem scat1_resultIdx_iff {N E w : Nat}
    (wf : ScatterDims.WF ⟨1, ![N]⟩ ⟨2, ![E, 1]⟩ ⟨1, ![E]⟩ [] [0] [0] 1)
    (idx : IVec ⟨2, ![E, 1]⟩ w) (u : (⟨1, ![E]⟩ : Shape).Idx) (j : Fin N) :
    (scatDims1 N E wf).resultIdx? u idx = some (ix1 j)
      ↔ (idx (ix2 (u 0 : Fin E) (0 : Fin 1))).toInt = (j.val : Int) := by
  have hs := scat1_start wf idx u
  have hw := scat1_window wf u
  have hj := j.isLt
  unfold ScatterDims.resultIdx?
  split
  · rename_i h
    have h0 : 0 ≤ (scatDims1 N E wf).start u idx (0 : Fin 1) + ((scatDims1 N E wf).window u (0 : Fin 1) : Int) := (h 0).1
    rw [Option.some.injEq]
    constructor
    · intro hf
      have hv : ((scatDims1 N E wf).start u idx (0 : Fin 1) + ((scatDims1 N E wf).window u (0 : Fin 1) : Int)).toNat = j.val :=
        congrArg (fun f => (f (0 : Fin 1)).val) hf
      rw [hs, hw] at hv h0
      omega
    · intro hv
      funext a
      obtain rfl : a = 0 := Subsingleton.elim _ _
      refine Fin.ext ?_
      show ((scatDims1 N E wf).start u idx (0 : Fin 1) + ((scatDims1 N E wf).window u (0 : Fin 1) : Int)).toNat = j.val
      rw [hs, hw]
      omega
  · rename_i h
    constructor
    · intro hf
      cases hf
    · intro hv
      exfalso
      apply h
      intro a
      obtain rfl : a = 0 := Subsingleton.elim _ _
      show 0 ≤ (scatDims1 N E wf).start u idx (0 : Fin 1) + ((scatDims1 N E wf).window u (0 : Fin 1) : Int)
        ∧ (scatDims1 N E wf).start u idx (0 : Fin 1) + ((scatDims1 N E wf).window u (0 : Fin 1) : Int) < (N : Int)
      rw [hs, hw]
      omega

theorem scatterAdd1_apply {N E w : Nat}
    (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w) (upd : (⟨1, ![E]⟩ : Shape).Idx → EReal) (j : Fin N) :
    Ideal.hostScatterAdd (scatDims1 N E wf) x idx upd (ix1 j)
      = x (ix1 j) + ∑ e ∈ Finset.univ.filter (fun e : Fin E => (idx (ix2 e (0 : Fin 1))).toInt = (j.val : Int)), upd (ix1 e) := by
  unfold Ideal.hostScatterAdd
  congr 1
  refine Finset.sum_nbij' (fun u => (u 0 : Fin E)) (fun e => ix1 e) ?_ ?_ ?_ ?_ ?_
  · intro u hu
    exact Finset.mem_filter.mpr
      ⟨Finset.mem_univ _, (scat1_resultIdx_iff wf idx u j).mp (Finset.mem_filter.mp hu).2⟩
  · intro e he
    exact Finset.mem_filter.mpr
      ⟨Finset.mem_univ _, (scat1_resultIdx_iff wf idx (ix1 e) j).mpr (Finset.mem_filter.mp he).2⟩
  · intro u _
    exact (eq_ix1 u).symm
  · intro e _
    rfl
  · intro u _
    exact congrArg upd (eq_ix1 u)

private theorem scat2_start0 {N K E w : Nat}
    (wf : ScatterDims.WF ⟨2, ![N, K]⟩ ⟨2, ![E, 1]⟩ ⟨2, ![E, K]⟩ [1] [0] [0] 1)
    (idx : IVec ⟨2, ![E, 1]⟩ w) (u : (⟨2, ![E, K]⟩ : Shape).Idx) :
    (scatDims2 N K E wf).start u idx (0 : Fin 2) = (idx (ix2 (u 0 : Fin E) (0 : Fin 1))).toInt := by
  unfold ScatterDims.start
  rw [dif_pos (show (0 : Fin 2) ∈ (scatDims2 N K E wf).scatterDimsToOperandDims from List.mem_singleton.mpr rfl)]
  have hsi : (scatDims2 N K E wf).siIdx u ⟨List.idxOf (0 : Fin 2) (scatDims2 N K E wf).scatterDimsToOperandDims,
      List.idxOf_lt_length_iff.2 (List.mem_singleton.mpr rfl)⟩ = ix2 (u 0 : Fin E) (0 : Fin 1) := by
    funext b; refine Fin.ext ?_
    match b with
    | ⟨0, _⟩ => rfl
    | ⟨1, _⟩ => rfl
  rw [hsi]
  rfl

private theorem scat2_start1 {N K E w : Nat}
    (wf : ScatterDims.WF ⟨2, ![N, K]⟩ ⟨2, ![E, 1]⟩ ⟨2, ![E, K]⟩ [1] [0] [0] 1)
    (idx : IVec ⟨2, ![E, 1]⟩ w) (u : (⟨2, ![E, K]⟩ : Shape).Idx) :
    (scatDims2 N K E wf).start u idx (1 : Fin 2) = 0 := by
  unfold ScatterDims.start
  rw [dif_neg]
  show ¬ ((1 : Fin 2) ∈ ([0] : List (Fin 2)))
  decide

private theorem scat2_window0 {N K E : Nat}
    (wf : ScatterDims.WF ⟨2, ![N, K]⟩ ⟨2, ![E, 1]⟩ ⟨2, ![E, K]⟩ [1] [0] [0] 1) (u : (⟨2, ![E, K]⟩ : Shape).Idx) :
    (scatDims2 N K E wf).window u (0 : Fin 2) = 0 := by
  unfold ScatterDims.window
  rw [dif_neg]
  show ¬ ((0 : Fin 2) ∈ ([1] : List (Fin 2)))
  decide

private theorem scat2_window1 {N K E : Nat}
    (wf : ScatterDims.WF ⟨2, ![N, K]⟩ ⟨2, ![E, 1]⟩ ⟨2, ![E, K]⟩ [1] [0] [0] 1) (u : (⟨2, ![E, K]⟩ : Shape).Idx) :
    (scatDims2 N K E wf).window u (1 : Fin 2) = (u 1).val := by
  have hmem : (1 : Fin 2) ∈ (scatDims2 N K E wf).sKept := by
    show (1 : Fin 2) ∈ ([1] : List (Fin 2))
    decide
  unfold ScatterDims.window
  rw [dif_pos hmem]
  rfl

private theorem scat2_resultIdx_iff {N K E w : Nat}
    (wf : ScatterDims.WF ⟨2, ![N, K]⟩ ⟨2, ![E, 1]⟩ ⟨2, ![E, K]⟩ [1] [0] [0] 1)
    (idx : IVec ⟨2, ![E, 1]⟩ w) (u : (⟨2, ![E, K]⟩ : Shape).Idx) (j : Fin N) (c : Fin K) :
    (scatDims2 N K E wf).resultIdx? u idx = some (ix2 j c)
      ↔ (idx (ix2 (u 0 : Fin E) (0 : Fin 1))).toInt = (j.val : Int) ∧ (u 1).val = c.val := by
  have hs0 := scat2_start0 wf idx u
  have hs1 := scat2_start1 wf idx u
  have hw0 := scat2_window0 wf u
  have hw1 := scat2_window1 wf u
  have hj := j.isLt
  have hc := c.isLt
  have hu1 : (u 1).val < K := (u 1).isLt
  unfold ScatterDims.resultIdx?
  split
  · rename_i h
    have h0 : 0 ≤ (scatDims2 N K E wf).start u idx (0 : Fin 2) + ((scatDims2 N K E wf).window u (0 : Fin 2) : Int) := (h 0).1
    rw [Option.some.injEq]
    constructor
    · intro hf
      have hv0 : ((scatDims2 N K E wf).start u idx (0 : Fin 2) + ((scatDims2 N K E wf).window u (0 : Fin 2) : Int)).toNat = j.val :=
        congrArg (fun f => (f (0 : Fin 2)).val) hf
      have hv1 : ((scatDims2 N K E wf).start u idx (1 : Fin 2) + ((scatDims2 N K E wf).window u (1 : Fin 2) : Int)).toNat = c.val :=
        congrArg (fun f => (f (1 : Fin 2)).val) hf
      rw [hs0, hw0] at hv0 h0
      rw [hs1, hw1] at hv1
      omega
    · intro hv
      funext a
      refine Fin.ext ?_
      match a with
      | ⟨0, _⟩ =>
        show ((scatDims2 N K E wf).start u idx (0 : Fin 2) + ((scatDims2 N K E wf).window u (0 : Fin 2) : Int)).toNat = j.val
        rw [hs0, hw0]
        omega
      | ⟨1, _⟩ =>
        show ((scatDims2 N K E wf).start u idx (1 : Fin 2) + ((scatDims2 N K E wf).window u (1 : Fin 2) : Int)).toNat = c.val
        rw [hs1, hw1]
        omega
  · rename_i h
    constructor
    · intro hf
      cases hf
    · intro hv
      exfalso
      apply h
      intro a
      match a with
      | ⟨0, _⟩ =>
        show 0 ≤ (scatDims2 N K E wf).start u idx (0 : Fin 2) + ((scatDims2 N K E wf).window u (0 : Fin 2) : Int)
          ∧ (scatDims2 N K E wf).start u idx (0 : Fin 2) + ((scatDims2 N K E wf).window u (0 : Fin 2) : Int) < (N : Int)
        rw [hs0, hw0]
        omega
      | ⟨1, _⟩ =>
        show 0 ≤ (scatDims2 N K E wf).start u idx (1 : Fin 2) + ((scatDims2 N K E wf).window u (1 : Fin 2) : Int)
          ∧ (scatDims2 N K E wf).start u idx (1 : Fin 2) + ((scatDims2 N K E wf).window u (1 : Fin 2) : Int) < (K : Int)
        rw [hs1, hw1]
        omega

theorem scatterAdd2_apply {N K E w : Nat}
    (wf : ScatterDims.WF ⟨2, ![N, K]⟩ ⟨2, ![E, 1]⟩ ⟨2, ![E, K]⟩ [1] [0] [0] 1)
    (x : (⟨2, ![N, K]⟩ : Shape).Idx → EReal) (idx : IVec ⟨2, ![E, 1]⟩ w) (upd : (⟨2, ![E, K]⟩ : Shape).Idx → EReal)
    (j : Fin N) (c : Fin K) :
    Ideal.hostScatterAdd (scatDims2 N K E wf) x idx upd (ix2 j c)
      = x (ix2 j c) + ∑ e ∈ Finset.univ.filter (fun e : Fin E => (idx (ix2 e (0 : Fin 1))).toInt = (j.val : Int)), upd (ix2 e c) := by
  have hback : ∀ u : (⟨2, ![E, K]⟩ : Shape).Idx, (u 1).val = c.val → ix2 (u 0 : Fin E) c = u := by
    intro u hu
    funext a
    match a with
    | ⟨0, _⟩ => rfl
    | ⟨1, _⟩ => exact (Fin.ext hu).symm
  unfold Ideal.hostScatterAdd
  congr 1
  refine Finset.sum_nbij' (fun u => (u 0 : Fin E)) (fun e => ix2 e c) ?_ ?_ ?_ ?_ ?_
  · intro u hu
    exact Finset.mem_filter.mpr
      ⟨Finset.mem_univ _, ((scat2_resultIdx_iff wf idx u j c).mp (Finset.mem_filter.mp hu).2).1⟩
  · intro e he
    exact Finset.mem_filter.mpr
      ⟨Finset.mem_univ _, (scat2_resultIdx_iff wf idx (ix2 e c) j c).mpr ⟨(Finset.mem_filter.mp he).2, rfl⟩⟩
  · intro u hu
    exact hback u ((scat2_resultIdx_iff wf idx u j c).mp (Finset.mem_filter.mp hu).2).2
  · intro e _
    rfl
  · intro u hu
    exact congrArg upd (hback u ((scat2_resultIdx_iff wf idx u j c).mp (Finset.mem_filter.mp hu).2).2).symm

end Cert.EdgeOps

end
-- ==== Proof.RefFactors.lean ====
import proofs.«148651_g6150393168184_cont_sun_c4_511_5_alg».proof.Proof.RefStages
import proofs.«148651_g6150393168184_cont_sun_c4_511_5_alg».proof.Proof.RefEdges
import proofs.«148651_g6150393168184_cont_sun_c4_511_5_alg».proof.Proof.LibEdgeOps
import proofs.«148651_g6150393168184_cont_sun_c4_511_5_alg».proof.Proof.LibPlainDot
import proofs.«148651_g6150393168184_cont_sun_c4_511_5_alg».proof.Proof.Spec
import proofs.«148651_g6150393168184_cont_sun_c4_511_5_alg».proof.Proof.SpecG
import proofs.«148651_g6150393168184_cont_sun_c4_511_5_alg».proof.Proof.RealAlg
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

/-! Degrees, normalising factors and normalised edge weights over a real weight matrix. -/

noncomputable section

namespace Cert.ReferenceIdeal.Stages

open Cert.ReferenceIdeal Cert.ReferenceIdeal.Gen Idealize.ShloMosaic Idealize.ShloMosaic.ValueIdx

private theorem ofBits_neg_half_f32 : Ideal.ofBits .f32 0xBF000000#32 = ((-(1 / 2 : ℝ) : ℝ) : EReal) := by
  simp [Ideal.ofBits, Ideal.ieee, -EReal.coe_mul, -EReal.coe_neg]; norm_num

private theorem cmp_ogt_zero_pos (d : ℝ) (h : 0 < d) : Ideal.cmp .ogt ((d : ℝ) : EReal) 0 = 1#1 := by
  show BitVec.ofBool (decide ((0 : EReal) < ((d : ℝ) : EReal))) = 1#1
  rw [decide_eq_true (EReal.coe_pos.mpr h)]
  rfl

private theorem cmp_ogt_zero_neg (d : ℝ) (h : ¬ 0 < d) : Ideal.cmp .ogt ((d : ℝ) : EReal) 0 = 0#1 := by
  show BitVec.ofBool (decide ((0 : EReal) < ((d : ℝ) : EReal))) = 0#1
  rw [decide_eq_false (fun hh => h (EReal.coe_pos.mp hh))]
  rfl

private theorem gather_node (x : FVec Ideal S512 .f32) (idx : IVec S262656x1 32) (e : Fin 262656) (k : Fin 512)
    (h : (idx (ix2 e (0 : Fin 1))).toInt = (k.val : Int)) :
    Host.gather gather_S512_S262656x1_S262656_n_0_n_n_0_1_1 x idx (ix1 e) = x (ix1 k) := by
  refine (Cert.EdgeOps.gather1_apply (by decide) Gen.gather_S512_S262656x1_S262656_n_0_n_n_0_1_1_wf x idx e).trans ?_
  refine congrArg (fun t : Fin 512 => x (ix1 t)) (Fin.ext ?_)
  show min (idx (ix2 e (0 : Fin 1))).toInt.toNat (512 - 1) = k.val
  rw [h]
  have := k.isLt
  omega

section OneGraph

variable (Ar : Fin 512 → Fin 512 → ℝ) (A : FVec Ideal S512x512 .f32) (hA : ∀ i j : Fin 512, A (ix2 i j) = ((Ar i j : ℝ) : EReal))
include hA

theorem degs_real (j : Fin 512) : degs (F := Ideal) edges (flat A) (ix1 j) = ((Cert.Gcn.deg Ar j : ℝ) : EReal) := by
  refine (Cert.EdgeOps.scatterAdd1_apply Gen.scatter_S512_S262656x1_S262656_n_0_0_1_wf _ (wrap (dstOf edges))
    (wts (F := Ideal) (flat A)) j).trans ?_
  rw [sum_edges_into (fun e => wts (F := Ideal) (flat A) (ix1 e)) j]
  rw [broadcastInDim_scalar_apply, constant_apply, Ideal.ofBits_zero_f32, zero_add, wts_loop]
  simp only [wts_pair, hA]
  rw [Cert.Gcn.coe_sum, ← EReal.coe_add]
  rfl

theorem dinvs_real (j : Fin 512) : dinvs (F := Ideal) edges (flat A) (ix1 j) = ((Cert.Gcn.dinv Ar j : ℝ) : EReal) := by
  unfold dinvs Host.powf
  rw [select_apply, cmpf_apply, Ideal.cmpf_def]
  simp only [Ideal.hostPowf_def, id]
  rw [degs_real Ar A hA j, broadcastInDim_scalar_apply, broadcastInDim_scalar_apply, constant_apply, constant_apply,
    Ideal.ofBits_zero_f32, ofBits_neg_half_f32]
  unfold Cert.Gcn.dinv
  by_cases h : 0 < Cert.Gcn.deg Ar j
  · rw [cmp_ogt_zero_pos _ h, select_one, if_pos h, Ideal.pow_coe_coe, Cert.Gcn.rpow_neg_half _ h]
  · rw [cmp_ogt_zero_neg _ h, select_zero, if_neg h, EReal.coe_zero]

theorem norms_pair (i j : Fin 512) :
    norms (F := Ideal) edges (flat A) (ix1 (edgePair i j)) = ((Cert.Gcn.dinv Ar i * Ar i j * Cert.Gcn.dinv Ar j : ℝ) : EReal) := by
  unfold norms
  rw [mulf_apply, mulf_apply, gather_node _ _ _ i (wrap_src_pair i j), gather_node _ _ _ j (wrap_dst_pair i j),
    dinvs_real Ar A hA i, dinvs_real Ar A hA j, wts_pair, hA, ← EReal.coe_mul, ← EReal.coe_mul]

theorem norms_loop (k : Fin 512) :
    norms (F := Ideal) edges (flat A) (ix1 (edgeLoop k)) = ((Cert.Gcn.dinv Ar k * 1 * Cert.Gcn.dinv Ar k : ℝ) : EReal) := by
  unfold norms
  rw [mulf_apply, mulf_apply, gather_node _ _ _ k (wrap_src_loop k), gather_node _ _ _ k (wrap_dst_loop k),
    dinvs_real Ar A hA k, wts_loop, ← EReal.coe_mul, ← EReal.coe_mul]

end OneGraph

end Cert.ReferenceIdeal.Stages

end
-- ==== Proof.RefLayer.lean ====
import proofs.«148651_g6150393168184_cont_sun_c4_511_5_alg».proof.Proof.RefStages
import proofs.«148651_g6150393168184_cont_sun_c4_511_5_alg».proof.Proof.RefEdges
import proofs.«148651_g6150393168184_cont_sun_c4_511_5_alg».proof.Proof.RefFactors
import proofs.«148651_g6150393168184_cont_sun_c4_511_5_alg».proof.Proof.LibEdgeOps
import proofs.«148651_g6150393168184_cont_sun_c4_511_5_alg».proof.Proof.LibPlainDot
import proofs.«148651_g6150393168184_cont_sun_c4_511_5_alg».proof.Proof.Spec
import proofs.«148651_g6150393168184_cont_sun_c4_511_5_alg».proof.Proof.SpecG
import proofs.«148651_g6150393168184_cont_sun_c4_511_5_alg».proof.Proof.RealAlg
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

/-! The reference's layers over real inputs, entry by entry; three in a row and the four graphs stacked give the array G. -/

noncomputable section

namespace Cert.ReferenceIdeal.Stages

open Cert.ReferenceIdeal Cert.ReferenceIdeal.Gen Idealize.ShloMosaic Idealize.ShloMosaic.ValueIdx

private theorem gather128_at (h : FVec Ideal S512x128 .f32) (idx : IVec S262656x1 32) (e : Fin 262656) (i : Fin 512) (c : Fin 128)
    (hi : (idx (ix2 e (0 : Fin 1))).toInt = (i.val : Int)) :
    Host.gather gather_S512x128_S262656x1_S262656x128_1_0_n_n_0_1_1128 h idx (ix2 e c) = h (ix2 i c) := by
  refine (Cert.EdgeOps.gather2_apply (N := 512) (K := 128) (E := 262656) (by omega)
    gather_S512x128_S262656x1_S262656x128_1_0_n_n_0_1_1128_wf h idx e c).trans ?_
  refine congrArg (fun r : Fin 512 => h (ix2 r c)) (Fin.ext ?_)
  show min (idx (ix2 e (0 : Fin 1))).toInt.toNat (512 - 1) = i.val
  rw [hi]
  have := i.isLt
  omega

private theorem spread128_at (v : FVec Ideal S262656 .f32) (e : Fin 262656) (c : Fin 128) :
    broadcastInDim S262656x128 ![0, 1] bcast_S262656x1_S262656x128_0_1
      (broadcastInDim S262656x1 ![0] bcast_S262656_S262656x1_0 v) (ix2 e c) = v (ix1 e) := by
  refine (broadcastInDim_apply _ bcast_S262656x1_S262656x128_0_1 _ (ix2 e c) (ix2 e (0 : Fin 1)) ?_).trans ?_
  · intro a
    match a with
    | ⟨0, _⟩ => rfl
    | ⟨1, _⟩ => rfl
  refine broadcastInDim_apply _ bcast_S262656_S262656x1_0 _ (ix2 e (0 : Fin 1)) (ix1 e) ?_
  intro a
  obtain rfl : a = 0 := Subsingleton.elim _ _
  rfl

private theorem bias128_at (b : FVec Ideal S128 .f32) (j : Fin 512) (c : Fin 128) :
    broadcastInDim S512x128 ![0, 1] bcast_S1x128_S512x128_0_1 (broadcastInDim S1x128 ![1] bcast_S128_S1x128_1 b) (ix2 j c)
      = b (ix1 c) := by
  refine (broadcastInDim_apply _ bcast_S1x128_S512x128_0_1 _ (ix2 j c) (ix2 (0 : Fin 1) c) ?_).trans ?_
  · intro a
    match a with
    | ⟨0, _⟩ => rfl
    | ⟨1, _⟩ => rfl
  refine broadcastInDim_apply _ bcast_S128_S1x128_1 _ (ix2 (0 : Fin 1) c) (ix1 c) ?_
  intro a
  obtain rfl : a = 0 := Subsingleton.elim _ _
  rfl

private def post128 (h : FVec Ideal S512x128 .f32) (nrm : FVec Ideal S262656 .f32) (b : FVec Ideal S128 .f32) :
    FVec Ideal S512x128 .f32 :=
  addf
    (Host.scatterAdd scatter_S512x128_S262656x1_S262656x128_1_0_0_1
      (broadcastInDim S512x128 ![] bcast_S_S512x128 (constant S_ .f32 0x00000000#32)) (wrap (dstOf edges))
      (mulf (Host.gather gather_S512x128_S262656x1_S262656x128_1_0_n_n_0_1_1128 h (wrap (srcOf edges)))
        (broadcastInDim S262656x128 ![0, 1] bcast_S262656x1_S262656x128_0_1
          (broadcastInDim S262656x1 ![0] bcast_S262656_S262656x1_0 nrm))))
    (broadcastInDim S512x128 ![0, 1] bcast_S1x128_S512x128_0_1 (broadcastInDim S1x128 ![1] bcast_S128_S1x128_1 b))

private theorem scat128_eq : scatter_S512x128_S262656x1_S262656x128_1_0_0_1
    = Cert.EdgeOps.scatDims2 512 128 262656 scatter_S512x128_S262656x1_S262656x128_1_0_0_1_wf := rfl

private theorem post128_apply (h : FVec Ideal S512x128 .f32) (nrm : FVec Ideal S262656 .f32) (b : FVec Ideal S128 .f32)
    (j : Fin 512) (c : Fin 128) :
    post128 h nrm b (ix2 j c)
      = (0 + ((∑ i : Fin 512, h (ix2 i c) * nrm (ix1 (edgePair i j))) + h (ix2 j c) * nrm (ix1 (edgeLoop j)))) + b (ix1 c) := by
  unfold post128
  rw [addf_apply, bias128_at]
  unfold Host.scatterAdd
  rw [Ideal.hostScatterAdd_def, scat128_eq, Cert.EdgeOps.scatterAdd2_apply]
  rw [broadcastInDim_scalar_apply, constant_apply, Ideal.ofBits_zero_f32,
    sum_edges_into (fun e => mulf (Host.gather gather_S512x128_S262656x1_S262656x128_1_0_n_n_0_1_1128 h (wrap (srcOf edges)))
          (broadcastInDim S262656x128 ![0, 1] bcast_S262656x1_S262656x128_0_1
            (broadcastInDim S262656x1 ![0] bcast_S262656_S262656x1_0 nrm)) (ix2 e c)) j]
  have hp : ∀ i : Fin 512, mulf (Host.gather gather_S512x128_S262656x1_S262656x128_1_0_n_n_0_1_1128 h (wrap (srcOf edges)))
          (broadcastInDim S262656x128 ![0, 1] bcast_S262656x1_S262656x128_0_1
            (broadcastInDim S262656x1 ![0] bcast_S262656_S262656x1_0 nrm)) (ix2 (edgePair i j) c)
        = h (ix2 i c) * nrm (ix1 (edgePair i j)) := by
    intro i
    rw [mulf_apply, gather128_at h _ (edgePair i j) i c (wrap_src_pair i j), spread128_at]
  have hl : mulf (Host.gather gather_S512x128_S262656x1_S262656x128_1_0_n_n_0_1_1128 h (wrap (srcOf edges)))
          (broadcastInDim S262656x128 ![0, 1] bcast_S262656x1_S262656x128_0_1
            (broadcastInDim S262656x1 ![0] bcast_S262656_S262656x1_0 nrm)) (ix2 (edgeLoop j) c)
        = h (ix2 j c) * nrm (ix1 (edgeLoop j)) := by
    rw [mulf_apply, gather128_at h _ (edgeLoop j) j c (wrap_src_loop j), spread128_at]
  simp only [hp, hl]

private theorem gather256_at (h : FVec Ideal S512x256 .f32) (idx : IVec S262656x1 32) (e : Fin 262656) (i : Fin 512) (c : Fin 256)
    (hi : (idx (ix2 e (0 : Fin 1))).toInt = (i.val : Int)) :
    Host.gather gather_S512x256_S262656x1_S262656x256_1_0_n_n_0_1_1256 h idx (ix2 e c) = h (ix2 i c) := by
  refine (Cert.EdgeOps.gather2_apply (N := 512) (K := 256) (E := 262656) (by omega)
    gather_S512x256_S262656x1_S262656x256_1_0_n_n_0_1_1256_wf h idx e c).trans ?_
  refine congrArg (fun r : Fin 512 => h (ix2 r c)) (Fin.ext ?_)
  show min (idx (ix2 e (0 : Fin 1))).toInt.toNat (512 - 1) = i.val
  rw [hi]
  have := i.isLt
  omega

private theorem spread256_at (v : FVec Ideal S262656 .f32) (e : Fin 262656) (c : Fin 256) :
    broadcastInDim S262656x256 ![0, 1] bcast_S262656x1_S262656x256_0_1
      (broadcastInDim S262656x1 ![0] bcast_S262656_S262656x1_0 v) (ix2 e c) = v (ix1 e) := by
  refine (broadcastInDim_apply _ bcast_S262656x1_S262656x256_0_1 _ (ix2 e c) (ix2 e (0 : Fin 1)) ?_).trans ?_
  · intro a
    match a with
    | ⟨0, _⟩ => rfl
    | ⟨1, _⟩ => rfl
  refine broadcastInDim_apply _ bcast_S262656_S262656x1_0 _ (ix2 e (0 : Fin 1)) (ix1 e) ?_
  intro a
  obtain rfl : a = 0 := Subsingleton.elim _ _
  rfl

private theorem bias256_at (b : FVec Ideal S256 .f32) (j : Fin 512) (c : Fin 256) :
    broadcastInDim S512x256 ![0, 1] bcast_S1x256_S512x256_0_1 (broadcastInDim S1x256 ![1] bcast_S256_S1x256_1 b) (ix2 j c)
      = b (ix1 c) := by
  refine (broadcastInDim_apply _ bcast_S1x256_S512x256_0_1 _ (ix2 j c) (ix2 (0 : Fin 1) c) ?_).trans ?_
  · intro a
    match a with
    | ⟨0, _⟩ => rfl
    | ⟨1, _⟩ => rfl
  refine broadcastInDim_apply _ bcast_S256_S1x256_1 _ (ix2 (0 : Fin 1) c) (ix1 c) ?_
  intro a
  obtain rfl : a = 0 := Subsingleton.elim _ _
  rfl

private def post256 (h : FVec Ideal S512x256 .f32) (nrm : FVec Ideal S262656 .f32) (b : FVec Ideal S256 .f32) :
    FVec Ideal S512x256 .f32 :=
  addf
    (Host.scatterAdd scatter_S512x256_S262656x1_S262656x256_1_0_0_1
      (broadcastInDim S512x256 ![] bcast_S_S512x256 (constant S_ .f32 0x00000000#32)) (wrap (dstOf edges))
      (mulf (Host.gather gather_S512x256_S262656x1_S262656x256_1_0_n_n_0_1_1256 h (wrap (srcOf edges)))
        (broadcastInDim S262656x256 ![0, 1] bcast_S262656x1_S262656x256_0_1
          (broadcastInDim S262656x1 ![0] bcast_S262656_S262656x1_0 nrm))))
    (broadcastInDim S512x256 ![0, 1] bcast_S1x256_S512x256_0_1 (broadcastInDim S1x256 ![1] bcast_S256_S1x256_1 b))

private theorem scat256_eq : scatter_S512x256_S262656x1_S262656x256_1_0_0_1
    = Cert.EdgeOps.scatDims2 512 256 262656 scatter_S512x256_S262656x1_S262656x256_1_0_0_1_wf := rfl

private theorem post256_apply (h : FVec Ideal S512x256 .f32) (nrm : FVec Ideal S262656 .f32) (b : FVec Ideal S256 .f32)
    (j : Fin 512) (c : Fin 256) :
    post256 h nrm b (ix2 j c)
      = (0 + ((∑ i : Fin 512, h (ix2 i c) * nrm (ix1 (edgePair i j))) + h (ix2 j c) * nrm (ix1 (edgeLoop j)))) + b (ix1 c) := by
  unfold post256
  rw [addf_apply, bias256_at]
  unfold Host.scatterAdd
  rw [Ideal.hostScatterAdd_def, scat256_eq, Cert.EdgeOps.scatterAdd2_apply]
  rw [broadcastInDim_scalar_apply, constant_apply, Ideal.ofBits_zero_f32,
    sum_edges_into (fun e => mulf (Host.gather gather_S512x256_S262656x1_S262656x256_1_0_n_n_0_1_1256 h (wrap (srcOf edges)))
          (broadcastInDim S262656x256 ![0, 1] bcast_S262656x1_S262656x256_0_1
            (broadcastInDim S262656x1 ![0] bcast_S262656_S262656x1_0 nrm)) (ix2 e c)) j]
  have hp : ∀ i : Fin 512, mulf (Host.gather gather_S512x256_S262656x1_S262656x256_1_0_n_n_0_1_1256 h (wrap (srcOf edges)))
          (broadcastInDim S262656x256 ![0, 1] bcast_S262656x1_S262656x256_0_1
            (broadcastInDim S262656x1 ![0] bcast_S262656_S262656x1_0 nrm)) (ix2 (edgePair i j) c)
        = h (ix2 i c) * nrm (ix1 (edgePair i j)) := by
    intro i
    rw [mulf_apply, gather256_at h _ (edgePair i j) i c (wrap_src_pair i j), spread256_at]
  have hl : mulf (Host.gather gather_S512x256_S262656x1_S262656x256_1_0_n_n_0_1_1256 h (wrap (srcOf edges)))
          (broadcastInDim S262656x256 ![0, 1] bcast_S262656x1_S262656x256_0_1
            (broadcastInDim S262656x1 ![0] bcast_S262656_S262656x1_0 nrm)) (ix2 (edgeLoop j) c)
        = h (ix2 j c) * nrm (ix1 (edgeLoop j)) := by
    rw [mulf_apply, gather256_at h _ (edgeLoop j) j c (wrap_src_loop j), spread256_at]
  simp only [hp, hl]

section OneGraph

variable (Ar : Fin 512 → Fin 512 → ℝ) (A : FVec Ideal S512x512 .f32) (hA : ∀ i j : Fin 512, A (ix2 i j) = ((Ar i j : ℝ) : EReal))
include hA

private theorem post128_real (hr : Fin 512 → Fin 128 → ℝ) (br : Fin 128 → ℝ) (h : FVec Ideal S512x128 .f32)
    (b : FVec Ideal S128 .f32) (hh : ∀ (i : Fin 512) (c : Fin 128), h (ix2 i c) = ((hr i c : ℝ) : EReal))
    (hb : ∀ c : Fin 128, b (ix1 c) = ((br c : ℝ) : EReal)) (j : Fin 512) (c : Fin 128) :
    post128 h (norms (F := Ideal) edges (flat A)) b (ix2 j c) = ((Cert.Gcn.propEdges Ar hr j c + br c : ℝ) : EReal) := by
  rw [post128_apply]
  simp only [hh, hb, norms_pair Ar A hA, norms_loop Ar A hA]
  rw [Cert.Gcn.coe_sum_mul, ← EReal.coe_mul, ← EReal.coe_add, zero_add, ← EReal.coe_add]
  rfl

private theorem post256_real (hr : Fin 512 → Fin 256 → ℝ) (br : Fin 256 → ℝ) (h : FVec Ideal S512x256 .f32)
    (b : FVec Ideal S256 .f32) (hh : ∀ (i : Fin 512) (c : Fin 256), h (ix2 i c) = ((hr i c : ℝ) : EReal))
    (hb : ∀ c : Fin 256, b (ix1 c) = ((br c : ℝ) : EReal)) (j : Fin 512) (c : Fin 256) :
    post256 h (norms (F := Ideal) edges (flat A)) b (ix2 j c) = ((Cert.Gcn.propEdges Ar hr j c + br c : ℝ) : EReal) := by
  rw [post256_apply]
  simp only [hh, hb, norms_pair Ar A hA, norms_loop Ar A hA]
  rw [Cert.Gcn.coe_sum_mul, ← EReal.coe_mul, ← EReal.coe_add, zero_add, ← EReal.coe_add]
  rfl

theorem layerA_real (xr : Fin 512 → Fin 512 → ℝ) (Wr : Fin 512 → Fin 128 → ℝ) (br : Fin 128 → ℝ)
    (x : FVec Ideal S512x512 .f32) (W : FVec Ideal S512x128 .f32) (b : FVec Ideal S128 .f32)
    (hx : ∀ (i : Fin 512) (k : Fin 512), x (ix2 i k) = ((xr i k : ℝ) : EReal))
    (hW : ∀ (k : Fin 512) (c : Fin 128), W (ix2 k c) = ((Wr k c : ℝ) : EReal))
    (hb : ∀ c : Fin 128, b (ix1 c) = ((br c : ℝ) : EReal)) (j : Fin 512) (c : Fin 128) :
    layerA (F := Ideal) edges (flat A) x W b (ix2 j c) = ((Cert.Gcn.layer Ar xr Wr br j c : ℝ) : EReal) := by
  have hh : ∀ (i : Fin 512) (c : Fin 128),
      Host.dotGeneral dot_S512x512_S512x128_S512x128_1_0_0_1_n_n none x W (ix2 i c) = ((Cert.Gcn.mm xr Wr i c : ℝ) : EReal) := by
    intro i c
    refine (Cert.PlainDot.dotGeneral_apply (M := 512) (K := 512) (N := 128) none .single x W (ix2 i c)).trans ?_
    show (∑ k : Fin 512, x (ix2 i k) * W (ix2 k c)) = _
    simp only [hx, hW]
    exact Cert.Gcn.coe_sum_mul _ _ _
  exact post128_real Ar A hA (Cert.Gcn.mm xr Wr) br _ b hh hb j c

theorem layerB_real (xr : Fin 512 → Fin 128 → ℝ) (Wr : Fin 128 → Fin 256 → ℝ) (br : Fin 256 → ℝ)
    (x : FVec Ideal S512x128 .f32) (W : FVec Ideal S128x256 .f32) (b : FVec Ideal S256 .f32)
    (hx : ∀ (i : Fin 512) (k : Fin 128), x (ix2 i k) = ((xr i k : ℝ) : EReal))
    (hW : ∀ (k : Fin 128) (c : Fin 256), W (ix2 k c) = ((Wr k c : ℝ) : EReal))
    (hb : ∀ c : Fin 256, b (ix1 c) = ((br c : ℝ) : EReal)) (j : Fin 512) (c : Fin 256) :
    layerB (F := Ideal) edges (flat A) x W b (ix2 j c) = ((Cert.Gcn.layer Ar xr Wr br j c : ℝ) : EReal) := by
  have hh : ∀ (i : Fin 512) (c : Fin 256),
      Host.dotGeneral dot_S512x128_S128x256_S512x256_1_0_0_1_n_n none x W (ix2 i c) = ((Cert.Gcn.mm xr Wr i c : ℝ) : EReal) := by
    intro i c
    refine (Cert.PlainDot.dotGeneral_apply (M := 512) (K := 128) (N := 256) none .single x W (ix2 i c)).trans ?_
    show (∑ k : Fin 128, x (ix2 i k) * W (ix2 k c)) = _
    simp only [hx, hW]
    exact Cert.Gcn.coe_sum_mul _ _ _
  exact post256_real Ar A hA (Cert.Gcn.mm xr Wr) br _ b hh hb j c

theorem layerC_real (xr : Fin 512 → Fin 256 → ℝ) (Wr : Fin 256 → Fin 128 → ℝ) (br : Fin 128 → ℝ)
    (x : FVec Ideal S512x256 .f32) (W : FVec Ideal S256x128 .f32) (b : FVec Ideal S128 .f32)
    (hx : ∀ (i : Fin 512) (k : Fin 256), x (ix2 i k) = ((xr i k : ℝ) : EReal))
    (hW : ∀ (k : Fin 256) (c : Fin 128), W (ix2 k c) = ((Wr k c : ℝ) : EReal))
    (hb : ∀ c : Fin 128, b (ix1 c) = ((br c : ℝ) : EReal)) (j : Fin 512) (c : Fin 128) :
    layerC (F := Ideal) edges (flat A) x W b (ix2 j c) = ((Cert.Gcn.layer Ar xr Wr br j c : ℝ) : EReal) := by
  have hh : ∀ (i : Fin 512) (c : Fin 128),
      Host.dotGeneral dot_S512x256_S256x128_S512x128_1_0_0_1_n_n none x W (ix2 i c) = ((Cert.Gcn.mm xr Wr i c : ℝ) : EReal) := by
    intro i c
    refine (Cert.PlainDot.dotGeneral_apply (M := 512) (K := 256) (N := 128) none .single x W (ix2 i c)).trans ?_
    show (∑ k : Fin 256, x (ix2 i k) * W (ix2 k c)) = _
    simp only [hx, hW]
    exact Cert.Gcn.coe_sum_mul _ _ _
  exact post128_real Ar A hA (Cert.Gcn.mm xr Wr) br _ b hh hb j c

theorem net_real (W1r : Fin 512 → Fin 128 → ℝ) (b1r : Fin 128 → ℝ) (W2r : Fin 128 → Fin 256 → ℝ) (b2r : Fin 256 → ℝ)
    (W3r : Fin 256 → Fin 128 → ℝ) (b3r : Fin 128 → ℝ)
    (W1 : FVec Ideal S512x128 .f32) (b1 : FVec Ideal S128 .f32) (W2 : FVec Ideal S128x256 .f32) (b2 : FVec Ideal S256 .f32)
    (W3 : FVec Ideal S256x128 .f32) (b3 : FVec Ideal S128 .f32)
    (hW1 : ∀ (k : Fin 512) (c : Fin 128), W1 (ix2 k c) = ((W1r k c : ℝ) : EReal)) (hb1 : ∀ c : Fin 128, b1 (ix1 c) = ((b1r c : ℝ) : EReal))
    (hW2 : ∀ (k : Fin 128) (c : Fin 256), W2 (ix2 k c) = ((W2r k c : ℝ) : EReal)) (hb2 : ∀ c : Fin 256, b2 (ix1 c) = ((b2r c : ℝ) : EReal))
    (hW3 : ∀ (k : Fin 256) (c : Fin 128), W3 (ix2 k c) = ((W3r k c : ℝ) : EReal)) (hb3 : ∀ c : Fin 128, b3 (ix1 c) = ((b3r c : ℝ) : EReal))
    (j : Fin 512) (c : Fin 128) :
    net (F := Ideal) A W1 b1 W2 b2 W3 b3 (ix2 j c) = ((Cert.Gcn.refOut Ar W1r b1r W2r b2r W3r b3r j c : ℝ) : EReal) := by
  unfold net Cert.Gcn.refOut
  exact layerC_real Ar A hA (Cert.Gcn.layer Ar (Cert.Gcn.layer Ar Ar W1r b1r) W2r b2r) W3r b3r _ W3 b3
    (fun i k => layerB_real Ar A hA (Cert.Gcn.layer Ar Ar W1r b1r) W2r b2r _ W2 b2
      (fun i' k' => layerA_real Ar A hA Ar W1r b1r A W1 b1 hA hW1 hb1 i' k') hW2 hb2 i k) hW3 hb3 j c

end OneGraph

private theorem slab_at (o : FVec Ideal S512x128 .f32) (j : Fin 512) (c : Fin 128) :
    broadcastInDim S1x512x128 ![1, 2] bcast_S512x128_S1x512x128_1_2 o (ix3 (0 : Fin 1) j c) = o (ix2 j c) := by
  refine broadcastInDim_apply _ bcast_S512x128_S1x512x128_1_2 _ (ix3 (0 : Fin 1) j c) (ix2 j c) ?_
  intro a
  match a with
  | ⟨0, _⟩ => rfl
  | ⟨1, _⟩ => rfl

private theorem stacked_at0 (o0 o1 o2 o3 : FVec Ideal S512x128 .f32) (j : Fin 512) (c : Fin 128) :
    stacked o0 o1 o2 o3 (ix3 (0 : Fin 4) j c) = o0 (ix2 j c) := by
  unfold stacked
  refine (concatenate_apply_piece (t := S4x512x128) (0 : Fin 3) _ _ (ix3 (0 : Fin 4) j c)
    0 (by simp) S1x512x128 _ rfl rfl 0 rfl (ix3 (0 : Fin 1) j c) ?_ ?_).trans (slab_at o0 j c)
  · intro b hb
    match b, hb with
    | ⟨0, _⟩, hb => exact absurd rfl hb
    | ⟨1, _⟩, _ => rfl
    | ⟨2, _⟩, _ => rfl
  · rfl

private theorem stacked_at1 (o0 o1 o2 o3 : FVec Ideal S512x128 .f32) (j : Fin 512) (c : Fin 128) :
    stacked o0 o1 o2 o3 (ix3 (1 : Fin 4) j c) = o1 (ix2 j c) := by
  unfold stacked
  refine (concatenate_apply_piece (t := S4x512x128) (0 : Fin 3) _ _ (ix3 (1 : Fin 4) j c)
    1 (by simp) S1x512x128 _ rfl rfl 1 rfl (ix3 (0 : Fin 1) j c) ?_ ?_).trans (slab_at o1 j c)
  · intro b hb
    match b, hb with
    | ⟨0, _⟩, hb => exact absurd rfl hb
    | ⟨1, _⟩, _ => rfl
    | ⟨2, _⟩, _ => rfl
  · rfl

private theorem stacked_at2 (o0 o1 o2 o3 : FVec Ideal S512x128 .f32) (j : Fin 512) (c : Fin 128) :
    stacked o0 o1 o2 o3 (ix3 (2 : Fin 4) j c) = o2 (ix2 j c) := by
  unfold stacked
  refine (concatenate_apply_piece (t := S4x512x128) (0 : Fin 3) _ _ (ix3 (2 : Fin 4) j c)
    2 (by simp) S1x512x128 _ rfl rfl 2 rfl (ix3 (0 : Fin 1) j c) ?_ ?_).trans (slab_at o2 j c)
  · intro b hb
    match b, hb with
    | ⟨0, _⟩, hb => exact absurd rfl hb
    | ⟨1, _⟩, _ => rfl
    | ⟨2, _⟩, _ => rfl
  · rfl

private theorem stacked_at3 (o0 o1 o2 o3 : FVec Ideal S512x128 .f32) (j : Fin 512) (c : Fin 128) :
    stacked o0 o1 o2 o3 (ix3 (3 : Fin 4) j c) = o3 (ix2 j c) := by
  unfold stacked
  refine (concatenate_apply_piece (t := S4x512x128) (0 : Fin 3) _ _ (ix3 (3 : Fin 4) j c)
    3 (by simp) S1x512x128 _ rfl rfl 3 rfl (ix3 (0 : Fin 1) j c) ?_ ?_).trans (slab_at o3 j c)
  · intro b hb
    match b, hb with
    | ⟨0, _⟩, hb => exact absurd rfl hb
    | ⟨1, _⟩, _ => rfl
    | ⟨2, _⟩, _ => rfl
  · rfl

private theorem graph0_at (flows : FVec Ideal S4x512x512 .f32) (a b : Fin 512) :
    graph0 flows (ix2 a b) = flows (ix3 (0 : Fin 4) a b) := by
  unfold graph0
  refine (shapeCast_apply _ shapeCasts_S1x512x512_S512x512 (ix2 a b) (ix3 (0 : Fin 1) a b) ?_).trans ?_
  · rw [Shape.rowMajor_val_three, Shape.rowMajor_val_two]
    show (0 * 512 + a.val) * 512 + b.val = a.val * 512 + b.val
    omega
  refine extractStridedSlice_apply _ _ slices_S4x512x512_S1x512x512_0_0_0 (ix3 (0 : Fin 1) a b) (ix3 (0 : Fin 4) a b) ?_
  intro x
  match x with
  | ⟨0, _⟩ => rfl
  | ⟨1, _⟩ =>
    show a.val = 0 + a.val
    omega
  | ⟨2, _⟩ =>
    show b.val = 0 + b.val
    omega

private theorem graph1_at (flows : FVec Ideal S4x512x512 .f32) (a b : Fin 512) :
    graph1 flows (ix2 a b) = flows (ix3 (1 : Fin 4) a b) := by
  unfold graph1
  refine (shapeCast_apply _ shapeCasts_S1x512x512_S512x512 (ix2 a b) (ix3 (0 : Fin 1) a b) ?_).trans ?_
  · rw [Shape.rowMajor_val_three, Shape.rowMajor_val_two]
    show (0 * 512 + a.val) * 512 + b.val = a.val * 512 + b.val
    omega
  refine extractStridedSlice_apply _ _ slices_S4x512x512_S1x512x512_1_0_0 (ix3 (0 : Fin 1) a b) (ix3 (1 : Fin 4) a b) ?_
  intro x
  match x with
  | ⟨0, _⟩ => rfl
  | ⟨1, _⟩ =>
    show a.val = 0 + a.val
    omega
  | ⟨2, _⟩ =>
    show b.val = 0 + b.val
    omega

private theorem graph2_at (flows : FVec Ideal S4x512x512 .f32) (a b : Fin 512) :
    graph2 flows (ix2 a b) = flows (ix3 (2 : Fin 4) a b) := by
  unfold graph2
  refine (shapeCast_apply _ shapeCasts_S1x512x512_S512x512 (ix2 a b) (ix3 (0 : Fin 1) a b) ?_).trans ?_
  · rw [Shape.rowMajor_val_three, Shape.rowMajor_val_two]
    show (0 * 512 + a.val) * 512 + b.val = a.val * 512 + b.val
    omega
  refine extractStridedSlice_apply _ _ slices_S4x512x512_S1x512x512_2_0_0 (ix3 (0 : Fin 1) a b) (ix3 (2 : Fin 4) a b) ?_
  intro x
  match x with
  | ⟨0, _⟩ => rfl
  | ⟨1, _⟩ =>
    show a.val = 0 + a.val
    omega
  | ⟨2, _⟩ =>
    show b.val = 0 + b.val
    omega

private theorem graph3_at (flows : FVec Ideal S4x512x512 .f32) (a b : Fin 512) :
    graph3 flows (ix2 a b) = flows (ix3 (3 : Fin 4) a b) := by
  unfold graph3
  refine (shapeCast_apply _ shapeCasts_S1x512x512_S512x512 (ix2 a b) (ix3 (0 : Fin 1) a b) ?_).trans ?_
  · rw [Shape.rowMajor_val_three, Shape.rowMajor_val_two]
    show (0 * 512 + a.val) * 512 + b.val = a.val * 512 + b.val
    omega
  refine extractStridedSlice_apply _ _ slices_S4x512x512_S1x512x512_3_0_0 (ix3 (0 : Fin 1) a b) (ix3 (3 : Fin 4) a b) ?_
  intro x
  match x with
  | ⟨0, _⟩ => rfl
  | ⟨1, _⟩ =>
    show a.val = 0 + a.val
    omega
  | ⟨2, _⟩ =>
    show b.val = 0 + b.val
    omega

theorem result_real (r0 : S4x512x512.Idx → ℝ) (r1 : S512x128.Idx → ℝ) (r2 : S128.Idx → ℝ) (r3 : S128x256.Idx → ℝ)
    (r4 : S256.Idx → ℝ) (r5 : S256x128.Idx → ℝ) (r6 : S128.Idx → ℝ) :
    result (F := Ideal) (fun i => ((r0 i : ℝ) : EReal)) (fun i => ((r1 i : ℝ) : EReal)) (fun i => ((r2 i : ℝ) : EReal))
        (fun i => ((r3 i : ℝ) : EReal)) (fun i => ((r4 i : ℝ) : EReal)) (fun i => ((r5 i : ℝ) : EReal))
        (fun i => ((r6 i : ℝ) : EReal))
      = Cert.Gcn.G r0 r1 r2 r3 r4 r5 r6 := by
  funext i
  obtain ⟨g, j, c, rfl⟩ : ∃ (g : Fin 4) (j : Fin 512) (c : Fin 128), i = ix3 g j c := ⟨i 0, i 1, i 2, eq_ix3 i⟩
  show _ = ((Cert.Gcn.outR r0 r1 r2 r3 r4 r5 r6 g j c : ℝ) : EReal)
  unfold result Cert.Gcn.outR
  match g with
  | ⟨0, _⟩ =>
    refine (stacked_at0 _ _ _ _ j c).trans ?_
    exact net_real (fun a b => r0 (ix3 (0 : Fin 4) a b)) _ (fun a b => graph0_at _ a b)
      (fun a b => r1 (ix2 a b)) (fun a => r2 (ix1 a)) (fun a b => r3 (ix2 a b)) (fun a => r4 (ix1 a))
      (fun a b => r5 (ix2 a b)) (fun a => r6 (ix1 a)) _ _ _ _ _ _
      (fun _ _ => rfl) (fun _ => rfl) (fun _ _ => rfl) (fun _ => rfl) (fun _ _ => rfl) (fun _ => rfl) j c
  | ⟨1, _⟩ =>
    refine (stacked_at1 _ _ _ _ j c).trans ?_
    exact net_real (fun a b => r0 (ix3 (1 : Fin 4) a b)) _ (fun a b => graph1_at _ a b)
      (fun a b => r1 (ix2 a b)) (fun a => r2 (ix1 a)) (fun a b => r3 (ix2 a b)) (fun a => r4 (ix1 a))
      (fun a b => r5 (ix2 a b)) (fun a => r6 (ix1 a)) _ _ _ _ _ _
      (fun _ _ => rfl) (fun _ => rfl) (fun _ _ => rfl) (fun _ => rfl) (fun _ _ => rfl) (fun _ => rfl) j c
  | ⟨2, _⟩ =>
    refine (stacked_at2 _ _ _ _ j c).trans ?_
    exact net_real (fun a b => r0 (ix3 (2 : Fin 4) a b)) _ (fun a b => graph2_at _ a b)
      (fun a b => r1 (ix2 a b)) (fun a => r2 (ix1 a)) (fun a b => r3 (ix2 a b)) (fun a => r4 (ix1 a))
      (fun a b => r5 (ix2 a b)) (fun a => r6 (ix1 a)) _ _ _ _ _ _
      (fun _ _ => rfl) (fun _ => rfl) (fun _ _ => rfl) (fun _ => rfl) (fun _ _ => rfl) (fun _ => rfl) j c
  | ⟨3, _⟩ =>
    refine (stacked_at3 _ _ _ _ j c).trans ?_
    exact net_real (fun a b => r0 (ix3 (3 : Fin 4) a b)) _ (fun a b => graph3_at _ a b)
      (fun a b => r1 (ix2 a b)) (fun a => r2 (ix1 a)) (fun a b => r3 (ix2 a b)) (fun a => r4 (ix1 a))
      (fun a b => r5 (ix2 a b)) (fun a => r6 (ix1 a)) _ _ _ _ _ _
      (fun _ _ => rfl) (fun _ => rfl) (fun _ _ => rfl) (fun _ => rfl) (fun _ _ => rfl) (fun _ => rfl) j c

end Cert.ReferenceIdeal.Stages

end
-- ==== Proof.lean ====
import proofs.«148651_g6150393168184_cont_sun_c4_511_5_alg».proof.Defs
import proofs.«148651_g6150393168184_cont_sun_c4_511_5_alg».proof.Proof.Gen.Kernel
import proofs.«148651_g6150393168184_cont_sun_c4_511_5_alg».proof.Proof.Gen.Kernel.Skeleton
import proofs.«148651_g6150393168184_cont_sun_c4_511_5_alg».proof.Proof.Gen.Kernel.Launch
import proofs.«148651_g6150393168184_cont_sun_c4_511_5_alg».proof.Proof.Gen.Kernel.Points
import proofs.«148651_g6150393168184_cont_sun_c4_511_5_alg».proof.Proof.Gen.Kernel.Frame
import proofs.«148651_g6150393168184_cont_sun_c4_511_5_alg».proof.Proof.Gen.KernelIdeal
import proofs.«148651_g6150393168184_cont_sun_c4_511_5_alg».proof.Proof.Gen.KernelIdeal.Skeleton
import proofs.«148651_g6150393168184_cont_sun_c4_511_5_alg».proof.Proof.Gen.KernelIdeal.Launch
import proofs.«148651_g6150393168184_cont_sun_c4_511_5_alg».proof.Proof.Gen.KernelIdeal.Points
import proofs.«148651_g6150393168184_cont_sun_c4_511_5_alg».proof.Proof.Gen.KernelIdeal.Frame
import proofs.«148651_g6150393168184_cont_sun_c4_511_5_alg».proof.Proof.Gen.ReferenceIdeal
import proofs.«148651_g6150393168184_cont_sun_c4_511_5_alg».proof.Proof.Gen.Pre_finite_inputs
import proofs.«148651_g6150393168184_cont_sun_c4_511_5_alg».proof.Proof.Gen.KernelIdeal.Value
import proofs.«148651_g6150393168184_cont_sun_c4_511_5_alg».proof.Proof.Finite
import proofs.«148651_g6150393168184_cont_sun_c4_511_5_alg».proof.Proof.KernelValue
import proofs.«148651_g6150393168184_cont_sun_c4_511_5_alg».proof.Proof.RefRun
import proofs.«148651_g6150393168184_cont_sun_c4_511_5_alg».proof.Proof.RefLayer
import Idealize.ShloMosaic.Adequacy
import Idealize.ShloMosaic.Init

/-! Over real inputs both programs compute each of the four graphs' three-layer graph convolution; the kernel reassociates it, which is sound because propagation is linear over the reals. -/

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.RefRun.run (F := Ideal) m ρ)

theorem algebraic : Cert.algebraic_KernelIdeal_ReferenceIdeal := by
  intro m ρ m' ρ' hpre hagree

  have hr := fun c => Cert.Finite.reals_of_pre _ _ _ _ _ _ _ (hpre c)
  choose r0 h0 using fun c => (hr c).1
  choose r1 h1 using fun c => (hr c).2.1
  choose r2 h2 using fun c => (hr c).2.2.1
  choose r3 h3 using fun c => (hr c).2.2.2.1
  choose r4 h4 using fun c => (hr c).2.2.2.2.1
  choose r5 h5 using fun c => (hr c).2.2.2.2.2.1
  choose r6 h6 using fun c => (hr c).2.2.2.2.2.2
  refine ⟨fun c => Cert.Gcn.G (r0 c) (r1 c) (r2 c) (r3 c) (r4 c) (r5 c) (r6 c), ?_, ?_⟩
  ·
    exact (θ_run Cert.KernelIdeal.defs _ _).mono
      (fun _ h c => ⟨(h c).1.trans (Cert.KernelIdeal.Whole.final m c (r0 c) (r1 c) (r2 c) (r3 c) (r4 c) (r5 c) (r6 c)
        (h0 c) (h1 c) (h2 c) (h3 c) (h4 c) (h5 c) (h6 c)), (h c).2⟩)
      (Cert.KernelIdeal.Value.run_blocks (F := Ideal) m ρ)
  ·
    refine (θ_run Cert.ReferenceIdeal.defs _ _).mono (fun _ h c => ⟨(h c).1.trans ?_, (h c).2⟩)
      (Cert.ReferenceIdeal.RefRun.run (F := Ideal) m' ρ')
    rw [(hagree c).1, (hagree c).2.1, (hagree c).2.2.1, (hagree c).2.2.2.1, (hagree c).2.2.2.2.1, (hagree c).2.2.2.2.2.1,
      (hagree c).2.2.2.2.2.2, h0 c, h1 c, h2 c, h3 c, h4 c, h5 c, h6 c]
    exact Cert.ReferenceIdeal.Stages.result_real (r0 c) (r1 c) (r2 c) (r3 c) (r4 c) (r5 c) (r6 c)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
